-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v50_0)) (v1 : (c : Dev Cert.KernelIdeal.nD) → Buf (Elt Ideal) ((c.tc : Thread Cert.KernelIdeal.nD Cert.KernelIdeal.τ).loc Cert.KernelIdeal.main_v50_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50_0) = v0 c
          ∧ r.2.mem ((c.tc : Thread Cert.KernelIdeal.nD Cert.KernelIdeal.τ).loc Cert.KernelIdeal.main_v50_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x32 : Shape := ⟨2, ![16, 32]⟩
abbrev S32 : Shape := ⟨1, ![32]⟩
abbrev S32x16 : Shape := ⟨2, ![32, 16]⟩
abbrev S16 : Shape := ⟨1, ![16]⟩
abbrev S8192x16 : Shape := ⟨2, ![8192, 16]⟩
abbrev S8192x4096 : Shape := ⟨2, ![8192, 4096]⟩
abbrev S4096x8192 : Shape := ⟨2, ![4096, 8192]⟩
abbrev S_ : Shape := ⟨0, ![]⟩

class Facts : Prop where
  bcast_S_S16x32 : S_.BroadcastsInDim S16x32 (![] : Fin 0 → Fin S16x32.rank)
  reducesTo_S16x32_S_d0_1 : S16x32.ReducesTo [0, 1] S_
  h_S_ : 0 < S_.numel
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S8192x16 : S_.BroadcastsInDim S8192x16 (![] : Fin 0 → Fin S8192x16.rank)
  reducesTo_S8192x16_S_d0_1 : S8192x16.ReducesTo [0, 1] S_
  bcast_S_S8192x4096 : S_.BroadcastsInDim S8192x4096 (![] : Fin 0 → Fin S8192x4096.rank)
  reducesTo_S8192x4096_S_d0_1 : S8192x4096.ReducesTo [0, 1] S_
  bcast_S_S4096x8192 : S_.BroadcastsInDim S4096x8192 (![] : Fin 0 → Fin S4096x8192.rank)
  reducesTo_S4096x8192_S_d0_1 : S4096x8192.ReducesTo [0, 1] S_

variable [Facts]

def fn_part7 {F : FTy → Type} [FloatOps F] (main_arg25 : FVec F S4096x8192 .f32) (main_v118 : IVec S_ 1) (main_v119 : FVec F S8192x4096 .f32) : IVec S_ 1 :=
  let main_cst_46 : FVec F S_ .f32 := constant S_ .f32 0x7F800000#32
  let main_v120 : FVec F S8192x4096 .f32 := broadcastInDim S8192x4096 ![] bcast_S_S8192x4096 main_cst_46
  let main_v121 : IVec S8192x4096 1 := cmpf .olt main_v119 main_v120
  let main_c_47 : IVec S_ 1 := constantI S_ 1 1#1
  let main_v122 : IVec S_ 1 := (fun x v => Host.reduce IntOp.andi x v reducesTo_S8192x4096_S_d0_1 h_S_) main_v121 main_c_47
  let main_v123 : IVec S_ 1 := andi main_v118 main_v122
  let main_v124 : FVec F S4096x8192 .f32 := Host.absf main_arg25
  let main_cst_48 : FVec F S_ .f32 := constant S_ .f32 0x7F800000#32
  let main_v125 : FVec F S4096x8192 .f32 := broadcastInDim S4096x8192 ![] bcast_S_S4096x8192 main_cst_48
  let main_v126 : IVec S4096x8192 1 := cmpf .olt main_v124 main_v125
  let main_c_49 : IVec S_ 1 := constantI S_ 1 1#1
  let main_v127 : IVec S_ 1 := (fun x v => Host.reduce IntOp.andi x v reducesTo_S4096x8192_S_d0_1 h_S_) main_v126 main_c_49
  let main_v128 : IVec S_ 1 := andi main_v123 main_v127
  main_v128

def fn_part6 {F : FTy → Type} [FloatOps F] (main_arg21 : FVec F S8192x16 .f32) (main_arg22 : FVec F S8192x4096 .f32) (main_arg23 : FVec F S4096x8192 .f32) (main_arg24 : FVec F S8192x4096 .f32) (main_arg25 : FVec F S4096x8192 .f32) (main_v98 : IVec S_ 1) (main_v101 : IVec S8192x16 1) (main_c_39 : IVec S_ 1) : IVec S_ 1 :=
  let main_v102 : IVec S_ 1 := (fun x v => Host.reduce IntOp.andi x v reducesTo_S8192x16_S_d0_1 h_S_) main_v101 main_c_39
  let main_v103 : IVec S_ 1 := andi main_v98 main_v102
  let main_v104 : FVec F S8192x16 .f32 := Host.absf main_arg21
  let main_cst_40 : FVec F S_ .f32 := constant S_ .f32 0x7F800000#32
  let main_v105 : FVec F S8192x16 .f32 := broadcastInDim S8192x16 ![] bcast_S_S8192x16 main_cst_40
  let main_v106 : IVec S8192x16 1 := cmpf .olt main_v104 main_v105
  let main_c_41 : IVec S_ 1 := constantI S_ 1 1#1
  let main_v107 : IVec S_ 1 := (fun x v => Host.reduce IntOp.andi x v reducesTo_S8192x16_S_d0_1 h_S_) main_v106 main_c_41
  let main_v108 : IVec S_ 1 := andi main_v103 main_v107
  let main_v109 : FVec F S8192x4096 .f32 := Host.absf main_arg22
  let main_cst_42 : FVec F S_ .f32 := constant S_ .f32 0x7F800000#32
  let main_v110 : FVec F S8192x4096 .f32 := broadcastInDim S8192x4096 ![] bcast_S_S8192x4096 main_cst_42
  let main_v111 : IVec S8192x4096 1 := cmpf .olt main_v109 main_v110
  let main_c_43 : IVec S_ 1 := constantI S_ 1 1#1
  let main_v112 : IVec S_ 1 := (fun x v => Host.reduce IntOp.andi x v reducesTo_S8192x4096_S_d0_1 h_S_) main_v111 main_c_43
  let main_v113 : IVec S_ 1 := andi main_v108 main_v112
  let main_v114 : FVec F S4096x8192 .f32 := Host.absf main_arg23
  let main_cst_44 : FVec F S_ .f32 := constant S_ .f32 0x7F800000#32
  let main_v115 : FVec F S4096x8192 .f32 := broadcastInDim S4096x8192 ![] bcast_S_S4096x8192 main_cst_44
  let main_v116 : IVec S4096x8192 1 := cmpf .olt main_v114 main_v115
  let main_c_45 : IVec S_ 1 := constantI S_ 1 1#1
  let main_v117 : IVec S_ 1 := (fun x v => Host.reduce IntOp.andi x v reducesTo_S4096x8192_S_d0_1 h_S_) main_v116 main_c_45
  let main_v118 : IVec S_ 1 := andi main_v113 main_v117
  let main_v119 : FVec F S8192x4096 .f32 := Host.absf main_arg24
  fn_part7 (F := F) main_arg25 main_v118 main_v119

def fn_part5 {F : FTy → Type} [FloatOps F] (main_arg18 : FVec F S16x32 .f32) (main_arg19 : FVec F S16 .f32) (main_arg20 : FVec F S8192x16 .f32) (main_arg21 : FVec F S8192x16 .f32) (main_arg22 : FVec F S8192x4096 .f32) (main_arg23 : FVec F S4096x8192 .f32) (main_arg24 : FVec F S8192x4096 .f32) (main_arg25 : FVec F S4096x8192 .f32) (main_v83 : IVec S_ 1) (main_v84 : FVec F S16 .f32) (main_cst_32 : FVec F S_ .f32) : IVec S_ 1 :=
  let main_v85 : FVec F S16 .f32 := broadcastInDim S16 ![] bcast_S_S16 main_cst_32
  let main_v86 : IVec S16 1 := cmpf .olt main_v84 main_v85
  let main_c_33 : IVec S_ 1 := constantI S_ 1 1#1
  let main_v87 : IVec S_ 1 := (fun x v => Host.reduce IntOp.andi x v reducesTo_S16_S_d0 h_S_) main_v86 main_c_33
  let main_v88 : IVec S_ 1 := andi main_v83 main_v87
  let main_v89 : FVec F S16x32 .f32 := Host.absf main_arg18
  let main_cst_34 : FVec F S_ .f32 := constant S_ .f32 0x7F800000#32
  let main_v90 : FVec F S16x32 .f32 := broadcastInDim S16x32 ![] bcast_S_S16x32 main_cst_34
  let main_v91 : IVec S16x32 1 := cmpf .olt main_v89 main_v90
  let main_c_35 : IVec S_ 1 := constantI S_ 1 1#1
  let main_v92 : IVec S_ 1 := (fun x v => Host.reduce IntOp.andi x v reducesTo_S16x32_S_d0_1 h_S_) main_v91 main_c_35
  let main_v93 : IVec S_ 1 := andi main_v88 main_v92
  let main_v94 : FVec F S16 .f32 := Host.absf main_arg19
  let main_cst_36 : FVec F S_ .f32 := constant S_ .f32 0x7F800000#32
  let main_v95 : FVec F S16 .f32 := broadcastInDim S16 ![] bcast_S_S16 main_cst_36
  let main_v96 : IVec S16 1 := cmpf .olt main_v94 main_v95
  let main_c_37 : IVec S_ 1 := constantI S_ 1 1#1
  let main_v97 : IVec S_ 1 := (fun x v => Host.reduce IntOp.andi x v reducesTo_S16_S_d0 h_S_) main_v96 main_c_37
  let main_v98 : IVec S_ 1 := andi main_v93 main_v97
  let main_v99 : FVec F S8192x16 .f32 := Host.absf main_arg20
  let main_cst_38 : FVec F S_ .f32 := constant S_ .f32 0x7F800000#32
  let main_v100 : FVec F S8192x16 .f32 := broadcastInDim S8192x16 ![] bcast_S_S8192x16 main_cst_38
  let main_v101 : IVec S8192x16 1 := cmpf .olt main_v99 main_v100
  let main_c_39 : IVec S_ 1 := constantI S_ 1 1#1
  fn_part6 (F := F) main_arg21 main_arg22 main_arg23 main_arg24 main_arg25 main_v98 main_v101 main_c_39

def fn_part4 {F : FTy → Type} [FloatOps F] (main_arg14 : FVec F S16x32 .f32) (main_arg15 : FVec F S16 .f32) (main_arg16 : FVec F S16x32 .f32) (main_arg17 : FVec F S16 .f32) (main_arg18 : FVec F S16x32 .f32) (main_arg19 : FVec F S16 .f32) (main_arg20 : FVec F S8192x16 .f32) (main_arg21 : FVec F S8192x16 .f32) (main_arg22 : FVec F S8192x4096 .f32) (main_arg23 : FVec F S4096x8192 .f32) (main_arg24 : FVec F S8192x4096 .f32) (main_arg25 : FVec F S4096x8192 .f32) (main_v63 : IVec S_ 1) (main_v67 : IVec S_ 1) : IVec S_ 1 :=
  let main_v68 : IVec S_ 1 := andi main_v63 main_v67
  let main_v69 : FVec F S16x32 .f32 := Host.absf main_arg14
  let main_cst_26 : FVec F S_ .f32 := constant S_ .f32 0x7F800000#32
  let main_v70 : FVec F S16x32 .f32 := broadcastInDim S16x32 ![] bcast_S_S16x32 main_cst_26
  let main_v71 : IVec S16x32 1 := cmpf .olt main_v69 main_v70
  let main_c_27 : IVec S_ 1 := constantI S_ 1 1#1
  let main_v72 : IVec S_ 1 := (fun x v => Host.reduce IntOp.andi x v reducesTo_S16x32_S_d0_1 h_S_) main_v71 main_c_27
  let main_v73 : IVec S_ 1 := andi main_v68 main_v72
  let main_v74 : FVec F S16 .f32 := Host.absf main_arg15
  let main_cst_28 : FVec F S_ .f32 := constant S_ .f32 0x7F800000#32
  let main_v75 : FVec F S16 .f32 := broadcastInDim S16 ![] bcast_S_S16 main_cst_28
  let main_v76 : IVec S16 1 := cmpf .olt main_v74 main_v75
  let main_c_29 : IVec S_ 1 := constantI S_ 1 1#1
  let main_v77 : IVec S_ 1 := (fun x v => Host.reduce IntOp.andi x v reducesTo_S16_S_d0 h_S_) main_v76 main_c_29
  let main_v78 : IVec S_ 1 := andi main_v73 main_v77
  let main_v79 : FVec F S16x32 .f32 := Host.absf main_arg16
  let main_cst_30 : FVec F S_ .f32 := constant S_ .f32 0x7F800000#32
  let main_v80 : FVec F S16x32 .f32 := broadcastInDim S16x32 ![] bcast_S_S16x32 main_cst_30
  let main_v81 : IVec S16x32 1 := cmpf .olt main_v79 main_v80
  let main_c_31 : IVec S_ 1 := constantI S_ 1 1#1
  let main_v82 : IVec S_ 1 := (fun x v => Host.reduce IntOp.andi x v reducesTo_S16x32_S_d0_1 h_S_) main_v81 main_c_31
  let main_v83 : IVec S_ 1 := andi main_v78 main_v82
  let main_v84 : FVec F S16 .f32 := Host.absf main_arg17
  let main_cst_32 : FVec F S_ .f32 := constant S_ .f32 0x7F800000#32
  fn_part5 (F := F) main_arg18 main_arg19 main_arg20 main_arg21 main_arg22 main_arg23 main_arg24 main_arg25 main_v83 main_v84 main_cst_32

def fn_part3 {F : FTy → Type} [FloatOps F] (main_arg11 : FVec F S16 .f32) (main_arg12 : FVec F S16x32 .f32) (main_arg13 : FVec F S16 .f32) (main_arg14 : FVec F S16x32 .f32) (main_arg15 : FVec F S16 .f32) (main_arg16 : FVec F S16x32 .f32) (main_arg17 : FVec F S16 .f32) (main_arg18 : FVec F S16x32 .f32) (main_arg19 : FVec F S16 .f32) (main_arg20 : FVec F S8192x16 .f32) (main_arg21 : FVec F S8192x16 .f32) (main_arg22 : FVec F S8192x4096 .f32) (main_arg23 : FVec F S4096x8192 .f32) (main_arg24 : FVec F S8192x4096 .f32) (main_arg25 : FVec F S4096x8192 .f32) (main_v48 : IVec S_ 1) (main_v49 : FVec F S32x16 .f32) (main_v50 : FVec F S32x16 .f32) : IVec S_ 1 :=
  let main_v51 : IVec S32x16 1 := cmpf .olt main_v49 main_v50
  let main_c_19 : IVec S_ 1 := constantI S_ 1 1#1
  let main_v52 : IVec S_ 1 := (fun x v => Host.reduce IntOp.andi x v reducesTo_S32x16_S_d0_1 h_S_) main_v51 main_c_19
  let main_v53 : IVec S_ 1 := andi main_v48 main_v52
  let main_v54 : FVec F S16 .f32 := Host.absf main_arg11
  let main_cst_20 : FVec F S_ .f32 := constant S_ .f32 0x7F800000#32
  let main_v55 : FVec F S16 .f32 := broadcastInDim S16 ![] bcast_S_S16 main_cst_20
  let main_v56 : IVec S16 1 := cmpf .olt main_v54 main_v55
  let main_c_21 : IVec S_ 1 := constantI S_ 1 1#1
  let main_v57 : IVec S_ 1 := (fun x v => Host.reduce IntOp.andi x v reducesTo_S16_S_d0 h_S_) main_v56 main_c_21
  let main_v58 : IVec S_ 1 := andi main_v53 main_v57
  let main_v59 : FVec F S16x32 .f32 := Host.absf main_arg12
  let main_cst_22 : FVec F S_ .f32 := constant S_ .f32 0x7F800000#32
  let main_v60 : FVec F S16x32 .f32 := broadcastInDim S16x32 ![] bcast_S_S16x32 main_cst_22
  let main_v61 : IVec S16x32 1 := cmpf .olt main_v59 main_v60
  let main_c_23 : IVec S_ 1 := constantI S_ 1 1#1
  let main_v62 : IVec S_ 1 := (fun x v => Host.reduce IntOp.andi x v reducesTo_S16x32_S_d0_1 h_S_) main_v61 main_c_23
  let main_v63 : IVec S_ 1 := andi main_v58 main_v62
  let main_v64 : FVec F S16 .f32 := Host.absf main_arg13
  let main_cst_24 : FVec F S_ .f32 := constant S_ .f32 0x7F800000#32
  let main_v65 : FVec F S16 .f32 := broadcastInDim S16 ![] bcast_S_S16 main_cst_24
  let main_v66 : IVec S16 1 := cmpf .olt main_v64 main_v65
  let main_c_25 : IVec S_ 1 := constantI S_ 1 1#1
  let main_v67 : IVec S_ 1 := (fun x v => Host.reduce IntOp.andi x v reducesTo_S16_S_d0 h_S_) main_v66 main_c_25
  fn_part4 (F := F) main_arg14 main_arg15 main_arg16 main_arg17 main_arg18 main_arg19 main_arg20 main_arg21 main_arg22 main_arg23 main_arg24 main_arg25 main_v63 main_v67

def fn_part2 {F : FTy → Type} [FloatOps F] (main_arg7 : FVec F S16 .f32) (main_arg8 : FVec F S32x16 .f32) (main_arg9 : FVec F S16 .f32) (main_arg10 : FVec F S32x16 .f32) (main_arg11 : FVec F S16 .f32) (main_arg12 : FVec F S16x32 .f32) (main_arg13 : FVec F S16 .f32) (main_arg14 : FVec F S16x32 .f32) (main_arg15 : FVec F S16 .f32) (main_arg16 : FVec F S16x32 .f32) (main_arg17 : FVec F S16 .f32) (main_arg18 : FVec F S16x32 .f32) (main_arg19 : FVec F S16 .f32) (main_arg20 : FVec F S8192x16 .f32) (main_arg21 : FVec F S8192x16 .f32) (main_arg22 : FVec F S8192x4096 .f32) (main_arg23 : FVec F S4096x8192 .f32) (main_arg24 : FVec F S8192x4096 .f32) (main_arg25 : FVec F S4096x8192 .f32) (main_v33 : IVec S_ 1) : IVec S_ 1 :=
  let main_v34 : FVec F S16 .f32 := Host.absf main_arg7
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S32x16 .f32 := Host.absf main_arg8
  let main_cst_14 : FVec F S_ .f32 := constant S_ .f32 0x7F800000#32
  let main_v40 : FVec F S32x16 .f32 := broadcastInDim S32x16 ![] bcast_S_S32x16 main_cst_14
  let main_v41 : IVec S32x16 1 := cmpf .olt main_v39 main_v40
  let main_c_15 : IVec S_ 1 := constantI S_ 1 1#1
  let main_v42 : IVec S_ 1 := (fun x v => Host.reduce IntOp.andi x v reducesTo_S32x16_S_d0_1 h_S_) main_v41 main_c_15
  let main_v43 : IVec S_ 1 := andi main_v38 main_v42
  let main_v44 : FVec F S16 .f32 := Host.absf main_arg9
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  let main_v49 : FVec F S32x16 .f32 := Host.absf main_arg10
  let main_cst_18 : FVec F S_ .f32 := constant S_ .f32 0x7F800000#32
  let main_v50 : FVec F S32x16 .f32 := broadcastInDim S32x16 ![] bcast_S_S32x16 main_cst_18
  fn_part3 (F := F) main_arg11 main_arg12 main_arg13 main_arg14 main_arg15 main_arg16 main_arg17 main_arg18 main_arg19 main_arg20 main_arg21 main_arg22 main_arg23 main_arg24 main_arg25 main_v48 main_v49 main_v50

def fn_part1 {F : FTy → Type} [FloatOps F] (main_arg4 : FVec F S32x16 .f32) (main_arg5 : FVec F S16 .f32) (main_arg6 : FVec F S32x16 .f32) (main_arg7 : FVec F S16 .f32) (main_arg8 : FVec F S32x16 .f32) (main_arg9 : FVec F S16 .f32) (main_arg10 : FVec F S32x16 .f32) (main_arg11 : FVec F S16 .f32) (main_arg12 : FVec F S16x32 .f32) (main_arg13 : FVec F S16 .f32) (main_arg14 : FVec F S16x32 .f32) (main_arg15 : FVec F S16 .f32) (main_arg16 : FVec F S16x32 .f32) (main_arg17 : FVec F S16 .f32) (main_arg18 : FVec F S16x32 .f32) (main_arg19 : FVec F S16 .f32) (main_arg20 : FVec F S8192x16 .f32) (main_arg21 : FVec F S8192x16 .f32) (main_arg22 : FVec F S8192x4096 .f32) (main_arg23 : FVec F S4096x8192 .f32) (main_arg24 : FVec F S8192x4096 .f32) (main_arg25 : FVec F S4096x8192 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x16 .f32 := Host.absf main_arg4
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S32x16 .f32 := Host.absf main_arg6
  let main_cst_10 : FVec F S_ .f32 := constant S_ .f32 0x7F800000#32
  let main_v30 : FVec F S32x16 .f32 := broadcastInDim S32x16 ![] bcast_S_S32x16 main_cst_10
  let main_v31 : IVec S32x16 1 := cmpf .olt main_v29 main_v30
  let main_c_11 : IVec S_ 1 := constantI S_ 1 1#1
  let main_v32 : IVec S_ 1 := (fun x v => Host.reduce IntOp.andi x v reducesTo_S32x16_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S16x32 .f32) (main_arg1 : FVec F S32 .f32) (main_arg2 : FVec F S16x32 .f32) (main_arg3 : FVec F S32 .f32) (main_arg4 : FVec F S32x16 .f32) (main_arg5 : FVec F S16 .f32) (main_arg6 : FVec F S32x16 .f32) (main_arg7 : FVec F S16 .f32) (main_arg8 : FVec F S32x16 .f32) (main_arg9 : FVec F S16 .f32) (main_arg10 : FVec F S32x16 .f32) (main_arg11 : FVec F S16 .f32) (main_arg12 : FVec F S16x32 .f32) (main_arg13 : FVec F S16 .f32) (main_arg14 : FVec F S16x32 .f32) (main_arg15 : FVec F S16 .f32) (main_arg16 : FVec F S16x32 .f32) (main_arg17 : FVec F S16 .f32) (main_arg18 : FVec F S16x32 .f32) (main_arg19 : FVec F S16 .f32) (main_arg20 : FVec F S8192x16 .f32) (main_arg21 : FVec F S8192x16 .f32) (main_arg22 : FVec F S8192x4096 .f32) (main_arg23 : FVec F S4096x8192 .f32) (main_arg24 : FVec F S8192x4096 .f32) (main_arg25 : FVec F S4096x8192 .f32) : IVec S_ 1 :=
  let main_v0 : FVec F S16x32 .f32 := Host.absf main_arg0
  let main_cst : FVec F S_ .f32 := constant S_ .f32 0x7F800000#32
  let main_v1 : FVec F S16x32 .f32 := broadcastInDim S16x32 ![] bcast_S_S16x32 main_cst
  let main_v2 : IVec S16x32 1 := cmpf .olt main_v0 main_v1
  let main_c : IVec S_ 1 := constantI S_ 1 1#1
  let main_v3 : IVec S_ 1 := (fun x v => Host.reduce IntOp.andi x v reducesTo_S16x32_S_d0_1 h_S_) main_v2 main_c
  let main_v4 : FVec F S32 .f32 := Host.absf main_arg1
  let main_cst_0 : FVec F S_ .f32 := constant S_ .f32 0x7F800000#32
  let main_v5 : FVec F S32 .f32 := broadcastInDim S32 ![] bcast_S_S32 main_cst_0
  let main_v6 : IVec S32 1 := cmpf .olt main_v4 main_v5
  let main_c_1 : IVec S_ 1 := constantI S_ 1 1#1
  let main_v7 : IVec S_ 1 := (fun x v => Host.reduce IntOp.andi x v reducesTo_S32_S_d0 h_S_) main_v6 main_c_1
  let main_v8 : IVec S_ 1 := andi main_v3 main_v7
  let main_v9 : FVec F S16x32 .f32 := Host.absf main_arg2
  let main_cst_2 : FVec F S_ .f32 := constant S_ .f32 0x7F800000#32
  let main_v10 : FVec F S16x32 .f32 := broadcastInDim S16x32 ![] bcast_S_S16x32 main_cst_2
  let main_v11 : IVec S16x32 1 := cmpf .olt main_v9 main_v10
  let main_c_3 : IVec S_ 1 := constantI S_ 1 1#1
  let main_v12 : IVec S_ 1 := (fun x v => Host.reduce IntOp.andi x v reducesTo_S16x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S16x32 : Shape := ⟨2, ![16, 32]⟩
abbrev S32 : Shape := ⟨1, ![32]⟩
abbrev S32x16 : Shape := ⟨2, ![32, 16]⟩
abbrev S16 : Shape := ⟨1, ![16]⟩
abbrev S8192x16 : Shape := ⟨2, ![8192, 16]⟩
abbrev S8192x4096 : Shape := ⟨2, ![8192, 4096]⟩
abbrev S4096x8192 : Shape := ⟨2, ![4096, 8192]⟩
abbrev S32x32 : Shape := ⟨2, ![32, 32]⟩
abbrev S1x32 : Shape := ⟨2, ![1, 32]⟩
abbrev S4096x32 : Shape := ⟨2, ![4096, 32]⟩
abbrev S256x8192 : Shape := ⟨2, ![256, 8192]⟩
abbrev S256x32 : Shape := ⟨2, ![256, 32]⟩
abbrev S8192x32 : Shape := ⟨2, ![8192, 32]⟩
abbrev S16x16 : Shape := ⟨2, ![16, 16]⟩
abbrev S_ : Shape := ⟨0, ![]⟩
abbrev S256x4096 : Shape := ⟨2, ![256, 4096]⟩
abbrev S256x16 : Shape := ⟨2, ![256, 16]⟩

abbrev nBuf : Space → Nat
  | .hbm => 92
  | .vmem => 37
  | .smem => 0
  | _ => 0

abbrev bufTy : (tb : Table) → Fin (tcTables nBuf tb) → BufTy
  | .hbm, ⟨0, _⟩ => ⟨S16x32, .f32⟩
  | .hbm, ⟨1, _⟩ => ⟨S32, .f32⟩
  | .hbm, ⟨2, _⟩ => ⟨S16x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S32x16, .f32⟩
  | .hbm, ⟨7, _⟩ => ⟨S16, .f32⟩
  | .hbm, ⟨8, _⟩ => ⟨S32x16, .f32⟩
  | .hbm, ⟨9, _⟩ => ⟨S16, .f32⟩
  | .hbm, ⟨10, _⟩ => ⟨S32x16, .f32⟩
  | .hbm, ⟨11, _⟩ => ⟨S16, .f32⟩
  | .hbm, ⟨12, _⟩ => ⟨S16x32, .f32⟩
  | .hbm, ⟨13, _⟩ => ⟨S16, .f32⟩
  | .hbm, ⟨14, _⟩ => ⟨S16x32, .f32⟩
  | .hbm, ⟨15, _⟩ => ⟨S16, .f32⟩
  | .hbm, ⟨16, _⟩ => ⟨S16x32, .f32⟩
  | .hbm, ⟨17, _⟩ => ⟨S16, .f32⟩
  | .hbm, ⟨18, _⟩ => ⟨S16x32, .f32⟩
  | .hbm, ⟨19, _⟩ => ⟨S16, .f32⟩
  | .hbm, ⟨20, _⟩ => ⟨S8192x16, .f32⟩
  | .hbm, ⟨21, _⟩ => ⟨S8192x16, .f32⟩
  | .hbm, ⟨22, _⟩ => ⟨S8192x4096, .f32⟩
  | .hbm, ⟨23, _⟩ => ⟨S4096x8192, .f32⟩
  | .hbm, ⟨24, _⟩ => ⟨S8192x4096, .f32⟩
  | .hbm, ⟨25, _⟩ => ⟨S4096x8192, .f32⟩
  | .hbm, ⟨26, _⟩ => ⟨S32x32, .f32⟩
  | .hbm, ⟨27, _⟩ => ⟨S32, .f32⟩
  | .hbm, ⟨28, _⟩ => ⟨S32x32, .f32⟩
  | .hbm, ⟨29, _⟩ => ⟨S32, .f32⟩
  | .hbm, ⟨30, _⟩ => ⟨S1x32, .f32⟩
  | .hbm, ⟨31, _⟩ => ⟨S4096x32, .f32⟩
  | .hbm, ⟨32, _⟩ => ⟨S1x32, .f32⟩
  | .hbm, ⟨33, _⟩ => ⟨S4096x32, .f32⟩
  | .hbm, ⟨34, _⟩ => ⟨S16x16, .f32⟩
  | .hbm, ⟨35, _⟩ => ⟨S16x16, .f32⟩
  | .hbm, ⟨36, _⟩ => ⟨S16x16, .f32⟩
  | .hbm, ⟨37, _⟩ => ⟨S16x16, .f32⟩
  | .hbm, ⟨38, _⟩ => ⟨S16x16, .f32⟩
  | .hbm, ⟨39, _⟩ => ⟨S16x16, .f32⟩
  | .hbm, ⟨40, _⟩ => ⟨S16x16, .f32⟩
  | .hbm, ⟨41, _⟩ => ⟨S16x16, .f32⟩
  | .hbm, ⟨42, _⟩ => ⟨S16x16, .f32⟩
  | .hbm, ⟨43, _⟩ => ⟨S16x16, .f32⟩
  | .hbm, ⟨44, _⟩ => ⟨S16x16, .f32⟩
  | .hbm, ⟨45, _⟩ => ⟨S16x16, .f32⟩
  | .hbm, ⟨46, _⟩ => ⟨S16x16, .f32⟩
  | .hbm, ⟨47, _⟩ => ⟨S16x16, .f32⟩
  | .hbm, ⟨48, _⟩ => ⟨S16x16, .f32⟩
  | .hbm, ⟨49, _⟩ => ⟨S16x16, .f32⟩
  | .hbm, ⟨50, _⟩ => ⟨S_, .f32⟩
  | .hbm, ⟨51, _⟩ => ⟨S16x16, .f32⟩
  | .hbm, ⟨52, _⟩ => ⟨S16x32, .f32⟩
  | .hbm, ⟨53, _⟩ => ⟨S16x32, .f32⟩
  | .hbm, ⟨54, _⟩ => ⟨S32x32, .f32⟩
  | .hbm, ⟨55, _⟩ => ⟨S_, .f32⟩
  | .hbm, ⟨56, _⟩ => ⟨S32x32, .f32⟩
  | .hbm, ⟨57, _⟩ => ⟨S32x32, .f32⟩
  | .hbm, ⟨58, _⟩ => ⟨S16x32, .f32⟩
  | .hbm, ⟨59, _⟩ => ⟨S16x32, .f32⟩
  | .hbm, ⟨60, _⟩ => ⟨S32x32, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S32x32, .f32⟩
  | .hbm, ⟨65, _⟩ => ⟨S32x32, .f32⟩
  | .hbm, ⟨66, _⟩ => ⟨S16x32, .f32⟩
  | .hbm, ⟨67, _⟩ => ⟨S_, .f32⟩
  | .hbm, ⟨68, _⟩ => ⟨S16x32, .f32⟩
  | .hbm, ⟨69, _⟩ => ⟨S16x32, .f32⟩
  | .hbm, ⟨70, _⟩ => ⟨S16x32, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S16x32, .f32⟩
  | .hbm, ⟨75, _⟩ => ⟨S16x32, .f32⟩
  | .hbm, ⟨76, _⟩ => ⟨S32, .f32⟩
  | .hbm, ⟨77, _⟩ => ⟨S_, .f32⟩
  | .hbm, ⟨78, _⟩ => ⟨S32, .f32⟩
  | .hbm, ⟨79, _⟩ => ⟨S32, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S32, .f32⟩
  | .hbm, ⟨84, _⟩ => ⟨S32, .f32⟩
  | .hbm, ⟨85, _⟩ => ⟨S32, .f32⟩
  | .hbm, ⟨86, _⟩ => ⟨S32, .f32⟩
  | .hbm, ⟨87, _⟩ => ⟨S1x32, .f32⟩
  | .hbm, ⟨88, _⟩ => ⟨S1x32, .f32⟩
  | .hbm, ⟨89, _⟩ => ⟨S1x32, .f32⟩
  | .hbm, ⟨90, _⟩ => ⟨S8192x16, .f32⟩
  | .hbm, ⟨91, _⟩ => ⟨S8192x16, .f32⟩
  | .local _ .vmem, ⟨0, _⟩ => ⟨S256x8192, .f32⟩
  | .local _ .vmem, ⟨1, _⟩ => ⟨S256x8192, .f32⟩
  | .local _ .vmem, ⟨2, _⟩ => ⟨S8192x16, .f32⟩
  | .local _ .vmem, ⟨3, _⟩ => ⟨S16x32, .f32⟩
  | .local _ .vmem, ⟨4, _⟩ => ⟨S1x32, .f32⟩
  | .local _ .vmem, ⟨5, _⟩ => ⟨S32x32, .f32⟩
  | .local _ .vmem, ⟨6, _⟩ => ⟨S256x32, .f32⟩
  | .local _ .vmem, ⟨7, _⟩ => ⟨S256x32, .f32⟩
  | .local _ .vmem, ⟨8, _⟩ => ⟨S256x8192, .f32⟩
  | .local _ .vmem, ⟨9, _⟩ => ⟨S256x8192, .f32⟩
  | .local _ .vmem, ⟨10, _⟩ => ⟨S8192x16, .f32⟩
  | .local _ .vmem, ⟨11, _⟩ => ⟨S16x32, .f32⟩
  | .local _ .vmem, ⟨12, _⟩ => ⟨S1x32, .f32⟩
  | .local _ .vmem, ⟨13, _⟩ => ⟨S32x32, .f32⟩
  | .local _ .vmem, ⟨14, _⟩ => ⟨S256x32, .f32⟩
  | .local _ .vmem, ⟨15, _⟩ => ⟨S256x32, .f32⟩
  | .local _ .vmem, ⟨16, _⟩ => ⟨S256x4096, .f32⟩
  | .local _ .vmem, ⟨17, _⟩ => ⟨S256x4096, .f32⟩
  | .local _ .vmem, ⟨18, _⟩ => ⟨S256x4096, .f32⟩
  | .local _ .vmem, ⟨19, _⟩ => ⟨S256x4096, .f32⟩
  | .local _ .vmem, ⟨20, _⟩ => ⟨S4096x32, .f32⟩
  | .local _ .vmem, ⟨21, _⟩ => ⟨S4096x32, .f32⟩
  | .local _ .vmem, ⟨22, _⟩ => ⟨S1x32, .f32⟩
  | .local _ .vmem, ⟨23, _⟩ => ⟨S1x32, .f32⟩
  | .local _ .vmem, ⟨24, _⟩ => ⟨S256x16, .f32⟩
  | .local _ .vmem, ⟨25, _⟩ => ⟨S256x16, .f32⟩
  | .local _ .vmem, ⟨26, _⟩ => ⟨S256x16, .f32⟩
  | .local _ .vmem, ⟨27, _⟩ => ⟨S256x16, .f32⟩
  | .local _ .vmem, ⟨28, _⟩ => ⟨S32x32, .f32⟩
  | .local _ .vmem, ⟨29, _⟩ => ⟨S16x32, .f32⟩
  | .local _ .vmem, ⟨30, _⟩ => ⟨S32x32, .f32⟩
  | .local _ .vmem, ⟨31, _⟩ => ⟨S16x32, .f32⟩
  | .local _ .vmem, ⟨32, _⟩ => ⟨S1x32, .f32⟩
  | .local _ .vmem, ⟨33, _⟩ => ⟨S256x16, .f32⟩
  | .local _ .vmem, ⟨34, _⟩ => ⟨S256x16, .f32⟩
  | .local _ .vmem, ⟨35, _⟩ => ⟨S256x16, .f32⟩
  | .local _ .vmem, ⟨36, _⟩ => ⟨S256x16, .f32⟩
  | _, _ => ⟨S16x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst : Ref sig .tc := ⟨.hbm, 50, rfl⟩
abbrev main_v24 : Ref sig .tc := ⟨.hbm, 51, rfl⟩
abbrev main_call0_v0 : Ref sig .tc := ⟨.hbm, 52, rfl⟩
abbrev main_call0_v1 : Ref sig .tc := ⟨.hbm, 53, rfl⟩
abbrev main_v25 : Ref sig .tc := ⟨.hbm, 54, rfl⟩
abbrev main_cst_0 : Ref sig .tc := ⟨.hbm, 55, rfl⟩
abbrev main_v26 : Ref sig .tc := ⟨.hbm, 56, rfl⟩
abbrev main_v27 : Ref sig .tc := ⟨.hbm, 57, rfl⟩
abbrev main_call1_v0 : Ref sig .tc := ⟨.hbm, 58, rfl⟩
abbrev main_call1_v1 : Ref sig .tc := ⟨.hbm, 59, rfl⟩
abbrev main_v28 : Ref sig .tc := ⟨.hbm, 60, rfl⟩
abbrev main_cst_1 : Ref sig .tc := ⟨.hbm, 61, rfl⟩
abbrev main_cst_2 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_cst_3 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_cst_4 : Ref sig .tc := ⟨.hbm, 71, rfl⟩
abbrev main_cst_5 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_cst_6 : Ref sig .tc := ⟨.hbm, 77, rfl⟩
abbrev main_v40 : Ref sig .tc := ⟨.hbm, 78, rfl⟩
abbrev main_v41 : Ref sig .tc := ⟨.hbm, 79, rfl⟩
abbrev main_cst_7 : Ref sig .tc := ⟨.hbm, 80, rfl⟩
abbrev main_cst_8 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50_0 : Ref sig .tc := ⟨.hbm, 90, rfl⟩
abbrev main_v50_1 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg6_1 : Ref sig .tc := ⟨.vmem, 25, rfl⟩
abbrev cc2_stg7_0 : Ref sig .tc := ⟨.vmem, 26, rfl⟩
abbrev cc2_stg7_1 : Ref sig .tc := ⟨.vmem, 27, rfl⟩
abbrev cc2_stg8_0 : Ref sig .tc := ⟨.vmem, 28, rfl⟩
abbrev cc2_stg9_0 : Ref sig .tc := ⟨.vmem, 29, rfl⟩
abbrev cc2_stg10_0 : Ref sig .tc := ⟨.vmem, 30, rfl⟩
abbrev cc2_stg11_0 : Ref sig .tc := ⟨.vmem, 31, rfl⟩
abbrev cc2_stg12_0 : Ref sig .tc := ⟨.vmem, 32, rfl⟩
abbrev cc2_stg13_0 : Ref sig .tc := ⟨.vmem, 33, rfl⟩
abbrev cc2_stg13_1 : Ref sig .tc := ⟨.vmem, 34, rfl⟩
abbrev cc2_stg14_0 : Ref sig .tc := ⟨.vmem, 35, rfl⟩
abbrev cc2_stg14_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem6_1 : DmaSem sig := 25
abbrev cc2_sem7_0 : DmaSem sig := 26
abbrev cc2_sem7_1 : DmaSem sig := 27
abbrev cc2_sem8_0 : DmaSem sig := 28
abbrev cc2_sem9_0 : DmaSem sig := 29
abbrev cc2_sem10_0 : DmaSem sig := 30
abbrev cc2_sem11_0 : DmaSem sig := 31
abbrev cc2_sem12_0 : DmaSem sig := 32
abbrev cc2_sem13_0 : DmaSem sig := 33
abbrev cc2_sem13_1 : DmaSem sig := 34
abbrev cc2_sem14_0 : DmaSem sig := 35
abbrev cc2_sem14_1 : DmaSem sig := 36

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_14 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S4096x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S4096x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S256x16 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S256x16 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 1 → Memref sig .tc .vmem S32x32 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S16x32 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S32x32 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S16x32 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x32 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 2 → Memref sig .tc .vmem S256x16 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

abbrev stage2_14 : Fin 2 → Memref sig .tc .vmem S256x16 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]

class Facts₀ : Prop where
  concatenates_S32x16_S32x16_S32x32_d1 : Shape.Concatenates [S32x16, S32x16] S32x32 1
  concatenates_S16_S16_S32_d0 : Shape.Concatenates [S16, S16] S32 0
  shapeCasts_S32_S1x32 : S32.ShapeCasts S1x32
  inb_S8192x16_S8192x16_0_0 : ∀ a, (![0, 0] : Fin 2 → Nat) a + S8192x16.size a ≤ S8192x16.size a
  h_S8192x16 : 0 < S8192x16.numel
  inb_S16x32_S16x32_0_0 : ∀ a, (![0, 0] : Fin 2 → Nat) a + S16x32.size a ≤ S16x32.size a
  h_S16x32 : 0 < S16x32.numel
  inb_S256x8192_S256x8192_0_0 : ∀ a, (![0, 0] : Fin 2 → Nat) a + S256x8192.size a ≤ S256x8192.size a
  h_S256x8192 : 0 < S256x8192.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S256x32 : S1x32.Broadcasts S256x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S256x32_S256x32_0_0 : ∀ a, (![0, 0] : Fin 2 → Nat) a + S256x32.size a ≤ S256x32.size a
  h_S256x32 : 0 < S256x32.numel
  slices_S16x32_S16x16_0_0 : S16x32.Slices ![0, 0] S16x16
  transposes_S16x16_S16x16_1_0 : S16x16.Transposes [1, 0] S16x16
  slices_S16x32_S16x16_0_16 : S16x32.Slices ![0, 16] S16x16
  bcast_S_S16x16 : S_.BroadcastsInDim S16x16 (![] : Fin 0 → Fin S16x16.rank)
  concatenates_S16x16_S16x16_S16x32_d1 : Shape.Concatenates [S16x16, S16x16] S16x32 1
  concatenates_S16x32_S16x32_S32x32_d0 : Shape.Concatenates [S16x32, S16x32] S32x32 0
  bcast_S_S32x32 : S_.BroadcastsInDim S32x32 (![] : Fin 0 → Fin S32x32.rank)
  bcast_S_S16x32 : S_.BroadcastsInDim S16x32 (![] : Fin 0 → Fin S16x32.rank)
  bcast_S_S32 : S_.BroadcastsInDim S32 (![] : Fin 0 → Fin S32.rank)
  inb_S256x4096_S256x4096_0_0 : ∀ a, (![0, 0] : Fin 2 → Nat) a + S256x4096.size a ≤ S256x4096.size a
  h_S256x4096 : 0 < S256x4096.numel
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  inb_S256x16_S256x16_0_0 : ∀ a, (![0, 0] : Fin 2 → Nat) a + S256x16.size a ≤ S256x16.size a
  h_S256x16 : 0 < S256x16.numel
  shapeCasts_S16x32_S16x32 : S16x32.ShapeCasts S16x32
  slices_S256x32_o0_0_S256x16 : S256x32.Slices ![0, 0] S256x16
  slices_S256x32_o0_16_S256x16 : S256x32.Slices ![0, 16] S256x16
  dot_S8192x16_S16x32_S8192x32_1_0_0_1_n_n_wf : DotDims.WF S8192x16 S16x32 S8192x32 [1] [0] [0] [1] [] []
  dot_S256x8192_S8192x32_S256x32_1_0_0_1_n_n_wf : DotDims.WF S256x8192 S8192x32 S256x32 [1] [0] [0] [1] [] []
  dot_S256x32_S32x32_S256x32_1_0_0_1_n_n_wf : DotDims.WF S256x32 S32x32 S256x32 [1] [0] [0] [1] [] []
  dot_S256x4096_S4096x32_S256x32_1_0_0_1_n_n_wf : DotDims.WF S256x4096 S4096x32 S256x32 [1] [0] [0] [1] [] []
  dot_S256x16_S16x32_S256x32_1_0_0_1_n_n_wf : DotDims.WF S256x16 S16x32 S256x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S4096x8192.size a
  hwx0_0 : ∀ i : grid0.Coords, EltTy.bits .f32 = 32 ∨ (Rect.block (s := S4096x8192) S256x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x16.size a ≤ S8192x16.size a
  hwx0_1 : ∀ i : grid0.Coords, EltTy.bits .f32 = 32 ∨ (Rect.block (s := S8192x16) S8192x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x32.size a ≤ S16x32.size a
  hwx0_2 : ∀ i : grid0.Coords, EltTy.bits .f32 = 32 ∨ (Rect.block (s := S16x32) S16x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x32.size a ≤ S32x32.size a
  hwx0_4 : ∀ i : grid0.Coords, EltTy.bits .f32 = 32 ∨ (Rect.block (s := S32x32) S32x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x32.size a ≤ S4096x32.size a
  hwx0_5 : ∀ i : grid0.Coords, EltTy.bits .f32 = 32 ∨ (Rect.block (s := S4096x32) S256x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x8192.size a ≤ S4096x8192.size a
  hwx1_0 : ∀ i : grid1.Coords, EltTy.bits .f32 = 32 ∨ (Rect.block (s := S4096x8192) S256x8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x16.size a ≤ S8192x16.size a
  hwx1_1 : ∀ i : grid1.Coords, EltTy.bits .f32 = 32 ∨ (Rect.block (s := S8192x16) S8192x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x32.size a ≤ S16x32.size a
  hwx1_2 : ∀ i : grid1.Coords, EltTy.bits .f32 = 32 ∨ (Rect.block (s := S16x32) S16x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x32.size a ≤ S32x32.size a
  hwx1_4 : ∀ i : grid1.Coords, EltTy.bits .f32 = 32 ∨ (Rect.block (s := S32x32) S32x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x32.size a ≤ S4096x32.size a
  hwx1_5 : ∀ i : grid1.Coords, EltTy.bits .f32 = 32 ∨ (Rect.block (s := S4096x32) S256x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x4096.size a ≤ S8192x4096.size a
  hwx2_0 : ∀ i : grid2.Coords, EltTy.bits .f32 = 32 ∨ (Rect.block (s := S8192x4096) S256x4096.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x4096.size a ≤ S8192x4096.size a
  hwx2_1 : ∀ i : grid2.Coords, EltTy.bits .f32 = 32 ∨ (Rect.block (s := S8192x4096) S256x4096.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S4096x32.size a ≤ S4096x32.size a
  hwx2_2 : ∀ i : grid2.Coords, EltTy.bits .f32 = 32 ∨ (Rect.block (s := S4096x32) S4096x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S4096x32.size a ≤ S4096x32.size a
  hwx2_3 : ∀ i : grid2.Coords, EltTy.bits .f32 = 32 ∨ (Rect.block (s := S4096x32) S4096x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x32.size a ≤ S1x32.size a
  hwx2_5 : ∀ i : grid2.Coords, EltTy.bits .f32 = 32 ∨ (Rect.block (s := S1x32) S1x32.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S256x16.size a ≤ S8192x16.size a
  hwx2_6 : ∀ i : grid2.Coords, EltTy.bits .f32 = 32 ∨ (Rect.block (s := S8192x16) S256x16.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S256x16.size a ≤ S8192x16.size a
  hwx2_7 : ∀ i : grid2.Coords, EltTy.bits .f32 = 32 ∨ (Rect.block (s := S8192x16) S256x16.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S32x32.size a ≤ S32x32.size a
  hwx2_8 : ∀ i : grid2.Coords, EltTy.bits .f32 = 32 ∨ (Rect.block (s := S32x32) S32x32.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S16x32.size a ≤ S16x32.size a
  hwx2_9 : ∀ i : grid2.Coords, EltTy.bits .f32 = 32 ∨ (Rect.block (s := S16x32) S16x32.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S32x32.size a ≤ S32x32.size a
  hwx2_10 : ∀ i : grid2.Coords, EltTy.bits .f32 = 32 ∨ (Rect.block (s := S32x32) S32x32.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S16x32.size a ≤ S16x32.size a
  hwx2_11 : ∀ i : grid2.Coords, EltTy.bits .f32 = 32 ∨ (Rect.block (s := S16x32) S16x32.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x32.size a ≤ S1x32.size a
  hwx2_12 : ∀ i : grid2.Coords, EltTy.bits .f32 = 32 ∨ (Rect.block (s := S1x32) S1x32.size (cc2_transform_12 i) (hinb2_12 i)).WholeWords (EltTy.packing .f32)
  hstage2_13 : ∀ j, (stage2_13 j).IsWhole
  nbuf2_13 : grid2.bufCount reads2_13 false = 2
  hreads2_13 : ∀ i i' : grid2.Coords, (∀ a, reads2_13 a = true → i a = i' a) → cc2_transform_13 i = cc2_transform_13 i'
  hinb2_13 : ∀ (i : grid2.Coords) a, (cc2_transform_13 i a + 1) * S256x16.size a ≤ S8192x16.size a
  hwx2_13 : ∀ i : grid2.Coords, EltTy.bits .f32 = 32 ∨ (Rect.block (s := S8192x16) S256x16.size (cc2_transform_13 i) (hinb2_13 i)).WholeWords (EltTy.packing .f32)
  hstage2_14 : ∀ j, (stage2_14 j).IsWhole
  nbuf2_14 : grid2.bufCount reads2_14 false = 2
  hreads2_14 : ∀ i i' : grid2.Coords, (∀ a, reads2_14 a = true → i a = i' a) → cc2_transform_14 i = cc2_transform_14 i'
  hinb2_14 : ∀ (i : grid2.Coords) a, (cc2_transform_14 i a + 1) * S256x16.size a ≤ S8192x16.size a
  hwx2_14 : ∀ i : grid2.Coords, EltTy.bits .f32 = 32 ∨ (Rect.block (s := S8192x16) S256x16.size (cc2_transform_14 i) (hinb2_14 i)).WholeWords (EltTy.packing .f32)

variable [Facts₀]

def dot_S8192x16_S16x32_S8192x32_1_0_0_1_n_n : DotDims S8192x16 S16x32 S8192x32 where
  lhsContracting := [1]
  rhsContracting := [0]
  lhsNonContracting := [0]
  rhsNonContracting := [1]
  lhsBatch := []
  rhsBatch := []
  wf := dot_S8192x16_S16x32_S8192x32_1_0_0_1_n_n_wf
def dot_S256x8192_S8192x32_S256x32_1_0_0_1_n_n : DotDims S256x8192 S8192x32 S256x32 where
  lhsContracting := [1]
  rhsContracting := [0]
  lhsNonContracting := [0]
  rhsNonContracting := [1]
  lhsBatch := []
  rhsBatch := []
  wf := dot_S256x8192_S8192x32_S256x32_1_0_0_1_n_n_wf
def dot_S256x32_S32x32_S256x32_1_0_0_1_n_n : DotDims S256x32 S32x32 S256x32 where
  lhsContracting := [1]
  rhsContracting := [0]
  lhsNonContracting := [0]
  rhsNonContracting := [1]
  lhsBatch := []
  rhsBatch := []
  wf := dot_S256x32_S32x32_S256x32_1_0_0_1_n_n_wf
def dot_S256x4096_S4096x32_S256x32_1_0_0_1_n_n : DotDims S256x4096 S4096x32 S256x32 where
  lhsContracting := [1]
  rhsContracting := [0]
  lhsNonContracting := [0]
  rhsNonContracting := [1]
  lhsBatch := []
  rhsBatch := []
  wf := dot_S256x4096_S4096x32_S256x32_1_0_0_1_n_n_wf
def dot_S256x16_S16x32_S256x32_1_0_0_1_n_n : DotDims S256x16 S16x32 S256x32 where
  lhsContracting := [1]
  rhsContracting := [0]
  lhsNonContracting := [0]
  rhsNonContracting := [1]
  lhsBatch := []
  rhsBatch := []
  wf := dot_S256x16_S16x32_S256x32_1_0_0_1_n_n_wf

abbrev win0_0 : Pipeline.Window sig grid0 :=
  Pipeline.Window.ofSpec (Memref.whole main_arg23) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg20) S8192x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S16x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S32x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S256x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg25) S256x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg21) S8192x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S16x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S32x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S256x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg22) S256x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg24) S256x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5) S4096x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v7) S4096x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v47) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v48) S1x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg20) S256x16.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_arg21) S256x16.size cc2_transform_7 reads2_7 false false 2 stage2_7 sem2_7
    hrank2 hreads2_7 hinb2_7 nbuf2_7 (Memref.isWhole_whole _) hwx2_7 hstage2_7

abbrev win2_8 : Pipeline.Window sig grid2 :=
  Pipeline.Window.ofSpec (Memref.whole main_v27) S32x32.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v34) S16x32.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v31) S32x32.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v38) S16x32.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v49) S1x32.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v50_0) S256x16.size cc2_transform_13 reads2_13 true false 2 stage2_13 sem2_13
    hrank2 hreads2_13 hinb2_13 nbuf2_13 (Memref.isWhole_whole _) hwx2_13 hstage2_13

abbrev win2_14 : Pipeline.Window sig grid2 :=
  Pipeline.Window.ofSpec (Memref.whole main_v50_1) S256x16.size cc2_transform_14 reads2_14 true false 2 stage2_14 sem2_14
    hrank2 hreads2_14 hinb2_14 nbuf2_14 (Memref.isWhole_whole _) hwx2_14 hstage2_14

abbrev win2 : Fin 15 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | ⟨_ + 15, h⟩ => absurd h (Nat.not_lt.2 (Nat.le_add_left _ _))
abbrev spec2 : Fin 15 → Pipeline.WinSpec sig grid2.rank := fun w => (win2 w).toWinSpec

class Facts : Prop extends Facts₀ where

variable [Facts]
-- ==== ReferenceIdeal.lean ====
abbrev S16x32 : Shape := ⟨2, ![16, 32]⟩
abbrev S32 : Shape := ⟨1, ![32]⟩
abbrev S32x16 : Shape := ⟨2, ![32, 16]⟩
abbrev S16 : Shape := ⟨1, ![16]⟩
abbrev S8192x16 : Shape := ⟨2, ![8192, 16]⟩
abbrev S8192x4096 : Shape := ⟨2, ![8192, 4096]⟩
abbrev S4096x8192 : Shape := ⟨2, ![4096, 8192]⟩
abbrev S8192x32 : Shape := ⟨2, ![8192, 32]⟩
abbrev S2048x16 : Shape := ⟨2, ![2048, 16]⟩
abbrev S2048x32 : Shape := ⟨2, ![2048, 32]⟩
abbrev S1x32 : Shape := ⟨2, ![1, 32]⟩
abbrev S4096x32 : Shape := ⟨2, ![4096, 32]⟩
abbrev S512x2048 : Shape := ⟨2, ![512, 2048]⟩
abbrev S512x32 : Shape := ⟨2, ![512, 32]⟩
abbrev S32x32 : Shape := ⟨2, ![32, 32]⟩
abbrev S16x16 : Shape := ⟨2, ![16, 16]⟩
abbrev S_ : Shape := ⟨0, ![]⟩
abbrev S1024x32 : Shape := ⟨2, ![1024, 32]⟩
abbrev S1024x16 : Shape := ⟨2, ![1024, 16]⟩

abbrev nBuf : Space → Nat
  | .hbm => 99
  | .vmem => 67
  | .smem => 0
  | _ => 0

abbrev bufTy : (tb : Table) → Fin (tcTables nBuf tb) → BufTy
  | .hbm, ⟨0, _⟩ => ⟨S16x32, .f32⟩
  | .hbm, ⟨1, _⟩ => ⟨S32, .f32⟩
  | .hbm, ⟨2, _⟩ => ⟨S16x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S32x16, .f32⟩
  | .hbm, ⟨7, _⟩ => ⟨S16, .f32⟩
  | .hbm, ⟨8, _⟩ => ⟨S32x16, .f32⟩
  | .hbm, ⟨9, _⟩ => ⟨S16, .f32⟩
  | .hbm, ⟨10, _⟩ => ⟨S32x16, .f32⟩
  | .hbm, ⟨11, _⟩ => ⟨S16, .f32⟩
  | .hbm, ⟨12, _⟩ => ⟨S16x32, .f32⟩
  | .hbm, ⟨13, _⟩ => ⟨S16, .f32⟩
  | .hbm, ⟨14, _⟩ => ⟨S16x32, .f32⟩
  | .hbm, ⟨15, _⟩ => ⟨S16, .f32⟩
  | .hbm, ⟨16, _⟩ => ⟨S16x32, .f32⟩
  | .hbm, ⟨17, _⟩ => ⟨S16, .f32⟩
  | .hbm, ⟨18, _⟩ => ⟨S16x32, .f32⟩
  | .hbm, ⟨19, _⟩ => ⟨S16, .f32⟩
  | .hbm, ⟨20, _⟩ => ⟨S8192x16, .f32⟩
  | .hbm, ⟨21, _⟩ => ⟨S8192x16, .f32⟩
  | .hbm, ⟨22, _⟩ => ⟨S8192x4096, .f32⟩
  | .hbm, ⟨23, _⟩ => ⟨S4096x8192, .f32⟩
  | .hbm, ⟨24, _⟩ => ⟨S8192x4096, .f32⟩
  | .hbm, ⟨25, _⟩ => ⟨S4096x8192, .f32⟩
  | .hbm, ⟨26, _⟩ => ⟨S8192x32, .f32⟩
  | .hbm, ⟨27, _⟩ => ⟨S1x32, .f32⟩
  | .hbm, ⟨28, _⟩ => ⟨S4096x32, .f32⟩
  | .hbm, ⟨29, _⟩ => ⟨S8192x32, .f32⟩
  | .hbm, ⟨30, _⟩ => ⟨S1x32, .f32⟩
  | .hbm, ⟨31, _⟩ => ⟨S4096x32, .f32⟩
  | .hbm, ⟨32, _⟩ => ⟨S32x32, .f32⟩
  | .hbm, ⟨33, _⟩ => ⟨S32, .f32⟩
  | .hbm, ⟨34, _⟩ => ⟨S4096x32, .f32⟩
  | .hbm, ⟨35, _⟩ => ⟨S1x32, .f32⟩
  | .hbm, ⟨36, _⟩ => ⟨S8192x32, .f32⟩
  | .hbm, ⟨37, _⟩ => ⟨S32x32, .f32⟩
  | .hbm, ⟨38, _⟩ => ⟨S32, .f32⟩
  | .hbm, ⟨39, _⟩ => ⟨S4096x32, .f32⟩
  | .hbm, ⟨40, _⟩ => ⟨S1x32, .f32⟩
  | .hbm, ⟨41, _⟩ => ⟨S8192x32, .f32⟩
  | .hbm, ⟨42, _⟩ => ⟨S16x16, .f32⟩
  | .hbm, ⟨43, _⟩ => ⟨S16x16, .f32⟩
  | .hbm, ⟨44, _⟩ => ⟨S16x16, .f32⟩
  | .hbm, ⟨45, _⟩ => ⟨S16x16, .f32⟩
  | .hbm, ⟨46, _⟩ => ⟨S16x16, .f32⟩
  | .hbm, ⟨47, _⟩ => ⟨S16x16, .f32⟩
  | .hbm, ⟨48, _⟩ => ⟨S16x16, .f32⟩
  | .hbm, ⟨49, _⟩ => ⟨S16x16, .f32⟩
  | .hbm, ⟨50, _⟩ => ⟨S16x16, .f32⟩
  | .hbm, ⟨51, _⟩ => ⟨S16x16, .f32⟩
  | .hbm, ⟨52, _⟩ => ⟨S16x16, .f32⟩
  | .hbm, ⟨53, _⟩ => ⟨S16x16, .f32⟩
  | .hbm, ⟨54, _⟩ => ⟨S16x16, .f32⟩
  | .hbm, ⟨55, _⟩ => ⟨S16x16, .f32⟩
  | .hbm, ⟨56, _⟩ => ⟨S16x16, .f32⟩
  | .hbm, ⟨57, _⟩ => ⟨S16x16, .f32⟩
  | .hbm, ⟨58, _⟩ => ⟨S_, .f32⟩
  | .hbm, ⟨59, _⟩ => ⟨S16x16, .f32⟩
  | .hbm, ⟨60, _⟩ => ⟨S16x32, .f32⟩
  | .hbm, ⟨61, _⟩ => ⟨S16x32, .f32⟩
  | .hbm, ⟨62, _⟩ => ⟨S32x32, .f32⟩
  | .hbm, ⟨63, _⟩ => ⟨S_, .f32⟩
  | .hbm, ⟨64, _⟩ => ⟨S32x32, .f32⟩
  | .hbm, ⟨65, _⟩ => ⟨S32x32, .f32⟩
  | .hbm, ⟨66, _⟩ => ⟨S16x32, .f32⟩
  | .hbm, ⟨67, _⟩ => ⟨S16x32, .f32⟩
  | .hbm, ⟨68, _⟩ => ⟨S32x32, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S32x32, .f32⟩
  | .hbm, ⟨73, _⟩ => ⟨S32x32, .f32⟩
  | .hbm, ⟨74, _⟩ => ⟨S16x32, .f32⟩
  | .hbm, ⟨75, _⟩ => ⟨S_, .f32⟩
  | .hbm, ⟨76, _⟩ => ⟨S16x32, .f32⟩
  | .hbm, ⟨77, _⟩ => ⟨S16x32, .f32⟩
  | .hbm, ⟨78, _⟩ => ⟨S16x32, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S16x32, .f32⟩
  | .hbm, ⟨83, _⟩ => ⟨S16x32, .f32⟩
  | .hbm, ⟨84, _⟩ => ⟨S32, .f32⟩
  | .hbm, ⟨85, _⟩ => ⟨S_, .f32⟩
  | .hbm, ⟨86, _⟩ => ⟨S32, .f32⟩
  | .hbm, ⟨87, _⟩ => ⟨S32, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S32, .f32⟩
  | .hbm, ⟨92, _⟩ => ⟨S32, .f32⟩
  | .hbm, ⟨93, _⟩ => ⟨S32, .f32⟩
  | .hbm, ⟨94, _⟩ => ⟨S32, .f32⟩
  | .hbm, ⟨95, _⟩ => ⟨S1x32, .f32⟩
  | .hbm, ⟨96, _⟩ => ⟨S8192x32, .f32⟩
  | .hbm, ⟨97, _⟩ => ⟨S8192x16, .f32⟩
  | .hbm, ⟨98, _⟩ => ⟨S8192x16, .f32⟩
  | .local _ .vmem, ⟨0, _⟩ => ⟨S2048x16, .f32⟩
  | .local _ .vmem, ⟨1, _⟩ => ⟨S2048x16, .f32⟩
  | .local _ .vmem, ⟨2, _⟩ => ⟨S16x32, .f32⟩
  | .local _ .vmem, ⟨3, _⟩ => ⟨S2048x32, .f32⟩
  | .local _ .vmem, ⟨4, _⟩ => ⟨S2048x32, .f32⟩
  | .local _ .vmem, ⟨5, _⟩ => ⟨S512x2048, .f32⟩
  | .local _ .vmem, ⟨6, _⟩ => ⟨S512x2048, .f32⟩
  | .local _ .vmem, ⟨7, _⟩ => ⟨S2048x32, .f32⟩
  | .local _ .vmem, ⟨8, _⟩ => ⟨S2048x32, .f32⟩
  | .local _ .vmem, ⟨9, _⟩ => ⟨S1x32, .f32⟩
  | .local _ .vmem, ⟨10, _⟩ => ⟨S512x32, .f32⟩
  | .local _ .vmem, ⟨11, _⟩ => ⟨S512x32, .f32⟩
  | .local _ .vmem, ⟨12, _⟩ => ⟨S512x32, .f32⟩
  | .local _ .vmem, ⟨13, _⟩ => ⟨S2048x16, .f32⟩
  | .local _ .vmem, ⟨14, _⟩ => ⟨S2048x16, .f32⟩
  | .local _ .vmem, ⟨15, _⟩ => ⟨S16x32, .f32⟩
  | .local _ .vmem, ⟨16, _⟩ => ⟨S2048x32, .f32⟩
  | .local _ .vmem, ⟨17, _⟩ => ⟨S2048x32, .f32⟩
  | .local _ .vmem, ⟨18, _⟩ => ⟨S512x2048, .f32⟩
  | .local _ .vmem, ⟨19, _⟩ => ⟨S512x2048, .f32⟩
  | .local _ .vmem, ⟨20, _⟩ => ⟨S2048x32, .f32⟩
  | .local _ .vmem, ⟨21, _⟩ => ⟨S2048x32, .f32⟩
  | .local _ .vmem, ⟨22, _⟩ => ⟨S1x32, .f32⟩
  | .local _ .vmem, ⟨23, _⟩ => ⟨S512x32, .f32⟩
  | .local _ .vmem, ⟨24, _⟩ => ⟨S512x32, .f32⟩
  | .local _ .vmem, ⟨25, _⟩ => ⟨S512x32, .f32⟩
  | .local _ .vmem, ⟨26, _⟩ => ⟨S2048x32, .f32⟩
  | .local _ .vmem, ⟨27, _⟩ => ⟨S2048x32, .f32⟩
  | .local _ .vmem, ⟨28, _⟩ => ⟨S32x32, .f32⟩
  | .local _ .vmem, ⟨29, _⟩ => ⟨S2048x32, .f32⟩
  | .local _ .vmem, ⟨30, _⟩ => ⟨S2048x32, .f32⟩
  | .local _ .vmem, ⟨31, _⟩ => ⟨S512x2048, .f32⟩
  | .local _ .vmem, ⟨32, _⟩ => ⟨S512x2048, .f32⟩
  | .local _ .vmem, ⟨33, _⟩ => ⟨S2048x32, .f32⟩
  | .local _ .vmem, ⟨34, _⟩ => ⟨S2048x32, .f32⟩
  | .local _ .vmem, ⟨35, _⟩ => ⟨S1x32, .f32⟩
  | .local _ .vmem, ⟨36, _⟩ => ⟨S512x32, .f32⟩
  | .local _ .vmem, ⟨37, _⟩ => ⟨S512x32, .f32⟩
  | .local _ .vmem, ⟨38, _⟩ => ⟨S512x32, .f32⟩
  | .local _ .vmem, ⟨39, _⟩ => ⟨S2048x32, .f32⟩
  | .local _ .vmem, ⟨40, _⟩ => ⟨S2048x32, .f32⟩
  | .local _ .vmem, ⟨41, _⟩ => ⟨S32x32, .f32⟩
  | .local _ .vmem, ⟨42, _⟩ => ⟨S2048x32, .f32⟩
  | .local _ .vmem, ⟨43, _⟩ => ⟨S2048x32, .f32⟩
  | .local _ .vmem, ⟨44, _⟩ => ⟨S512x2048, .f32⟩
  | .local _ .vmem, ⟨45, _⟩ => ⟨S512x2048, .f32⟩
  | .local _ .vmem, ⟨46, _⟩ => ⟨S2048x32, .f32⟩
  | .local _ .vmem, ⟨47, _⟩ => ⟨S2048x32, .f32⟩
  | .local _ .vmem, ⟨48, _⟩ => ⟨S1x32, .f32⟩
  | .local _ .vmem, ⟨49, _⟩ => ⟨S512x32, .f32⟩
  | .local _ .vmem, ⟨50, _⟩ => ⟨S512x32, .f32⟩
  | .local _ .vmem, ⟨51, _⟩ => ⟨S512x32, .f32⟩
  | .local _ .vmem, ⟨52, _⟩ => ⟨S1024x32, .f32⟩
  | .local _ .vmem, ⟨53, _⟩ => ⟨S1024x32, .f32⟩
  | .local _ .vmem, ⟨54, _⟩ => ⟨S1024x32, .f32⟩
  | .local _ .vmem, ⟨55, _⟩ => ⟨S1024x32, .f32⟩
  | .local _ .vmem, ⟨56, _⟩ => ⟨S1024x16, .f32⟩
  | .local _ .vmem, ⟨57, _⟩ => ⟨S1024x16, .f32⟩
  | .local _ .vmem, ⟨58, _⟩ => ⟨S1024x16, .f32⟩
  | .local _ .vmem, ⟨59, _⟩ => ⟨S1024x16, .f32⟩
  | .local _ .vmem, ⟨60, _⟩ => ⟨S32x32, .f32⟩
  | .local _ .vmem, ⟨61, _⟩ => ⟨S16x32, .f32⟩
  | .local _ .vmem, ⟨62, _⟩ => ⟨S32x32, .f32⟩
  | .local _ .vmem, ⟨63, _⟩ => ⟨S16x32, .f32⟩
  | .local _ .vmem, ⟨64, _⟩ => ⟨S1x32, .f32⟩
  | .local _ .vmem, ⟨65, _⟩ => ⟨S1024x32, .f32⟩
  | .local _ .vmem, ⟨66, _⟩ => ⟨S1024x32, .f32⟩
  | _, _ => ⟨S16x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst : Ref sig .tc := ⟨.hbm, 58, rfl⟩
abbrev main_v32 : Ref sig .tc := ⟨.hbm, 59, rfl⟩
abbrev main_call0_v0 : Ref sig .tc := ⟨.hbm, 60, rfl⟩
abbrev main_call0_v1 : Ref sig .tc := ⟨.hbm, 61, rfl⟩
abbrev main_v33 : Ref sig .tc := ⟨.hbm, 62, rfl⟩
abbrev main_cst_0 : Ref sig .tc := ⟨.hbm, 63, rfl⟩
abbrev main_v34 : Ref sig .tc := ⟨.hbm, 64, rfl⟩
abbrev main_v35 : Ref sig .tc := ⟨.hbm, 65, rfl⟩
abbrev main_call1_v0 : Ref sig .tc := ⟨.hbm, 66, rfl⟩
abbrev main_call1_v1 : Ref sig .tc := ⟨.hbm, 67, rfl⟩
abbrev main_v36 : Ref sig .tc := ⟨.hbm, 68, rfl⟩
abbrev main_cst_1 : Ref sig .tc := ⟨.hbm, 69, rfl⟩
abbrev main_cst_2 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_cst_3 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_cst_4 : Ref sig .tc := ⟨.hbm, 79, rfl⟩
abbrev main_cst_5 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_cst_6 : Ref sig .tc := ⟨.hbm, 85, rfl⟩
abbrev main_v48 : Ref sig .tc := ⟨.hbm, 86, rfl⟩
abbrev main_v49 : Ref sig .tc := ⟨.hbm, 87, rfl⟩
abbrev main_cst_7 : Ref sig .tc := ⟨.hbm, 88, rfl⟩
abbrev main_cst_8 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc3_scratch0 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg3_1 : Ref sig .tc := ⟨.vmem, 37, rfl⟩
abbrev cc5_scratch0 : Ref sig .tc := ⟨.vmem, 38, rfl⟩
abbrev cc6_stg0_0 : Ref sig .tc := ⟨.vmem, 39, rfl⟩
abbrev cc6_stg0_1 : Ref sig .tc := ⟨.vmem, 40, rfl⟩
abbrev cc6_stg1_0 : Ref sig .tc := ⟨.vmem, 41, rfl⟩
abbrev cc6_stg2_0 : Ref sig .tc := ⟨.vmem, 42, rfl⟩
abbrev cc6_stg2_1 : Ref sig .tc := ⟨.vmem, 43, rfl⟩
abbrev cc7_stg0_0 : Ref sig .tc := ⟨.vmem, 44, rfl⟩
abbrev cc7_stg0_1 : Ref sig .tc := ⟨.vmem, 45, rfl⟩
abbrev cc7_stg1_0 : Ref sig .tc := ⟨.vmem, 46, rfl⟩
abbrev cc7_stg1_1 : Ref sig .tc := ⟨.vmem, 47, rfl⟩
abbrev cc7_stg2_0 : Ref sig .tc := ⟨.vmem, 48, rfl⟩
abbrev cc7_stg3_0 : Ref sig .tc := ⟨.vmem, 49, rfl⟩
abbrev cc7_stg3_1 : Ref sig .tc := ⟨.vmem, 50, rfl⟩
abbrev cc7_scratch0 : Ref sig .tc := ⟨.vmem, 51, rfl⟩
abbrev cc8_stg0_0 : Ref sig .tc := ⟨.vmem, 52, rfl⟩
abbrev cc8_stg0_1 : Ref sig .tc := ⟨.vmem, 53, rfl⟩
abbrev cc8_stg1_0 : Ref sig .tc := ⟨.vmem, 54, rfl⟩
abbrev cc8_stg1_1 : Ref sig .tc := ⟨.vmem, 55, rfl⟩
abbrev cc8_stg2_0 : Ref sig .tc := ⟨.vmem, 56, rfl⟩
abbrev cc8_stg2_1 : Ref sig .tc := ⟨.vmem, 57, rfl⟩
abbrev cc8_stg3_0 : Ref sig .tc := ⟨.vmem, 58, rfl⟩
abbrev cc8_stg3_1 : Ref sig .tc := ⟨.vmem, 59, rfl⟩
abbrev cc8_stg4_0 : Ref sig .tc := ⟨.vmem, 60, rfl⟩
abbrev cc8_stg5_0 : Ref sig .tc := ⟨.vmem, 61, rfl⟩
abbrev cc8_stg6_0 : Ref sig .tc := ⟨.vmem, 62, rfl⟩
abbrev cc8_stg7_0 : Ref sig .tc := ⟨.vmem, 63, rfl⟩
abbrev cc8_stg8_0 : Ref sig .tc := ⟨.vmem, 64, rfl⟩
abbrev cc8_stg9_0 : Ref sig .tc := ⟨.vmem, 65, rfl⟩
abbrev cc8_stg9_1 : Ref sig .tc := ⟨.vmem, 66, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem2_1 : DmaSem sig := 40
abbrev cc7_sem0_0 : DmaSem sig := 41
abbrev cc7_sem0_1 : DmaSem sig := 42
abbrev cc7_sem1_0 : DmaSem sig := 43
abbrev cc7_sem1_1 : DmaSem sig := 44
abbrev cc7_sem2_0 : DmaSem sig := 45
abbrev cc7_sem3_0 : DmaSem sig := 46
abbrev cc7_sem3_1 : DmaSem sig := 47
abbrev cc8_sem0_0 : DmaSem sig := 48
abbrev cc8_sem0_1 : DmaSem sig := 49
abbrev cc8_sem1_0 : DmaSem sig := 50
abbrev cc8_sem1_1 : DmaSem sig := 51
abbrev cc8_sem2_0 : DmaSem sig := 52
abbrev cc8_sem2_1 : DmaSem sig := 53
abbrev cc8_sem3_0 : DmaSem sig := 54
abbrev cc8_sem3_1 : DmaSem sig := 55
abbrev cc8_sem4_0 : DmaSem sig := 56
abbrev cc8_sem5_0 : DmaSem sig := 57
abbrev cc8_sem6_0 : DmaSem sig := 58
abbrev cc8_sem7_0 : DmaSem sig := 59
abbrev cc8_sem8_0 : DmaSem sig := 60
abbrev cc8_sem9_0 : DmaSem sig := 61
abbrev cc8_sem9_1 : DmaSem sig := 62

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_8 : BitVec 32 := 0#32
  let v14 : BitVec 1 := Scalar.cmpi .ne v13 c0_i32_8
  v14

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S512x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2048x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![8, 4], ![false, false]⟩

def k3_cond2 (i : grid3.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_8 : BitVec 32 := 0#32
  let v14 : BitVec 1 := Scalar.cmpi .ne v13 c0_i32_8
  v14

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S512x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S512x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨1, ![2], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2048x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2048x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨2, ![16, 2], ![false, false]⟩

def k5_cond2 (i : grid5.Coords) : BitVec 1 :=
  let arg1 : BitVec 32 := BitVec.ofNat 32 (i 1).val
  let c1_i32 : BitVec 32 := 1#32
  let v12 : BitVec 1 := Scalar.cmpi .eq arg1 c1_i32
  let v13 : BitVec 32 := Scalar.extui v12
  let c0_i32_8 : BitVec 32 := 0#32
  let v14 : BitVec 1 := Scalar.cmpi .ne v13 c0_i32_8
  v14

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S512x2048 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S2048x32 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 1 → Memref sig .tc .vmem S1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 2 → Memref sig .tc .vmem S512x32 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

abbrev grid6 : Pipeline.Grid := ⟨1, ![2], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2048x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S32x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2048x32 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨2, ![16, 2], ![false, false]⟩

def k7_cond2 (i : grid7.Coords) : BitVec 1 :=
  let arg1 : BitVec 32 := BitVec.ofNat 32 (i 1).val
  let c1_i32 : BitVec 32 := 1#32
  let v12 : BitVec 1 := Scalar.cmpi .eq arg1 c1_i32
  let v13 : BitVec 32 := Scalar.extui v12
  let c0_i32_8 : BitVec 32 := 0#32
  let v14 : BitVec 1 := Scalar.cmpi .ne v13 c0_i32_8
  v14

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S512x2048 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S2048x32 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 1 → Memref sig .tc .vmem S1x32 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false, false]

abbrev stage7_3 : Fin 2 → Memref sig .tc .vmem S512x32 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, false]

abbrev grid8 : Pipeline.Grid := ⟨1, ![8], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_9 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S1024x32 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S1024x32 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S1024x16 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S1024x16 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 1 → Memref sig .tc .vmem S32x32 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S16x32 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S32x32 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S16x32 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 1 → Memref sig .tc .vmem S1x32 .f32 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

abbrev stage8_9 : Fin 2 → Memref sig .tc .vmem S1024x32 .f32 := fun | 0 => Memref.whole cc8_stg9_0 | 1 => Memref.whole cc8_stg9_1 | ⟨_ + 2, h⟩ => absurd h (Nat.not_lt.2 (Nat.le_add_left _ _))
abbrev sem8_9 : Fin 2 → DmaSem sig := fun | 0 => cc8_sem9_0 | 1 => cc8_sem9_1 | ⟨_ + 2, h⟩ => absurd h (Nat.not_lt.2 (Nat.le_add_left _ _))
abbrev reads8_9 : Fin grid8.rank → Bool := ![true]

class Facts₀ : Prop where
  inb_S2048x16_S2048x16_0_0 : ∀ a, (![0, 0] : Fin 2 → Nat) a + S2048x16.size a ≤ S2048x16.size a
  h_S2048x16 : 0 < S2048x16.numel
  inb_S16x32_S16x32_0_0 : ∀ a, (![0, 0] : Fin 2 → Nat) a + S16x32.size a ≤ S16x32.size a
  h_S16x32 : 0 < S16x32.numel
  inb_S2048x32_S2048x32_0_0 : ∀ a, (![0, 0] : Fin 2 → Nat) a + S2048x32.size a ≤ S2048x32.size a
  h_S2048x32 : 0 < S2048x32.numel
  shapeCasts_S32_S1x32 : S32.ShapeCasts S1x32
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S512x2048_S512x2048_0_0 : ∀ a, (![0, 0] : Fin 2 → Nat) a + S512x2048.size a ≤ S512x2048.size a
  h_S512x2048 : 0 < S512x2048.numel
  shapeCasts_S2048x32_S2048x32 : S2048x32.ShapeCasts S2048x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S512x32 : S1x32.Broadcasts S512x32
  concatenates_S32x16_S32x16_S32x32_d1 : Shape.Concatenates [S32x16, S32x16] S32x32 1
  concatenates_S16_S16_S32_d0 : Shape.Concatenates [S16, S16] S32 0
  inb_S32x32_S32x32_0_0 : ∀ a, (![0, 0] : Fin 2 → Nat) a + S32x32.size a ≤ S32x32.size a
  h_S32x32 : 0 < S32x32.numel
  shapeCasts_S32x32_S32x32 : S32x32.ShapeCasts S32x32
  slices_S16x32_S16x16_0_0 : S16x32.Slices ![0, 0] S16x16
  transposes_S16x16_S16x16_1_0 : S16x16.Transposes [1, 0] S16x16
  slices_S16x32_S16x16_0_16 : S16x32.Slices ![0, 16] S16x16
  bcast_S_S16x16 : S_.BroadcastsInDim S16x16 (![] : Fin 0 → Fin S16x16.rank)
  concatenates_S16x16_S16x16_S16x32_d1 : Shape.Concatenates [S16x16, S16x16] S16x32 1
  concatenates_S16x32_S16x32_S32x32_d0 : Shape.Concatenates [S16x32, S16x32] S32x32 0
  bcast_S_S32x32 : S_.BroadcastsInDim S32x32 (![] : Fin 0 → Fin S32x32.rank)
  bcast_S_S16x32 : S_.BroadcastsInDim S16x32 (![] : Fin 0 → Fin S16x32.rank)
  bcast_S_S32 : S_.BroadcastsInDim S32 (![] : Fin 0 → Fin S32.rank)
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S1024x16_S1024x16_0_0 : ∀ a, (![0, 0] : Fin 2 → Nat) a + S1024x16.size a ≤ S1024x16.size a
  h_S1024x16 : 0 < S1024x16.numel
  shapeCasts_S16x32_S16x32 : S16x32.ShapeCasts S16x32
  broadcasts_S1x32_S1024x32 : S1x32.Broadcasts S1024x32
  slices_S8192x32_S8192x16_0_0 : S8192x32.Slices ![0, 0] S8192x16
  slices_S8192x32_S8192x16_0_16 : S8192x32.Slices ![0, 16] S8192x16
  dot_S2048x16_S16x32_S2048x32_1_0_0_1_n_n_wf : DotDims.WF S2048x16 S16x32 S2048x32 [1] [0] [0] [1] [] []
  dot_S512x2048_S2048x32_S512x32_1_0_0_1_n_n_wf : DotDims.WF S512x2048 S2048x32 S512x32 [1] [0] [0] [1] [] []
  dot_S2048x32_S32x32_S2048x32_1_0_0_1_n_n_wf : DotDims.WF S2048x32 S32x32 S2048x32 [1] [0] [0] [1] [] []
  dot_S1024x32_S32x32_S1024x32_1_0_0_1_n_n_wf : DotDims.WF S1024x32 S32x32 S1024x32 [1] [0] [0] [1] [] []
  dot_S1024x16_S16x32_S1024x32_1_0_0_1_n_n_wf : DotDims.WF S1024x16 S16x32 S1024x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x16.size a ≤ S8192x16.size a
  hwx0_0 : ∀ i : grid0.Coords, EltTy.bits .f32 = 32 ∨ (Rect.block (s := S8192x16) S2048x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x32.size a ≤ S16x32.size a
  hwx0_1 : ∀ i : grid0.Coords, EltTy.bits .f32 = 32 ∨ (Rect.block (s := S16x32) S16x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x32.size a ≤ S8192x32.size a
  hwx0_2 : ∀ i : grid0.Coords, EltTy.bits .f32 = 32 ∨ (Rect.block (s := S8192x32) S2048x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S4096x8192.size a
  hwx1_0 : ∀ i : grid1.Coords, EltTy.bits .f32 = 32 ∨ (Rect.block (s := S4096x8192) S512x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x32.size a ≤ S8192x32.size a
  hwx1_1 : ∀ i : grid1.Coords, EltTy.bits .f32 = 32 ∨ (Rect.block (s := S8192x32) S2048x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x32.size a ≤ S4096x32.size a
  hwx1_3 : ∀ i : grid1.Coords, EltTy.bits .f32 = 32 ∨ (Rect.block (s := S4096x32) S512x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x16.size a ≤ S8192x16.size a
  hwx2_0 : ∀ i : grid2.Coords, EltTy.bits .f32 = 32 ∨ (Rect.block (s := S8192x16) S2048x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x32.size a ≤ S16x32.size a
  hwx2_1 : ∀ i : grid2.Coords, EltTy.bits .f32 = 32 ∨ (Rect.block (s := S16x32) S16x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x32.size a ≤ S8192x32.size a
  hwx2_2 : ∀ i : grid2.Coords, EltTy.bits .f32 = 32 ∨ (Rect.block (s := S8192x32) S2048x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x2048.size a ≤ S4096x8192.size a
  hwx3_0 : ∀ i : grid3.Coords, EltTy.bits .f32 = 32 ∨ (Rect.block (s := S4096x8192) S512x2048.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x32.size a ≤ S8192x32.size a
  hwx3_1 : ∀ i : grid3.Coords, EltTy.bits .f32 = 32 ∨ (Rect.block (s := S8192x32) S2048x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x32.size a ≤ S4096x32.size a
  hwx3_3 : ∀ i : grid3.Coords, EltTy.bits .f32 = 32 ∨ (Rect.block (s := S4096x32) S512x32.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x32.size a ≤ S4096x32.size a
  hwx4_0 : ∀ i : grid4.Coords, EltTy.bits .f32 = 32 ∨ (Rect.block (s := S4096x32) S2048x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x32.size a ≤ S32x32.size a
  hwx4_1 : ∀ i : grid4.Coords, EltTy.bits .f32 = 32 ∨ (Rect.block (s := S32x32) S32x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x32.size a ≤ S4096x32.size a
  hwx4_2 : ∀ i : grid4.Coords, EltTy.bits .f32 = 32 ∨ (Rect.block (s := S4096x32) S2048x32.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x2048.size a ≤ S8192x4096.size a
  hwx5_0 : ∀ i : grid5.Coords, EltTy.bits .f32 = 32 ∨ (Rect.block (s := S8192x4096) S512x2048.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x32.size a ≤ S4096x32.size a
  hwx5_1 : ∀ i : grid5.Coords, EltTy.bits .f32 = 32 ∨ (Rect.block (s := S4096x32) S2048x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x32.size a ≤ S1x32.size a
  hwx5_2 : ∀ i : grid5.Coords, EltTy.bits .f32 = 32 ∨ (Rect.block (s := S1x32) S1x32.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S512x32.size a ≤ S8192x32.size a
  hwx5_3 : ∀ i : grid5.Coords, EltTy.bits .f32 = 32 ∨ (Rect.block (s := S8192x32) S512x32.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2048x32.size a ≤ S4096x32.size a
  hwx6_0 : ∀ i : grid6.Coords, EltTy.bits .f32 = 32 ∨ (Rect.block (s := S4096x32) S2048x32.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S32x32.size a ≤ S32x32.size a
  hwx6_1 : ∀ i : grid6.Coords, EltTy.bits .f32 = 32 ∨ (Rect.block (s := S32x32) S32x32.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2048x32.size a ≤ S4096x32.size a
  hwx6_2 : ∀ i : grid6.Coords, EltTy.bits .f32 = 32 ∨ (Rect.block (s := S4096x32) S2048x32.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S512x2048.size a ≤ S8192x4096.size a
  hwx7_0 : ∀ i : grid7.Coords, EltTy.bits .f32 = 32 ∨ (Rect.block (s := S8192x4096) S512x2048.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2048x32.size a ≤ S4096x32.size a
  hwx7_1 : ∀ i : grid7.Coords, EltTy.bits .f32 = 32 ∨ (Rect.block (s := S4096x32) S2048x32.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x32.size a ≤ S1x32.size a
  hwx7_2 : ∀ i : grid7.Coords, EltTy.bits .f32 = 32 ∨ (Rect.block (s := S1x32) S1x32.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S512x32.size a ≤ S8192x32.size a
  hwx7_3 : ∀ i : grid7.Coords, EltTy.bits .f32 = 32 ∨ (Rect.block (s := S8192x32) S512x32.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1024x32.size a ≤ S8192x32.size a
  hwx8_0 : ∀ i : grid8.Coords, EltTy.bits .f32 = 32 ∨ (Rect.block (s := S8192x32) S1024x32.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S1024x32.size a ≤ S8192x32.size a
  hwx8_1 : ∀ i : grid8.Coords, EltTy.bits .f32 = 32 ∨ (Rect.block (s := S8192x32) S1024x32.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S1024x16.size a ≤ S8192x16.size a
  hwx8_2 : ∀ i : grid8.Coords, EltTy.bits .f32 = 32 ∨ (Rect.block (s := S8192x16) S1024x16.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S1024x16.size a ≤ S8192x16.size a
  hwx8_3 : ∀ i : grid8.Coords, EltTy.bits .f32 = 32 ∨ (Rect.block (s := S8192x16) S1024x16.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S32x32.size a ≤ S32x32.size a
  hwx8_4 : ∀ i : grid8.Coords, EltTy.bits .f32 = 32 ∨ (Rect.block (s := S32x32) S32x32.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S16x32.size a ≤ S16x32.size a
  hwx8_5 : ∀ i : grid8.Coords, EltTy.bits .f32 = 32 ∨ (Rect.block (s := S16x32) S16x32.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S32x32.size a ≤ S32x32.size a
  hwx8_6 : ∀ i : grid8.Coords, EltTy.bits .f32 = 32 ∨ (Rect.block (s := S32x32) S32x32.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S16x32.size a ≤ S16x32.size a
  hwx8_7 : ∀ i : grid8.Coords, EltTy.bits .f32 = 32 ∨ (Rect.block (s := S16x32) S16x32.size (cc8_transform_7 i) (hinb8_7 i)).WholeWords (EltTy.packing .f32)
  hstage8_8 : ∀ j, (stage8_8 j).IsWhole
  nbuf8_8 : grid8.bufCount reads8_8 true = 1
  hreads8_8 : ∀ i i' : grid8.Coords, (∀ a, reads8_8 a = true → i a = i' a) → cc8_transform_8 i = cc8_transform_8 i'
  hinb8_8 : ∀ (i : grid8.Coords) a, (cc8_transform_8 i a + 1) * S1x32.size a ≤ S1x32.size a
  hwx8_8 : ∀ i : grid8.Coords, EltTy.bits .f32 = 32 ∨ (Rect.block (s := S1x32) S1x32.size (cc8_transform_8 i) (hinb8_8 i)).WholeWords (EltTy.packing .f32)
  hstage8_9 : ∀ j, (stage8_9 j).IsWhole
  nbuf8_9 : grid8.bufCount reads8_9 false = 2
  hreads8_9 : ∀ i i' : grid8.Coords, (∀ a, reads8_9 a = true → i a = i' a) → cc8_transform_9 i = cc8_transform_9 i'
  hinb8_9 : ∀ (i : grid8.Coords) a, (cc8_transform_9 i a + 1) * S1024x32.size a ≤ S8192x32.size a
  hwx8_9 : ∀ i : grid8.Coords, EltTy.bits .f32 = 32 ∨ (Rect.block (s := S8192x32) S1024x32.size (cc8_transform_9 i) (hinb8_9 i)).WholeWords (EltTy.packing .f32)

variable [Facts₀]

def dot_S2048x16_S16x32_S2048x32_1_0_0_1_n_n : DotDims S2048x16 S16x32 S2048x32 where
  lhsContracting := [1]
  rhsContracting := [0]
  lhsNonContracting := [0]
  rhsNonContracting := [1]
  lhsBatch := []
  rhsBatch := []
  wf := dot_S2048x16_S16x32_S2048x32_1_0_0_1_n_n_wf
def dot_S512x2048_S2048x32_S512x32_1_0_0_1_n_n : DotDims S512x2048 S2048x32 S512x32 where
  lhsContracting := [1]
  rhsContracting := [0]
  lhsNonContracting := [0]
  rhsNonContracting := [1]
  lhsBatch := []
  rhsBatch := []
  wf := dot_S512x2048_S2048x32_S512x32_1_0_0_1_n_n_wf
def dot_S2048x32_S32x32_S2048x32_1_0_0_1_n_n : DotDims S2048x32 S32x32 S2048x32 where
  lhsContracting := [1]
  rhsContracting := [0]
  lhsNonContracting := [0]
  rhsNonContracting := [1]
  lhsBatch := []
  rhsBatch := []
  wf := dot_S2048x32_S32x32_S2048x32_1_0_0_1_n_n_wf
def dot_S1024x32_S32x32_S1024x32_1_0_0_1_n_n : DotDims S1024x32 S32x32 S1024x32 where
  lhsContracting := [1]
  rhsContracting := [0]
  lhsNonContracting := [0]
  rhsNonContracting := [1]
  lhsBatch := []
  rhsBatch := []
  wf := dot_S1024x32_S32x32_S1024x32_1_0_0_1_n_n_wf
def dot_S1024x16_S16x32_S1024x32_1_0_0_1_n_n : DotDims S1024x16 S16x32 S1024x32 where
  lhsContracting := [1]
  rhsContracting := [0]
  lhsNonContracting := [0]
  rhsNonContracting := [1]
  lhsBatch := []
  rhsBatch := []
  wf := dot_S1024x16_S16x32_S1024x32_1_0_0_1_n_n_wf

abbrev win0_0 : Pipeline.Window sig grid0 :=
  Pipeline.Window.ofSpec (Memref.whole main_arg20) S2048x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S16x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg23) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S512x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_arg21) S2048x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S16x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S2048x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg25) S512x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S2048x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v4) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v5) S512x32.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v2) S2048x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v6) S32x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v8) S2048x32.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_arg22) S512x2048.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v8) S2048x32.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v9) S1x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v10) S512x32.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

abbrev win6_0 : Pipeline.Window sig grid6 :=
  Pipeline.Window.ofSpec (Memref.whole main_v5) S2048x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v11) S32x32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v13) S2048x32.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_arg24) S512x2048.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v13) S2048x32.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v14) S1x32.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v15) S512x32.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev idle7 : Fin 4 → grid7.Coords → Bool := fun | 0 => fun _ => false | 1 => fun _ => false | 2 => fun _ => false | 3 => fun i => !(k7_cond2 i == 1#1) | ⟨_ + 4, h⟩ => absurd h (Nat.not_lt.2 (Nat.le_add_left _ _))

abbrev win8_0 : Pipeline.Window sig grid8 :=
  Pipeline.Window.ofSpec (Memref.whole main_v10) S1024x32.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v15) S1024x32.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_arg20) S1024x16.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_arg21) S1024x16.size cc8_transform_3 reads8_3 false false 2 stage8_3 sem8_3
    hrank8 hreads8_3 hinb8_3 nbuf8_3 (Memref.isWhole_whole _) hwx8_3 hstage8_3

abbrev win8_4 : Pipeline.Window sig grid8 :=
  Pipeline.Window.ofSpec (Memref.whole main_v35) S32x32.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v42) S16x32.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v39) S32x32.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v46) S16x32.size cc8_transform_7 reads8_7 false true 1 stage8_7 sem8_7
    hrank8 hreads8_7 hinb8_7 nbuf8_7 (Memref.isWhole_whole _) hwx8_7 hstage8_7

abbrev win8_8 : Pipeline.Window sig grid8 :=
  Pipeline.Window.ofSpec (Memref.whole main_v55) S1x32.size cc8_transform_8 reads8_8 false true 1 stage8_8 sem8_8
    hrank8 hreads8_8 hinb8_8 nbuf8_8 (Memref.isWhole_whole _) hwx8_8 hstage8_8

abbrev win8_9 : Pipeline.Window sig grid8 :=
  Pipeline.Window.ofSpec (Memref.whole main_v56) S1024x32.size cc8_transform_9 reads8_9 true false 2 stage8_9 sem8_9
    hrank8 hreads8_9 hinb8_9 nbuf8_9 (Memref.isWhole_whole _) hwx8_9 hstage8_9

abbrev win8 : Fin 10 → Pipeline.Window sig grid8 := fun | 0 => win8_0 | 1 => win8_1 | 2 => win8_2 | 3 => win8_3 | 4 => win8_4 | 5 => win8_5 | 6 => win8_6 | 7 => win8_7 | 8 => win8_8 | 9 => win8_9 | ⟨_ + 10, h⟩ => absurd h (Nat.not_lt.2 (Nat.le_add_left _ _))
abbrev spec8 : Fin 10 → Pipeline.WinSpec sig grid8.rank := fun w => (win8 w).toWinSpec

class Facts : Prop extends Facts₀ where

variable [Facts]
-- ==== Proof.Spec.lean ====
import Idealize.ShloMosaic.PureOps.Ideal.Laws
import Idealize.ShloMosaic.Lib.ValueIdx

noncomputable section

namespace Cert.Spec

open Idealize.ShloMosaic Idealize.ShloMosaic.ValueIdx

/-- An M × N matrix of extended reals. -/
abbrev Mat (M N : Nat) : Type := (⟨2, ![M, N]⟩ : Shape).Idx → EReal

/-- The matrix product: entry (i, j) is Σₖ l(i, k) · r(k, j). -/
def mm {M K N : Nat} (l : Mat M K) (r : Mat K N) : Mat M N :=
  fun i => ∑ k : Fin K, l (ix2 (i 0) k) * r (ix2 k (i 1))

/-- The leaky rectifier: x where x > 0, the slope constant times x elsewhere. -/
def lk (x : EReal) : EReal :=
  Scalar.select (FloatOps.cmpf (F := Ideal) (φ := .f32) .ogt x (Scalar.ofBits (F := Ideal) .f32 0x00000000#32)) x
    (FloatOps.mulf (F := Ideal) (φ := .f32) (Scalar.ofBits (F := Ideal) .f32 0x3DCCCCCD#32) x)

/-- One graph-convolution layer: lk (A · S + b), b a row added to every row. -/
def gcn {M K N : Nat} (A : Mat M K) (S : Mat K N) (b : Mat 1 N) : Mat M N :=
  fun i => lk (mm A S i + b (ix2 0 (i 1)))

/-- The mixing layer: four matrix products and a row, added in this order. -/
def union {M : Nat} (sc tc : Mat M 32) (sf tf : Mat M 16) (wsc wtc : Mat 32 32) (wsf wtf : Mat 16 32) (bu : Mat 1 32) :
    Mat M 32 :=
  fun i => mm sc wsc i + mm sf wsf i + mm tc wtc i + mm tf wtf i + bu (ix2 0 (i 1))

/-- The left and the right 16 of a matrix's 32 columns. -/
def colsLo {M : Nat} (X : Mat M 32) : Mat M 16 :=
  fun i =>
    have h : (i 1).val < 16 := (i 1).isLt
    X (ix2 (i 0) ⟨(i 1).val, Nat.lt_of_lt_of_le h (by decide)⟩)
def colsHi {M : Nat} (X : Mat M 32) : Mat M 16 :=
  fun i =>
    have h : (i 1).val < 16 := (i 1).isLt
    X (ix2 (i 0) ⟨(i 1).val + 16, Nat.add_lt_add_right h 16⟩)

end Cert.Spec

end
-- ==== Proof.KerHost.lean ====
import proofs.«180555_g2000006695542353_pallasbulk_342_5_alg».proof.Proof.Gen.KernelIdeal.Frame
import proofs.«180555_g2000006695542353_pallasbulk_342_5_alg».proof.Proof.Spec
import Idealize.ShloMosaic.Lib.StableHlo.Run

noncomputable section

namespace Cert.KernelIdeal.Hand

open Idealize.ShloMosaic Idealize.ShloMosaic.TcCoe
open Cert.KernelIdeal Cert.KernelIdeal.Gen

namespace KHaux

variable {F : FTy → Type} [FloatOps F]

def tLo (p : Vec F S16x32 .f32) : Vec F S16x16 .f32 :=
  transpose S16x16 [1, 0] (extractStridedSlice S16x16 ![0, 0] p slices_S16x32_S16x16_0_0) transposes_S16x16_S16x16_1_0

def tHi (p : Vec F S16x32 .f32) : Vec F S16x16 .f32 :=
  transpose S16x16 [1, 0] (extractStridedSlice S16x16 ![0, 16] p slices_S16x32_S16x16_0_16) transposes_S16x16_S16x16_1_0

def z16 : Vec F S16x16 .f32 :=
  broadcastInDim S16x16 ![] bcast_S_S16x16 (constant (F := F) S_ .f32 0x00000000#32)

def row (a b : Vec F S16x16 .f32) : Vec F S16x32 .f32 :=
  concatenate S16x32 1 [⟨S16x16, a⟩, ⟨S16x16, b⟩] concatenates_S16x16_S16x16_S16x32_d1

def blk (a z b : Vec F S16x16 .f32) : Vec F S32x32 .f32 :=
  concatenate S32x32 0 [⟨S16x32, row a z⟩, ⟨S16x32, row z b⟩] concatenates_S16x32_S16x32_S32x32_d0

def cS : Vec F S_ .f32 := constant (F := F) S_ .f32 0x3F333333#32

def cT : Vec F S_ .f32 := subf (constant (F := F) S_ .f32 0x3F800000#32) (constant (F := F) S_ .f32 0x3F333333#32)

end KHaux

namespace KH

open KHaux

variable {F : FTy → Type} [FloatOps F]

def rB (a : Vec F S32 .f32) : Vec F S1x32 .f32 :=
  fun i => shapeCast S1x32 a shapeCasts_S32_S1x32 i

def cat0 (a b : Vec F S16 .f32) : Vec F S32 .f32 :=
  concatenate S32 0 [⟨S16, a⟩, ⟨S16, b⟩] concatenates_S16_S16_S32_d0

def cat1 (a b : Vec F S32x16 .f32) : Vec F S32x32 .f32 :=
  concatenate S32x32 1 [⟨S32x16, a⟩, ⟨S32x16, b⟩] concatenates_S32x16_S32x16_S32x32_d1

def wcS (p q : Vec F S16x32 .f32) : Vec F S32x32 .f32 :=
  mulf (blk (tLo p) z16 (tLo q)) (broadcastInDim S32x32 ![] bcast_S_S32x32 (cS (F := F)))

def wfS (p q : Vec F S16x32 .f32) : Vec F S16x32 .f32 :=
  mulf (row (tHi p) (tHi q)) (broadcastInDim S16x32 ![] bcast_S_S16x32 (cS (F := F)))

def wcT (p q : Vec F S16x32 .f32) : Vec F S32x32 .f32 :=
  mulf (blk (tLo p) z16 (tLo q)) (broadcastInDim S32x32 ![] bcast_S_S32x32 (cT (F := F)))

def wfT (p q : Vec F S16x32 .f32) : Vec F S16x32 .f32 :=
  mulf (row (tHi p) (tHi q)) (broadcastInDim S16x32 ![] bcast_S_S16x32 (cT (F := F)))

def bU (a b a' b' : Vec F S16 .f32) : Vec F S1x32 .f32 :=
  rB (addf (mulf (broadcastInDim S32 ![] bcast_S_S32 (cS (F := F))) (cat0 a b))
    (mulf (broadcastInDim S32 ![] bcast_S_S32 (cT (F := F))) (cat0 a' b')))

end KH

open KHaux

-- Every operation of the stretch writes a reference of the list.
local macro "wr " ops:ident : tactic =>
  `(tactic| (simp only [$ops:ident, List.Forall, StableHlo.nullary_writes, StableHlo.unary_writes, StableHlo.binary_writes, StableHlo.reshape_writes, Finset.singleton_subset_iff, List.mem_toFinset]
             repeat' apply And.intro
             all_goals exact List.mem_map_of_mem (by decide)))

namespace KHaux

abbrev La : List (Ref sig .tc) := [main_v8, main_v9, main_v10, main_v11, main_v12, main_v13, main_v14, main_v15, main_v16, main_v17, main_v18, main_v19, main_v20, main_v21, main_v22, main_v23, main_cst, main_v24]
abbrev Lm : List (Ref sig .tc) := [main_call0_v0, main_call0_v1, main_v25, main_cst_0, main_v26, main_v27]
abbrev Lb : List (Ref sig .tc) := [main_call1_v0, main_call1_v1, main_v28]
abbrev Lc : List (Ref sig .tc) := [main_cst_1, main_cst_2, main_v29, main_v30, main_v31, main_v32, main_cst_3, main_v33, main_v34, main_v35, main_cst_4, main_cst_5, main_v36, main_v37, main_v38, main_v39, main_cst_6, main_v40, main_v41, main_cst_7, main_cst_8, main_v42, main_v43, main_v44, main_v45, main_v46, main_v47, main_v48, main_v49]

variable {F : FTy → Type} [FloatOps F]

section Stretches

variable (V : Valuation τ sig (Elt F)) (r : Ref sig .tc)

-- A reference that no operation of a stretch writes is after the stretch as before it.
theorem k1 (h : r ∉ [main_v6]) : StableHlo.after hostOps1 V (Proc.devRef .tc r) = V (Proc.devRef .tc r) :=
  StableHlo.after_of_writes_sub hostOps1 V (by wr hostOps1) h
theorem kA (h : r ∉ La) : StableHlo.after hostOps2 V (Proc.devRef .tc r) = V (Proc.devRef .tc r) :=
  StableHlo.after_of_writes_sub hostOps2 V (by wr hostOps2) h
theorem kM1 (h : r ∉ Lm) : StableHlo.after hostOps2_1 V (Proc.devRef .tc r) = V (Proc.devRef .tc r) :=
  StableHlo.after_of_writes_sub hostOps2_1 V (by wr hostOps2_1) h
theorem kM2 (h : r ∉ Lm) : StableHlo.after hostOps2_2 V (Proc.devRef .tc r) = V (Proc.devRef .tc r) :=
  StableHlo.after_of_writes_sub hostOps2_2 V (by wr hostOps2_2) h
theorem kB (h : r ∉ Lb) : StableHlo.after hostOps2_3 V (Proc.devRef .tc r) = V (Proc.devRef .tc r) :=
  StableHlo.after_of_writes_sub hostOps2_3 V (by wr hostOps2_3) h
theorem kC (h : r ∉ Lc) : StableHlo.after hostOps2_4 V (Proc.devRef .tc r) = V (Proc.devRef .tc r) :=
  StableHlo.after_of_writes_sub hostOps2_4 V (by wr hostOps2_4) h

theorem s21_v25 : StableHlo.after hostOps2_1 V (Proc.devRef .tc main_v25) = blk (V (Proc.devRef .tc main_v9)) (V (Proc.devRef .tc main_v24)) (V (Proc.devRef .tc main_v13)) := by
  after_results
  rfl
theorem s22_v27 : StableHlo.after hostOps2_2 V (Proc.devRef .tc main_v27) = mulf (V (Proc.devRef .tc main_v25)) (broadcastInDim S32x32 ![] bcast_S_S32x32 (cS (F := F))) := by
  after_results
  rfl
theorem s23_v28 : StableHlo.after hostOps2_3 V (Proc.devRef .tc main_v28) = blk (V (Proc.devRef .tc main_v17)) (V (Proc.devRef .tc main_v24)) (V (Proc.devRef .tc main_v21)) := by
  after_results
  rfl
theorem s24_v31 : StableHlo.after hostOps2_4 V (Proc.devRef .tc main_v31) = mulf (V (Proc.devRef .tc main_v28)) (broadcastInDim S32x32 ![] bcast_S_S32x32 (cT (F := F))) := by
  after_results_simp
  rfl
theorem s24_v34 : StableHlo.after hostOps2_4 V (Proc.devRef .tc main_v34) = mulf (row (V (Proc.devRef .tc main_v11)) (V (Proc.devRef .tc main_v15))) (broadcastInDim S16x32 ![] bcast_S_S16x32 (cS (F := F))) := by
  after_results_simp
  rfl
theorem s24_v38 : StableHlo.after hostOps2_4 V (Proc.devRef .tc main_v38) = mulf (row (V (Proc.devRef .tc main_v19)) (V (Proc.devRef .tc main_v23))) (broadcastInDim S16x32 ![] bcast_S_S16x32 (cT (F := F))) := by
  after_results_simp
  rfl
theorem s24_v49 : StableHlo.after hostOps2_4 V (Proc.devRef .tc main_v49) = KH.bU (V (Proc.devRef .tc main_arg13)) (V (Proc.devRef .tc main_arg15)) (V (Proc.devRef .tc main_arg17)) (V (Proc.devRef .tc main_arg19)) := by
  after_results_simp
  rfl

end Stretches

variable (m : (ℓ : Loc nD τ sig) → Buf (Elt F) ℓ) (ρ : Dev nD → PrngReg) (c : Dev nD) (r : Ref sig .tc)

-- An argument is no result of the first stretch, so the first region finds it as launched.
theorem A1 (h : r ∉ [main_v0, main_v1, main_v2, main_v3, main_v4]) : W1 m ρ c (Proc.devRef .tc r) = m ((c : Thread nD τ).loc r) :=
  StableHlo.after_of_writes_sub hostOps0 (W0 m ρ c) (by wr hostOps0) h

-- What is neither an array of the first region nor the one result after it, the second region finds as the first did.
theorem B3 (h : r ∉ [main_v6] ∧ ∀ w, Pipeline.arrRef spec0 w ≠ r) : W3 m ρ c (Proc.devRef .tc r) = W1 m ρ c (Proc.devRef .tc r) :=
  (k1 _ r h.1).trans (W2_of_ne m ρ c r h.2)

theorem B4 (h : (r ∉ [main_v6] ∧ ∀ w, Pipeline.arrRef spec0 w ≠ r) ∧ ∀ w, Pipeline.arrRef spec1 w ≠ r) :
    W4 m ρ c (Proc.devRef .tc r) = W1 m ρ c (Proc.devRef .tc r) :=
  (W4_of_ne m ρ c r h.2).trans (B3 m ρ c r h.1)

theorem A3 (h : (r ∉ [main_v6] ∧ ∀ w, Pipeline.arrRef spec0 w ≠ r) ∧ r ∉ [main_v0, main_v1, main_v2, main_v3, main_v4]) :
    W3 m ρ c (Proc.devRef .tc r) = m ((c : Thread nD τ).loc r) :=
  (B3 m ρ c r h.1).trans (A1 m ρ c r h.2)

theorem A4 (h : ((r ∉ [main_v6] ∧ ∀ w, Pipeline.arrRef spec0 w ≠ r) ∧ ∀ w, Pipeline.arrRef spec1 w ≠ r) ∧ r ∉ [main_v0, main_v1, main_v2, main_v3, main_v4]) :
    W4 m ρ c (Proc.devRef .tc r) = m ((c : Thread nD τ).loc r) :=
  (B4 m ρ c r h.1).trans (A1 m ρ c r h.2)

theorem k57 (h : r ∉ Lm) : W7 m ρ c (Proc.devRef .tc r) = W5 m ρ c (Proc.devRef .tc r) :=
  (kM2 _ r h).trans (kM1 _ r h)

theorem k58 (h : r ∉ Lm ∧ r ∉ Lb) : W8 m ρ c (Proc.devRef .tc r) = W5 m ρ c (Proc.devRef .tc r) :=
  (kB _ r h.2).trans (k57 m ρ c r h.1)

theorem k48 (h : (r ∉ Lm ∧ r ∉ Lb) ∧ r ∉ La) : W8 m ρ c (Proc.devRef .tc r) = W4 m ρ c (Proc.devRef .tc r) :=
  (k58 m ρ c r h.1).trans (kA _ r h.2)

-- What none of the five stretches writes, the third region finds as the second left it.
theorem k2 (h : ((r ∉ Lm ∧ r ∉ Lb) ∧ r ∉ La) ∧ r ∉ Lc) : W9 m ρ c (Proc.devRef .tc r) = W4 m ρ c (Proc.devRef .tc r) :=
  (kC _ r h.2).trans (k48 m ρ c r h.1)

end KHaux

section

variable {F : FTy → Type} [FloatOps F]
variable (m : (ℓ : Loc nD τ sig) → Buf (Elt F) ℓ) (ρ : Dev nD → PrngReg)

theorem V1_arg23 (c : Dev nD) : V1 m ρ c main_arg23 = m ((c : Thread nD τ).loc main_arg23) := A1 m ρ c main_arg23 (by decide)
theorem V1_arg20 (c : Dev nD) : V1 m ρ c main_arg20 = m ((c : Thread nD τ).loc main_arg20) := A1 m ρ c main_arg20 (by decide)
theorem V1_arg0 (c : Dev nD) : V1 m ρ c main_arg0 = m ((c : Thread nD τ).loc main_arg0) := A1 m ρ c main_arg0 (by decide)

theorem V1_v4 (c : Dev nD) : V1 m ρ c main_v4 = KH.rB (m ((c : Thread nD τ).loc main_arg1)) := by
  show StableHlo.after _ _ _ = _
  after_results
  rfl

theorem V1_v0 (c : Dev nD) : V1 m ρ c main_v0 = KH.cat1 (m ((c : Thread nD τ).loc main_arg4)) (m ((c : Thread nD τ).loc main_arg6)) := by
  show StableHlo.after _ _ _ = _
  after_results
  rfl

theorem V3_arg25 (c : Dev nD) : V3 m ρ c main_arg25 = m ((c : Thread nD τ).loc main_arg25) := A3 m ρ c main_arg25 (by decide)
theorem V3_arg21 (c : Dev nD) : V3 m ρ c main_arg21 = m ((c : Thread nD τ).loc main_arg21) := A3 m ρ c main_arg21 (by decide)
theorem V3_arg2 (c : Dev nD) : V3 m ρ c main_arg2 = m ((c : Thread nD τ).loc main_arg2) := A3 m ρ c main_arg2 (by decide)

theorem V3_v6 (c : Dev nD) : V3 m ρ c main_v6 = KH.rB (m ((c : Thread nD τ).loc main_arg3)) := by
  show StableHlo.after _ _ _ = _
  after_results
  rw [W2_of_ne m ρ c main_arg3 (by decide), A1 m ρ c main_arg3 (by decide)]
  rfl

theorem V3_v2 (c : Dev nD) : V3 m ρ c main_v2 = KH.cat1 (m ((c : Thread nD τ).loc main_arg8)) (m ((c : Thread nD τ).loc main_arg10)) :=
  (B3 m ρ c main_v2 (by decide)).trans <| by
    show StableHlo.after _ _ _ = _
    after_results
    rfl

theorem V9_arg22 (c : Dev nD) : V9 m ρ c main_arg22 = m ((c : Thread nD τ).loc main_arg22) :=
  (k2 m ρ c main_arg22 (by decide)).trans (A4 m ρ c main_arg22 (by decide))
theorem V9_arg24 (c : Dev nD) : V9 m ρ c main_arg24 = m ((c : Thread nD τ).loc main_arg24) :=
  (k2 m ρ c main_arg24 (by decide)).trans (A4 m ρ c main_arg24 (by decide))

theorem V9_arg20 (c : Dev nD) : V9 m ρ c main_arg20 = m ((c : Thread nD τ).loc main_arg20) :=
  (k2 m ρ c main_arg20 (by decide)).trans <| (W4_of_ne m ρ c main_arg20 (by decide)).trans <|
  (k1 _ main_arg20 (by decide)).trans <| (W2_arr m ρ c 1).trans <|
  ((dat0 (V1 m ρ) c).arrAt_in 1 rfl _).trans <| (A_eq0 (V1 m ρ) c 1).trans (A1 m ρ c main_arg20 (by decide))

theorem V9_arg21 (c : Dev nD) : V9 m ρ c main_arg21 = m ((c : Thread nD τ).loc main_arg21) :=
  (k2 m ρ c main_arg21 (by decide)).trans <| (W4_arr m ρ c 1).trans <|
  ((dat1 (V3 m ρ) c).arrAt_in 1 rfl _).trans <| (A_eq1 (V3 m ρ) c 1).trans (A3 m ρ c main_arg21 (by decide))

theorem V9_v5 (c : Dev nD) : V9 m ρ c main_v5 = (dat0 (V1 m ρ) c).arrAt 5 cfg0.N :=
  (k2 m ρ c main_v5 (by decide)).trans <| (W4_of_ne m ρ c main_v5 (by decide)).trans <|
  (k1 _ main_v5 (by decide)).trans (W2_arr m ρ c 5)

theorem V9_v7 (c : Dev nD) : V9 m ρ c main_v7 = (dat1 (V3 m ρ) c).arrAt 5 cfg1.N :=
  (k2 m ρ c main_v7 (by decide)).trans (W4_arr m ρ c 5)

theorem V9_v47 (c : Dev nD) : V9 m ρ c main_v47 = KH.rB (KH.cat0 (m ((c : Thread nD τ).loc main_arg5)) (m ((c : Thread nD τ).loc main_arg7))) := by
  show StableHlo.after _ _ _ = _
  after_results_simp
  rw [B4 m ρ c main_v1 (by decide)]
  after_results
  rfl

theorem V9_v48 (c : Dev nD) : V9 m ρ c main_v48 = KH.rB (KH.cat0 (m ((c : Thread nD τ).loc main_arg9)) (m ((c : Thread nD τ).loc main_arg11))) := by
  show StableHlo.after _ _ _ = _
  after_results_simp
  rw [B4 m ρ c main_v3 (by decide)]
  after_results
  rfl

theorem W10_v50_0 (c : Dev nD) : W10 m ρ c (Proc.devRef .tc main_v50_0) = (dat2 (V9 m ρ) c).arrAt 13 cfg2.N := W10_arr m ρ c 13
theorem W10_v50_1 (c : Dev nD) : W10 m ρ c (Proc.devRef .tc main_v50_1) = (dat2 (V9 m ρ) c).arrAt 14 cfg2.N := W10_arr m ρ c 14

theorem KHaux.W5_v9 (c : Dev nD) : W5 m ρ c (Proc.devRef .tc main_v9) = tLo (m ((c : Thread nD τ).loc main_arg12)) := by
  show StableHlo.after _ _ _ = _
  after_results_simp
  rw [A4 m ρ c main_arg12 (by decide)]
  rfl
theorem KHaux.W5_v11 (c : Dev nD) : W5 m ρ c (Proc.devRef .tc main_v11) = tHi (m ((c : Thread nD τ).loc main_arg12)) := by
  show StableHlo.after _ _ _ = _
  after_results_simp
  rw [A4 m ρ c main_arg12 (by decide)]
  rfl
theorem KHaux.W5_v13 (c : Dev nD) : W5 m ρ c (Proc.devRef .tc main_v13) = tLo (m ((c : Thread nD τ).loc main_arg14)) := by
  show StableHlo.after _ _ _ = _
  after_results_simp
  rw [A4 m ρ c main_arg14 (by decide)]
  rfl
theorem KHaux.W5_v15 (c : Dev nD) : W5 m ρ c (Proc.devRef .tc main_v15) = tHi (m ((c : Thread nD τ).loc main_arg14)) := by
  show StableHlo.after _ _ _ = _
  after_results_simp
  rw [A4 m ρ c main_arg14 (by decide)]
  rfl
theorem KHaux.W5_v17 (c : Dev nD) : W5 m ρ c (Proc.devRef .tc main_v17) = tLo (m ((c : Thread nD τ).loc main_arg16)) := by
  show StableHlo.after _ _ _ = _
  after_results_simp
  rw [A4 m ρ c main_arg16 (by decide)]
  rfl
theorem KHaux.W5_v19 (c : Dev nD) : W5 m ρ c (Proc.devRef .tc main_v19) = tHi (m ((c : Thread nD τ).loc main_arg16)) := by
  show StableHlo.after _ _ _ = _
  after_results_simp
  rw [A4 m ρ c main_arg16 (by decide)]
  rfl
theorem KHaux.W5_v21 (c : Dev nD) : W5 m ρ c (Proc.devRef .tc main_v21) = tLo (m ((c : Thread nD τ).loc main_arg18)) := by
  show StableHlo.after _ _ _ = _
  after_results_simp
  rw [A4 m ρ c main_arg18 (by decide)]
  rfl
theorem KHaux.W5_v23 (c : Dev nD) : W5 m ρ c (Proc.devRef .tc main_v23) = tHi (m ((c : Thread nD τ).loc main_arg18)) := by
  show StableHlo.after _ _ _ = _
  after_results_simp
  rw [A4 m ρ c main_arg18 (by decide)]
  rfl
theorem KHaux.W5_v24 (c : Dev nD) : W5 m ρ c (Proc.devRef .tc main_v24) = z16 (F := F) := by
  show StableHlo.after _ _ _ = _
  after_results_simp
  rfl

theorem V9_v27 (c : Dev nD) : V9 m ρ c main_v27 = KH.wcS (m ((c : Thread nD τ).loc main_arg12)) (m ((c : Thread nD τ).loc main_arg14)) :=
  (kC _ main_v27 (by decide)).trans <| (kB _ main_v27 (by decide)).trans <| (s22_v27 (W6 m ρ c)).trans <| by
    rw [show W6 m ρ c (Proc.devRef .tc main_v25) = _ from s21_v25 (W5 m ρ c), W5_v9 m ρ c, W5_v24 m ρ c, W5_v13 m ρ c]
    rfl

theorem V9_v34 (c : Dev nD) : V9 m ρ c main_v34 = KH.wfS (m ((c : Thread nD τ).loc main_arg12)) (m ((c : Thread nD τ).loc main_arg14)) :=
  (s24_v34 (W8 m ρ c)).trans <| by
    rw [k58 m ρ c main_v11 (by decide), k58 m ρ c main_v15 (by decide), W5_v11 m ρ c, W5_v15 m ρ c]
    rfl

theorem V9_v31 (c : Dev nD) : V9 m ρ c main_v31 = KH.wcT (m ((c : Thread nD τ).loc main_arg16)) (m ((c : Thread nD τ).loc main_arg18)) :=
  (s24_v31 (W8 m ρ c)).trans <| by
    rw [show W8 m ρ c (Proc.devRef .tc main_v28) = _ from s23_v28 (W7 m ρ c), k57 m ρ c main_v17 (by decide), k57 m ρ c main_v24 (by decide), k57 m ρ c main_v21 (by decide), W5_v17 m ρ c, W5_v24 m ρ c, W5_v21 m ρ c]
    rfl

theorem V9_v38 (c : Dev nD) : V9 m ρ c main_v38 = KH.wfT (m ((c : Thread nD τ).loc main_arg16)) (m ((c : Thread nD τ).loc main_arg18)) :=
  (s24_v38 (W8 m ρ c)).trans <| by
    rw [k58 m ρ c main_v19 (by decide), k58 m ρ c main_v23 (by decide), W5_v19 m ρ c, W5_v23 m ρ c]
    rfl

theorem V9_v49 (c : Dev nD) : V9 m ρ c main_v49 = KH.bU (m ((c : Thread nD τ).loc main_arg13)) (m ((c : Thread nD τ).loc main_arg15)) (m ((c : Thread nD τ).loc main_arg17)) (m ((c : Thread nD τ).loc main_arg19)) :=
  (s24_v49 (W8 m ρ c)).trans <| by
    rw [k48 m ρ c main_arg13 (by decide), k48 m ρ c main_arg15 (by decide), k48 m ρ c main_arg17 (by decide), k48 m ρ c main_arg19 (by decide), A4 m ρ c main_arg13 (by decide), A4 m ρ c main_arg15 (by decide), A4 m ρ c main_arg17 (by decide), A4 m ρ c main_arg19 (by decide)]

end

end Cert.KernelIdeal.Hand

end
-- ==== Proof.LibDotPlain.lean ====
import Idealize.ShloMosaic.PureOps.Ideal.Laws
import Idealize.ShloMosaic.Lib.ValueIdx

noncomputable section

namespace Cert.LibDot

open Idealize.ShloMosaic Idealize.ShloMosaic.ValueIdx

variable (M K N : Nat)

/-- A plain product has no batch axis: the left operand keeps the output's row on its axis 0, -/
theorem lhs_plain_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- and the right operand keeps the output's column on its axis 1. -/
theorem rhs_plain_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- At output entry (i, j) and contraction position k the operands are read at (i, k) and at (k, j). -/
theorem lhsIdx_plain (i : Fin M) (j : Fin N) (k : Fin K) :
    (DotDims.plain M K N).lhsIdx (ix2 i j) ((contrEquiv1 (DotDims.plain M K N) K rfl rfl).symm k) = ix2 i k :=
  funext fun a => Fin.ext (by
    have hk := contrEquiv1_symm_val (DotDims.plain M K N) K rfl rfl k
    match a with
    | ⟨0, _⟩ => exact lhs_plain_0 M K N _ _
    | ⟨1, _⟩ => exact ((DotDims.plain M K N).lhsIdx_val_of_single rfl _ _).trans hk)
theorem rhsIdx_plain (i : Fin M) (j : Fin N) (k : Fin K) :
    (DotDims.plain M K N).rhsIdx (ix2 i j) ((contrEquiv1 (DotDims.plain M K N) K rfl rfl).symm k) = ix2 k j :=
  funext fun a => Fin.ext (by
    have hk := contrEquiv1_symm_val (DotDims.plain M K N) K rfl rfl k
    match a with
    | ⟨0, _⟩ => exact ((DotDims.plain M K N).rhsIdx_val_of_single rfl _ _).trans hk
    | ⟨1, _⟩ => exact rhs_plain_1 M K N _ _)

/-- Entry (i, j) of a plain product accumulated from zero is Σₖ l(i, k) · r(k, j): the contraction has one axis. -/
theorem mm_plain {φ₁ φ₂ : FTy} (l : FVec Ideal ⟨2, ![M, K]⟩ φ₁) (r : FVec Ideal ⟨2, ![K, N]⟩ φ₂)
    (i : Fin M) (j : Fin N) :
    matmul (DotDims.plain M K N) none l r (constant (F := Ideal) ⟨2, ![M, N]⟩ .f32 0x00000000#32) (ix2 i j)
      = ∑ k : Fin K, l (ix2 i k) * r (ix2 k j) :=
  (Ideal.matmul_constant_zero_apply (DotDims.plain M K N) none l r _).trans <| by
    rw [← Equiv.sum_comp (contrEquiv1 (DotDims.plain M K N) K rfl rfl).symm]
    exact Finset.sum_congr rfl fun k _ => by rw [lhsIdx_plain, rhsIdx_plain]

end Cert.LibDot

end
-- ==== Proof.KerRows.lean ====
import proofs.«180555_g2000006695542353_pallasbulk_342_5_alg».proof.Proof.Spec
import proofs.«180555_g2000006695542353_pallasbulk_342_5_alg».proof.Proof.LibDotPlain
import Idealize.ShloMosaic.Lib.Pipeline.Value
import Idealize.ShloMosaic.Lib.ValueIdx
import Idealize.ShloMosaic.Lib.ValueLayout
import Idealize.ShloMosaic.PureOps.Ideal.Laws
noncomputable section
namespace Cert.Rows
open Idealize.ShloMosaic Idealize.ShloMosaic.TcCoe Idealize.ShloMosaic.ValueIdx Cert.Spec

theorem origin : (![0, 0] : Fin 2 → Nat) = fun _ => 0 :=
  funext fun a => match a with | ⟨0, _⟩ => rfl | ⟨1, _⟩ => rfl

variable {m M K N : Nat}

-- A block product into a zero accumulator is the matrix product of the blocks.
theorem matmul_eq_mm (l : FVec Ideal ⟨2, ![M, K]⟩ .f32) (r : FVec Ideal ⟨2, ![K, N]⟩ .f32) :
    matmul (DotDims.plain M K N) none l r (constant (F := Ideal) ⟨2, ![M, N]⟩ .f32 0x00000000#32) = mm l r :=
  funext fun j => by rw [eq_ix2 j]; exact Cert.LibDot.mm_plain M K N l r _ _

-- Product, row bias and rectifier together are one graph-convolution layer of the blocks.
theorem gcn_block (a : FVec Ideal ⟨2, ![M, K]⟩ .f32) (s : FVec Ideal ⟨2, ![K, N]⟩ .f32) (b : FVec Ideal ⟨2, ![1, N]⟩ .f32)
    (h : (⟨2, ![1, N]⟩ : Shape).Broadcasts ⟨2, ![M, N]⟩) (v : FVec Ideal ⟨2, ![M, N]⟩ .f32)
    (hv : v = addf (matmul (DotDims.plain M K N) none a s (constant (F := Ideal) ⟨2, ![M, N]⟩ .f32 0x00000000#32))
      (broadcastTo ⟨2, ![M, N]⟩ b h)) :
    select (cmpf .ogt v (broadcast ⟨2, ![M, N]⟩ (Scalar.ofBits (F := Ideal) .f32 0x00000000#32))) v
      (mulf (broadcast ⟨2, ![M, N]⟩ (Scalar.ofBits (F := Ideal) .f32 0x3DCCCCCD#32)) v) = gcn a s b := by
  subst hv; funext j; rw [eq_ix2 j]
  exact congrArg lk (congrArg₂ (· + ·) (Cert.LibDot.mm_plain M K N a s _ _) (broadcastTo_1b_ab_apply b h _ _))

-- Row p of a product depends on row p of its left factor only.
theorem mm_row {a : Mat m K} {A : Mat M K} {p : Fin m} {r : Fin M} (h : ∀ k, a (ix2 p k) = A (ix2 r k)) (S : Mat K N)
    (q : Fin N) : mm a S (ix2 p q) = mm A S (ix2 r q) :=
  Finset.sum_congr rfl fun k _ => congrArg (· * S (ix2 k q)) (h k)

theorem gcn_row {a : Mat m K} {A : Mat M K} {p : Fin m} {r : Fin M} (h : ∀ k, a (ix2 p k) = A (ix2 r k)) (S : Mat K N)
    (b : Mat 1 N) (q : Fin N) : gcn a S b (ix2 p q) = gcn A S b (ix2 r q) :=
  congrArg (fun x => lk (x + b (ix2 0 q))) (mm_row h S q)

theorem union_row {sc tc : Mat m 32} {SC TC : Mat M 32} {sf tf : Mat m 16} {SF TF : Mat M 16} {p : Fin m} {r : Fin M}
    (h1 : ∀ k, sc (ix2 p k) = SC (ix2 r k)) (h2 : ∀ k, tc (ix2 p k) = TC (ix2 r k))
    (h3 : ∀ k, sf (ix2 p k) = SF (ix2 r k)) (h4 : ∀ k, tf (ix2 p k) = TF (ix2 r k))
    (wsc wtc : Mat 32 32) (wsf wtf : Mat 16 32) (bu : Mat 1 32) (q : Fin 32) :
    union sc tc sf tf wsc wtc wsf wtf bu (ix2 p q) = union SC TC SF TF wsc wtc wsf wtf bu (ix2 r q) :=
  congrArg₂ (· + ·) (congrArg₂ (· + ·) (congrArg₂ (· + ·) (congrArg₂ (· + ·) (mm_row h1 wsc q) (mm_row h3 wsf q))
    (mm_row h2 wtc q)) (mm_row h4 wtf q)) rfl

end Cert.Rows

end
-- ==== Proof.KerVal0.lean ====
import proofs.«180555_g2000006695542353_pallasbulk_342_5_alg».proof.Proof.Gen.KernelIdeal.Frame
import proofs.«180555_g2000006695542353_pallasbulk_342_5_alg».proof.Proof.KerRows
set_option maxRecDepth 16384
noncomputable section
namespace Cert.KernelIdeal.Hand
open Idealize.ShloMosaic Idealize.ShloMosaic.TcCoe Idealize.ShloMosaic.ValueIdx
open Idealize.ShloMosaic.Pipeline (Dat Cfg Window)
open Cert.KernelIdeal Cert.KernelIdeal.Gen Cert.Spec Cert.Rows
variable (V : (c : Dev nD) → (b : Ref sig .tc) → Buf (Elt Ideal) ((c : Thread nD τ).loc b))

-- The stored block is the product of one layer of the loaded blocks with the second weights.
theorem pay0_eq (a : FVec Ideal S256x8192 .f32) (x : FVec Ideal S8192x16 .f32) (w1 : FVec Ideal S16x32 .f32)
    (b : FVec Ideal S1x32 .f32) (w3 : FVec Ideal S32x32 .f32) :
    k0_pay1 (F := Ideal) x w1 a b w3 = mm (gcn a (mm x w1) b) w3 := by
  unfold k0_pay1
  simp only [shapeCast_self]
  exact (matmul_eq_mm (M := 256) (K := 32) (N := 32) _ w3).trans (congrArg (mm · w3)
    ((gcn_block (M := 256) (K := 8192) (N := 32) a _ b _ _ rfl).trans
      (congrArg (gcn a · b) (matmul_eq_mm (M := 8192) (K := 16) (N := 32) x w1))))

theorem idx0 : ∀ t : Fin cfg0.N,
    (win0_0.index t (0 : Fin 2) = t.val ∧ win0_0.index t (1 : Fin 2) = 0
      ∧ win0_5.index t (0 : Fin 2) = t.val ∧ win0_5.index t (1 : Fin 2) = 0)
    ∧ ∀ a : Fin 2, win0_1.index t a = 0 ∧ win0_2.index t a = 0 ∧ win0_3.index t a = 0 ∧ win0_4.index t a = 0 :=
  (by decide +kernel : ∀ t : Fin grid0.N, _)

abbrev G0 (c : Dev nD) : Mat 4096 32 :=
  mm (gcn (V c main_arg23) (mm (V c main_arg20) (V c main_arg0)) (V c main_v4)) (V c main_v0)

-- Point t stores rows 256 t … 256 t + 255 of the product; the sixteen row blocks fill the array.
theorem value0 (c : Dev nD) : (Gen.dat0 (F := Ideal) V c).arrAt 5 cfg0.N
      = Cert.Spec.mm (Cert.Spec.gcn (V c main_arg23) (Cert.Spec.mm (V c main_arg20) (V c main_arg0)) (V c main_v4)) (V c main_v0) := by
  refine (dat0 V c).arrAt_eq_of_cover 5 (G0 V c) (fun t _ => ?_) fun i => ?_
  · obtain ⟨⟨e0, e1, e2, e3⟩, z⟩ := idx0 t
    have ht : t.val < 16 := lt_of_lt_of_eq t.isLt N_0
    have h1 : (iblk0 V c 1 t : FVec Ideal S8192x16 .f32) = (V c main_arg20 : Mat 8192 16) := funext fun j =>
      congrArg (V c main_arg20) (funext fun a => Fin.ext (win0_1.rect_emb_val_of_index_zero t a (z a).1 j))
    have h2 : (iblk0 V c 2 t : FVec Ideal S16x32 .f32) = (V c main_arg0 : Mat 16 32) := funext fun j =>
      congrArg (V c main_arg0) (funext fun a => Fin.ext (win0_2.rect_emb_val_of_index_zero t a (z a).2.1 j))
    have h3 : (iblk0 V c 3 t : FVec Ideal S1x32 .f32) = (V c main_v4 : Mat 1 32) := funext fun j =>
      congrArg (V c main_v4) (funext fun a => Fin.ext (win0_3.rect_emb_val_of_index_zero t a (z a).2.2.1 j))
    have h4 : (iblk0 V c 4 t : FVec Ideal S32x32 .f32) = (V c main_v0 : Mat 32 32) := funext fun j =>
      congrArg (V c main_v0) (funext fun a => Fin.ext (win0_4.rect_emb_val_of_index_zero t a (z a).2.2.2 j))
    show (cfg0.win 5).cut (grid0.coords t) ((dat0 V c).after 5 t) = _
    rw [after0_5]
    unfold out0_5
    rw [View.canon_unit_zero origin]
    simp only [View.ld_unit_zero (S := S8192x16) origin, View.ld_unit_zero (S := S16x32) origin,
      View.ld_unit_zero (S := S256x8192) origin, View.ld_unit_zero (S := S1x32) origin,
      View.ld_unit_zero (S := S32x32) origin]
    rw [pay0_eq, h1, h2, h3, h4]
    funext j
    obtain ⟨p, q, rfl⟩ : ∃ (p : Fin 256) (q : Fin 32), j = ix2 p q := ⟨j 0, j 1, eq_ix2 j⟩
    have hp := p.isLt
    obtain ⟨r, hr⟩ : ∃ r : Fin 4096, r.val = 256 * t.val + p.val := ⟨⟨256 * t.val + p.val, by omega⟩, rfl⟩
    have h0 : ∀ k, (iblk0 V c 0 t : FVec Ideal S256x8192 .f32) (ix2 p k) = (V c main_arg23 : Mat 4096 8192) (ix2 r k) :=
      fun k => congrArg (V c main_arg23) (Shape.idx_ext₂
        (by show win0_0.index t (0 : Fin 2) * 256 + 1 * p.val = r.val; omega)
        (by show win0_0.index t (1 : Fin 2) * 8192 + 1 * k.val = k.val; omega))
    show _ = G0 V c (((cfg0.win 5).blk t).view.emb (ix2 p q))
    rw [show ((cfg0.win 5).blk t).view.emb (ix2 p q) = ix2 r q from Shape.idx_ext₂
      (by show win0_5.index t (0 : Fin 2) * 256 + 1 * p.val = r.val; omega)
      (by show win0_5.index t (1 : Fin 2) * 32 + 1 * q.val = q.val; omega)]
    exact mm_row (fun k => gcn_row h0 _ _ k) _ q
  · have hi0 : (i 0).val < 4096 := (i 0).isLt
    have hi1 : (i 1).val < 32 := (i 1).isLt
    obtain ⟨t, ht⟩ : ∃ t : Fin cfg0.N, t.val = (i 0).val / 256 :=
      ⟨⟨(i 0).val / 256, by rw [show cfg0.N = 16 from N_0]; omega⟩, rfl⟩
    obtain ⟨⟨-, -, e2, e3⟩, -⟩ := idx0 t
    refine ⟨t, flush0_5 t, ?_⟩
    show i ∈ ((View.whole main_v5).slice (win0_5.rect t)).set
    rw [View.set_slice_whole, Rect.mem_set_unit]
    intro a
    match a with
    | ⟨0, _⟩ =>
      show win0_5.index t (0 : Fin 2) * 256 ≤ (i 0).val ∧ (i 0).val < win0_5.index t (0 : Fin 2) * 256 + 256
      omega
    | ⟨1, _⟩ =>
      show win0_5.index t (1 : Fin 2) * 32 ≤ (i 1).val ∧ (i 1).val < win0_5.index t (1 : Fin 2) * 32 + 32
      omega

end Cert.KernelIdeal.Hand

end
-- ==== Proof.KerVal1.lean ====
import proofs.«180555_g2000006695542353_pallasbulk_342_5_alg».proof.Proof.Gen.KernelIdeal.Frame
import proofs.«180555_g2000006695542353_pallasbulk_342_5_alg».proof.Proof.KerRows
set_option maxRecDepth 16384
noncomputable section
namespace Cert.KernelIdeal.Hand
open Idealize.ShloMosaic Idealize.ShloMosaic.TcCoe Idealize.ShloMosaic.ValueIdx
open Idealize.ShloMosaic.Pipeline (Dat Cfg Window)
open Cert.KernelIdeal Cert.KernelIdeal.Gen Cert.Spec Cert.Rows
variable (V : (c : Dev nD) → (b : Ref sig .tc) → Buf (Elt Ideal) ((c : Thread nD τ).loc b))

-- The stored block is the product of one layer of the loaded blocks with the second weights.
theorem pay1_eq (a : FVec Ideal S256x8192 .f32) (x : FVec Ideal S8192x16 .f32) (w1 : FVec Ideal S16x32 .f32)
    (b : FVec Ideal S1x32 .f32) (w3 : FVec Ideal S32x32 .f32) :
    k1_pay1 (F := Ideal) x w1 a b w3 = mm (gcn a (mm x w1) b) w3 := by
  unfold k1_pay1
  simp only [shapeCast_self]
  exact (matmul_eq_mm (M := 256) (K := 32) (N := 32) _ w3).trans (congrArg (mm · w3)
    ((gcn_block (M := 256) (K := 8192) (N := 32) a _ b _ _ rfl).trans
      (congrArg (gcn a · b) (matmul_eq_mm (M := 8192) (K := 16) (N := 32) x w1))))

theorem idx1 : ∀ t : Fin cfg1.N,
    (win1_0.index t (0 : Fin 2) = t.val ∧ win1_0.index t (1 : Fin 2) = 0
      ∧ win1_5.index t (0 : Fin 2) = t.val ∧ win1_5.index t (1 : Fin 2) = 0)
    ∧ ∀ a : Fin 2, win1_1.index t a = 0 ∧ win1_2.index t a = 0 ∧ win1_3.index t a = 0 ∧ win1_4.index t a = 0 :=
  (by decide +kernel : ∀ t : Fin grid1.N, _)

abbrev G1 (c : Dev nD) : Mat 4096 32 :=
  mm (gcn (V c main_arg25) (mm (V c main_arg21) (V c main_arg2)) (V c main_v6)) (V c main_v2)

-- Point t stores rows 256 t … 256 t + 255 of the product; the sixteen row blocks fill the array.
theorem value1 (c : Dev nD) : (Gen.dat1 (F := Ideal) V c).arrAt 5 cfg1.N
      = Cert.Spec.mm (Cert.Spec.gcn (V c main_arg25) (Cert.Spec.mm (V c main_arg21) (V c main_arg2)) (V c main_v6)) (V c main_v2) := by
  refine (dat1 V c).arrAt_eq_of_cover 5 (G1 V c) (fun t _ => ?_) fun i => ?_
  · obtain ⟨⟨e0, e1, e2, e3⟩, z⟩ := idx1 t
    have ht : t.val < 16 := lt_of_lt_of_eq t.isLt N_1
    have h1 : (iblk1 V c 1 t : FVec Ideal S8192x16 .f32) = (V c main_arg21 : Mat 8192 16) := funext fun j =>
      congrArg (V c main_arg21) (funext fun a => Fin.ext (win1_1.rect_emb_val_of_index_zero t a (z a).1 j))
    have h2 : (iblk1 V c 2 t : FVec Ideal S16x32 .f32) = (V c main_arg2 : Mat 16 32) := funext fun j =>
      congrArg (V c main_arg2) (funext fun a => Fin.ext (win1_2.rect_emb_val_of_index_zero t a (z a).2.1 j))
    have h3 : (iblk1 V c 3 t : FVec Ideal S1x32 .f32) = (V c main_v6 : Mat 1 32) := funext fun j =>
      congrArg (V c main_v6) (funext fun a => Fin.ext (win1_3.rect_emb_val_of_index_zero t a (z a).2.2.1 j))
    have h4 : (iblk1 V c 4 t : FVec Ideal S32x32 .f32) = (V c main_v2 : Mat 32 32) := funext fun j =>
      congrArg (V c main_v2) (funext fun a => Fin.ext (win1_4.rect_emb_val_of_index_zero t a (z a).2.2.2 j))
    show (cfg1.win 5).cut (grid1.coords t) ((dat1 V c).after 5 t) = _
    rw [after1_5]
    unfold out1_5
    rw [View.canon_unit_zero origin]
    simp only [View.ld_unit_zero (S := S8192x16) origin, View.ld_unit_zero (S := S16x32) origin,
      View.ld_unit_zero (S := S256x8192) origin, View.ld_unit_zero (S := S1x32) origin,
      View.ld_unit_zero (S := S32x32) origin]
    rw [pay1_eq, h1, h2, h3, h4]
    funext j
    obtain ⟨p, q, rfl⟩ : ∃ (p : Fin 256) (q : Fin 32), j = ix2 p q := ⟨j 0, j 1, eq_ix2 j⟩
    have hp := p.isLt
    obtain ⟨r, hr⟩ : ∃ r : Fin 4096, r.val = 256 * t.val + p.val := ⟨⟨256 * t.val + p.val, by omega⟩, rfl⟩
    have h0 : ∀ k, (iblk1 V c 0 t : FVec Ideal S256x8192 .f32) (ix2 p k) = (V c main_arg25 : Mat 4096 8192) (ix2 r k) :=
      fun k => congrArg (V c main_arg25) (Shape.idx_ext₂
        (by show win1_0.index t (0 : Fin 2) * 256 + 1 * p.val = r.val; omega)
        (by show win1_0.index t (1 : Fin 2) * 8192 + 1 * k.val = k.val; omega))
    show _ = G1 V c (((cfg1.win 5).blk t).view.emb (ix2 p q))
    rw [show ((cfg1.win 5).blk t).view.emb (ix2 p q) = ix2 r q from Shape.idx_ext₂
      (by show win1_5.index t (0 : Fin 2) * 256 + 1 * p.val = r.val; omega)
      (by show win1_5.index t (1 : Fin 2) * 32 + 1 * q.val = q.val; omega)]
    exact mm_row (fun k => gcn_row h0 _ _ k) _ q
  · have hi0 : (i 0).val < 4096 := (i 0).isLt
    have hi1 : (i 1).val < 32 := (i 1).isLt
    obtain ⟨t, ht⟩ : ∃ t : Fin cfg1.N, t.val = (i 0).val / 256 :=
      ⟨⟨(i 0).val / 256, by rw [show cfg1.N = 16 from N_1]; omega⟩, rfl⟩
    obtain ⟨⟨-, -, e2, e3⟩, -⟩ := idx1 t
    refine ⟨t, flush1_5 t, ?_⟩
    show i ∈ ((View.whole main_v7).slice (win1_5.rect t)).set
    rw [View.set_slice_whole, Rect.mem_set_unit]
    intro a
    match a with
    | ⟨0, _⟩ =>
      show win1_5.index t (0 : Fin 2) * 256 ≤ (i 0).val ∧ (i 0).val < win1_5.index t (0 : Fin 2) * 256 + 256
      omega
    | ⟨1, _⟩ =>
      show win1_5.index t (1 : Fin 2) * 32 ≤ (i 1).val ∧ (i 1).val < win1_5.index t (1 : Fin 2) * 32 + 32
      omega

end Cert.KernelIdeal.Hand

end
-- ==== Proof.KerVal2.lean ====
import proofs.«180555_g2000006695542353_pallasbulk_342_5_alg».proof.Proof.Gen.KernelIdeal.Frame
import proofs.«180555_g2000006695542353_pallasbulk_342_5_alg».proof.Proof.KerRows
set_option maxRecDepth 16384
noncomputable section
namespace Cert.KernelIdeal.Hand
open Idealize.ShloMosaic Idealize.ShloMosaic.TcCoe Idealize.ShloMosaic.ValueIdx
open Idealize.ShloMosaic.Pipeline (Dat Cfg Window)
open Cert.KernelIdeal Cert.KernelIdeal.Gen Cert.Spec Cert.Rows
variable (V : (c : Dev nD) → (b : Ref sig .tc) → Buf (Elt Ideal) ((c : Thread nD τ).loc b))

theorem pay4_eq (a : Vec Ideal S256x4096 .f32) (s : Vec Ideal S4096x32 .f32) (b : Vec Ideal S1x32 .f32) :
    k2_pay4 a s b = gcn a s b := by
  unfold k2_pay4
  simp only [shapeCast_self]
  exact gcn_block (M := 256) (K := 4096) (N := 32) a s b _ _ rfl

theorem pay5_eq (a : Vec Ideal S256x4096 .f32) (s : Vec Ideal S4096x32 .f32) (b : Vec Ideal S1x32 .f32)
    (w : Vec Ideal S32x32 .f32) : k2_pay5 a s b w = mm (gcn a s b) w := by
  unfold k2_pay5
  simp only [shapeCast_self]
  exact (matmul_eq_mm (M := 256) (K := 32) (N := 32) _ w).trans
    (congrArg (mm · w) (gcn_block (M := 256) (K := 4096) (N := 32) a s b _ _ rfl))

theorem pay6_eq (x : Vec Ideal S256x16 .f32) (w : Vec Ideal S16x32 .f32) : k2_pay6 x w = mm x w := by
  unfold k2_pay6
  simp only [shapeCast_self]
  exact matmul_eq_mm (M := 256) (K := 16) (N := 32) x w

-- The sum the body forms from the loaded blocks is the mixing layer of the blocks.
theorem mix2_eq (x0 x1 : Vec Ideal S256x4096 .f32) (x2 x3 : Vec Ideal S4096x32 .f32) (x4 x5 : Vec Ideal S1x32 .f32)
    (x6 x7 : Vec Ideal S256x16 .f32) (x8 : Vec Ideal S32x32 .f32) (x9 : Vec Ideal S16x32 .f32)
    (x10 : Vec Ideal S32x32 .f32) (x11 : Vec Ideal S16x32 .f32) (x12 : Vec Ideal S1x32 .f32) :
    k2_pay1 (k2_pay4 x1 x3 x5) (k2_pay5 x0 x2 x4 x8) (k2_pay6 x6 x9) x10 x7 x11 x12
      = union (gcn x0 x2 x4) (gcn x1 x3 x5) x6 x7 x8 x10 x9 x11 x12 := by
  unfold k2_pay1
  simp only [shapeCast_self]
  rw [pay4_eq, pay5_eq, pay6_eq]
  funext j
  rw [eq_ix2 j]
  exact congrArg₂ (· + ·) (congrArg₂ (· + ·) (congrArg₂ (· + ·) rfl
    (congrFun (matmul_eq_mm (M := 256) (K := 32) (N := 32) (gcn x1 x3 x5) x10) _))
    (congrFun (matmul_eq_mm (M := 256) (K := 16) (N := 32) x7 x11) _)) (broadcastTo_1b_ab_apply x12 _ _ _)

theorem idx2 : ∀ t : Fin cfg2.N,
    (win2_0.index t (0 : Fin 2) = t.val ∧ win2_0.index t (1 : Fin 2) = 0
      ∧ win2_1.index t (0 : Fin 2) = t.val ∧ win2_1.index t (1 : Fin 2) = 0
      ∧ win2_6.index t (0 : Fin 2) = t.val ∧ win2_6.index t (1 : Fin 2) = 0
      ∧ win2_7.index t (0 : Fin 2) = t.val ∧ win2_7.index t (1 : Fin 2) = 0
      ∧ win2_13.index t (0 : Fin 2) = t.val ∧ win2_13.index t (1 : Fin 2) = 0
      ∧ win2_14.index t (0 : Fin 2) = t.val ∧ win2_14.index t (1 : Fin 2) = 0)
    ∧ ∀ a : Fin 2, win2_2.index t a = 0 ∧ win2_3.index t a = 0 ∧ win2_4.index t a = 0 ∧ win2_5.index t a = 0
      ∧ win2_8.index t a = 0 ∧ win2_9.index t a = 0 ∧ win2_10.index t a = 0 ∧ win2_11.index t a = 0
      ∧ win2_12.index t a = 0 :=
  (by decide +kernel : ∀ t : Fin grid2.N, _)

abbrev U2 (c : Dev nD) : Cert.Spec.Mat 8192 32 :=
  Cert.Spec.union (Cert.Spec.gcn (V c main_arg22) (V c main_v5) (V c main_v47))
    (Cert.Spec.gcn (V c main_arg24) (V c main_v7) (V c main_v48))
    (V c main_arg20) (V c main_arg21) (V c main_v27) (V c main_v31) (V c main_v34) (V c main_v38) (V c main_v49)

-- Row p of the sum at point t is row 256 t + p of the mixing layer of the arrays: four blocks are row blocks, nine are whole.
theorem mixAt2 (c : Dev nD) (t : Fin cfg2.N) (p : Fin 256) (r : Fin 8192) (hr : r.val = 256 * t.val + p.val) (q : Fin 32) :
    k2_pay1 (k2_pay4 (iblk2 V c 1 t) (iblk2 V c 3 t) (iblk2 V c 5 t))
        (k2_pay5 (iblk2 V c 0 t) (iblk2 V c 2 t) (iblk2 V c 4 t) (iblk2 V c 8 t)) (k2_pay6 (iblk2 V c 6 t) (iblk2 V c 9 t))
        (iblk2 V c 10 t) (iblk2 V c 7 t) (iblk2 V c 11 t) (iblk2 V c 12 t) (ix2 p q) = U2 V c (ix2 r q) := by
  obtain ⟨e, z⟩ := idx2 t
  have h2 : (iblk2 V c 2 t : Vec Ideal S4096x32 .f32) = (V c main_v5 : Mat 4096 32) := funext fun j =>
    congrArg (V c main_v5) (funext fun a => Fin.ext (win2_2.rect_emb_val_of_index_zero t a (z a).1 j))
  have h3 : (iblk2 V c 3 t : Vec Ideal S4096x32 .f32) = (V c main_v7 : Mat 4096 32) := funext fun j =>
    congrArg (V c main_v7) (funext fun a => Fin.ext (win2_3.rect_emb_val_of_index_zero t a (z a).2.1 j))
  have h4 : (iblk2 V c 4 t : Vec Ideal S1x32 .f32) = (V c main_v47 : Mat 1 32) := funext fun j =>
    congrArg (V c main_v47) (funext fun a => Fin.ext (win2_4.rect_emb_val_of_index_zero t a (z a).2.2.1 j))
  have h5 : (iblk2 V c 5 t : Vec Ideal S1x32 .f32) = (V c main_v48 : Mat 1 32) := funext fun j =>
    congrArg (V c main_v48) (funext fun a => Fin.ext (win2_5.rect_emb_val_of_index_zero t a (z a).2.2.2.1 j))
  have h8 : (iblk2 V c 8 t : Vec Ideal S32x32 .f32) = (V c main_v27 : Mat 32 32) := funext fun j =>
    congrArg (V c main_v27) (funext fun a => Fin.ext (win2_8.rect_emb_val_of_index_zero t a (z a).2.2.2.2.1 j))
  have h9 : (iblk2 V c 9 t : Vec Ideal S16x32 .f32) = (V c main_v34 : Mat 16 32) := funext fun j =>
    congrArg (V c main_v34) (funext fun a => Fin.ext (win2_9.rect_emb_val_of_index_zero t a (z a).2.2.2.2.2.1 j))
  have h10 : (iblk2 V c 10 t : Vec Ideal S32x32 .f32) = (V c main_v31 : Mat 32 32) := funext fun j =>
    congrArg (V c main_v31) (funext fun a => Fin.ext (win2_10.rect_emb_val_of_index_zero t a (z a).2.2.2.2.2.2.1 j))
  have h11 : (iblk2 V c 11 t : Vec Ideal S16x32 .f32) = (V c main_v38 : Mat 16 32) := funext fun j =>
    congrArg (V c main_v38) (funext fun a => Fin.ext (win2_11.rect_emb_val_of_index_zero t a (z a).2.2.2.2.2.2.2.1 j))
  have h12 : (iblk2 V c 12 t : Vec Ideal S1x32 .f32) = (V c main_v49 : Mat 1 32) := funext fun j =>
    congrArg (V c main_v49) (funext fun a => Fin.ext (win2_12.rect_emb_val_of_index_zero t a (z a).2.2.2.2.2.2.2.2 j))
  rw [mix2_eq, h2, h3, h4, h5, h8, h9, h10, h11, h12]
  have r0 : ∀ k, (iblk2 V c 0 t : Vec Ideal S256x4096 .f32) (ix2 p k) = (V c main_arg22 : Mat 8192 4096) (ix2 r k) := fun k =>
    congrArg (V c main_arg22) (Shape.idx_ext₂ (by show win2_0.index t (0 : Fin 2) * 256 + 1 * p.val = r.val; omega)
      (by show win2_0.index t (1 : Fin 2) * 4096 + 1 * k.val = k.val; omega))
  have r1 : ∀ k, (iblk2 V c 1 t : Vec Ideal S256x4096 .f32) (ix2 p k) = (V c main_arg24 : Mat 8192 4096) (ix2 r k) := fun k =>
    congrArg (V c main_arg24) (Shape.idx_ext₂ (by show win2_1.index t (0 : Fin 2) * 256 + 1 * p.val = r.val; omega)
      (by show win2_1.index t (1 : Fin 2) * 4096 + 1 * k.val = k.val; omega))
  have r6 : ∀ k, (iblk2 V c 6 t : Vec Ideal S256x16 .f32) (ix2 p k) = (V c main_arg20 : Mat 8192 16) (ix2 r k) := fun k =>
    congrArg (V c main_arg20) (Shape.idx_ext₂ (by show win2_6.index t (0 : Fin 2) * 256 + 1 * p.val = r.val; omega)
      (by show win2_6.index t (1 : Fin 2) * 16 + 1 * k.val = k.val; omega))
  have r7 : ∀ k, (iblk2 V c 7 t : Vec Ideal S256x16 .f32) (ix2 p k) = (V c main_arg21 : Mat 8192 16) (ix2 r k) := fun k =>
    congrArg (V c main_arg21) (Shape.idx_ext₂ (by show win2_7.index t (0 : Fin 2) * 256 + 1 * p.val = r.val; omega)
      (by show win2_7.index t (1 : Fin 2) * 16 + 1 * k.val = k.val; omega))
  exact union_row (fun k => gcn_row r0 _ _ k) (fun k => gcn_row r1 _ _ k) r6 r7 _ _ _ _ _ q

theorem flushed2_13 (c : Dev nD) (t : Fin cfg2.N) :
    (dat2 (F := Ideal) V c).flushed 13 t = ((cfg2.win 13).blk t).view.read (Elt Ideal) (Cert.Spec.colsLo (U2 V c)) := by
  obtain ⟨e, -⟩ := idx2 t
  have ht : t.val < 32 := t.isLt
  show (cfg2.win 13).cut (grid2.coords t) ((dat2 V c).after 13 t) = _
  rw [after2_13]
  unfold out2_13 k2_pay2
  rw [View.canon_unit_zero origin]
  simp only [View.ld_unit_zero (S := S256x4096) origin, View.ld_unit_zero (S := S4096x32) origin,
    View.ld_unit_zero (S := S1x32) origin, View.ld_unit_zero (S := S32x32) origin,
    View.ld_unit_zero (S := S256x16) origin, View.ld_unit_zero (S := S16x32) origin]
  funext j
  obtain ⟨p, q, rfl⟩ : ∃ (p : Fin 256) (q : Fin 16), j = ix2 p q := ⟨j 0, j 1, eq_ix2 j⟩
  have hp := p.isLt
  have hq := q.isLt
  obtain ⟨r, hr⟩ : ∃ r : Fin 8192, r.val = 256 * t.val + p.val := ⟨⟨256 * t.val + p.val, by omega⟩, rfl⟩
  show _ = Cert.Spec.colsLo (U2 V c) (((cfg2.win 13).blk t).view.emb (ix2 p q))
  rw [show ((cfg2.win 13).blk t).view.emb (ix2 p q) = (ix2 r q : S8192x16.Idx) from Shape.idx_ext₂
    (by show win2_13.index t (0 : Fin 2) * 256 + 1 * p.val = r.val; omega)
    (by show win2_13.index t (1 : Fin 2) * 16 + 1 * q.val = q.val; omega)]
  exact (slice2_axis1_apply (n1 := 32) 0 _ _ p q ⟨q.val, by omega⟩ (Nat.zero_add _).symm).trans (mixAt2 V c t p r hr _)

theorem flushed2_14 (c : Dev nD) (t : Fin cfg2.N) :
    (dat2 (F := Ideal) V c).flushed 14 t = ((cfg2.win 14).blk t).view.read (Elt Ideal) (Cert.Spec.colsHi (U2 V c)) := by
  obtain ⟨e, -⟩ := idx2 t
  have ht : t.val < 32 := t.isLt
  show (cfg2.win 14).cut (grid2.coords t) ((dat2 V c).after 14 t) = _
  rw [after2_14]
  unfold out2_14 k2_pay3
  rw [View.canon_unit_zero origin]
  simp only [View.ld_unit_zero (S := S256x4096) origin, View.ld_unit_zero (S := S4096x32) origin,
    View.ld_unit_zero (S := S1x32) origin, View.ld_unit_zero (S := S32x32) origin,
    View.ld_unit_zero (S := S256x16) origin, View.ld_unit_zero (S := S16x32) origin]
  funext j
  obtain ⟨p, q, rfl⟩ : ∃ (p : Fin 256) (q : Fin 16), j = ix2 p q := ⟨j 0, j 1, eq_ix2 j⟩
  have hp := p.isLt
  have hq := q.isLt
  obtain ⟨r, hr⟩ : ∃ r : Fin 8192, r.val = 256 * t.val + p.val := ⟨⟨256 * t.val + p.val, by omega⟩, rfl⟩
  show _ = Cert.Spec.colsHi (U2 V c) (((cfg2.win 14).blk t).view.emb (ix2 p q))
  rw [show ((cfg2.win 14).blk t).view.emb (ix2 p q) = (ix2 r q : S8192x16.Idx) from Shape.idx_ext₂
    (by show win2_14.index t (0 : Fin 2) * 256 + 1 * p.val = r.val; omega)
    (by show win2_14.index t (1 : Fin 2) * 16 + 1 * q.val = q.val; omega)]
  exact (slice2_axis1_apply (n1 := 32) 16 _ _ p q ⟨q.val + 16, by omega⟩ (Nat.add_comm _ _)).trans (mixAt2 V c t p r hr _)

-- Row r of either output lies in the block of point r / 256.
theorem cover2 (i : S8192x16.Idx) :
    (∃ t : Fin cfg2.N, (cfg2.win 13).flush t = true ∧ i ∈ ((cfg2.win 13).blk t).view.set)
    ∧ ∃ t : Fin cfg2.N, (cfg2.win 14).flush t = true ∧ i ∈ ((cfg2.win 14).blk t).view.set := by
  have hi0 : (i 0).val < 8192 := (i 0).isLt
  have hi1 : (i 1).val < 16 := (i 1).isLt
  obtain ⟨t, ht⟩ : ∃ t : Fin cfg2.N, t.val = (i 0).val / 256 :=
    ⟨⟨(i 0).val / 256, show (i 0).val / 256 < 32 by omega⟩, rfl⟩
  obtain ⟨e, -⟩ := idx2 t
  refine ⟨⟨t, flush2_13 t, ?_⟩, t, flush2_14 t, ?_⟩
  · show i ∈ ((View.whole main_v50_0).slice (win2_13.rect t)).set
    rw [View.set_slice_whole, Rect.mem_set_unit]
    intro a
    match a with
    | ⟨0, _⟩ =>
      show win2_13.index t (0 : Fin 2) * 256 ≤ (i 0).val ∧ (i 0).val < win2_13.index t (0 : Fin 2) * 256 + 256
      omega
    | ⟨1, _⟩ =>
      show win2_13.index t (1 : Fin 2) * 16 ≤ (i 1).val ∧ (i 1).val < win2_13.index t (1 : Fin 2) * 16 + 16
      omega
  · show i ∈ ((View.whole main_v50_1).slice (win2_14.rect t)).set
    rw [View.set_slice_whole, Rect.mem_set_unit]
    intro a
    match a with
    | ⟨0, _⟩ =>
      show win2_14.index t (0 : Fin 2) * 256 ≤ (i 0).val ∧ (i 0).val < win2_14.index t (0 : Fin 2) * 256 + 256
      omega
    | ⟨1, _⟩ =>
      show win2_14.index t (1 : Fin 2) * 16 ≤ (i 1).val ∧ (i 1).val < win2_14.index t (1 : Fin 2) * 16 + 16
      omega

theorem value2_13 (c : Dev nD) : (Gen.dat2 (F := Ideal) V c).arrAt 13 cfg2.N = Cert.Spec.colsLo (U2 V c) :=
  (dat2 (F := Ideal) V c).arrAt_eq_of_cover 13 _ (fun t _ => flushed2_13 V c t) fun i => (cover2 i).1

theorem value2_14 (c : Dev nD) : (Gen.dat2 (F := Ideal) V c).arrAt 14 cfg2.N = Cert.Spec.colsHi (U2 V c) :=
  (dat2 (F := Ideal) V c).arrAt_eq_of_cover 14 _ (fun t _ => flushed2_14 V c t) fun i => (cover2 i).2

end Cert.KernelIdeal.Hand

end
-- ==== Proof.KerAsm.lean ====
import proofs.«180555_g2000006695542353_pallasbulk_342_5_alg».proof.Proof.KerRun
import proofs.«180555_g2000006695542353_pallasbulk_342_5_alg».proof.Proof.KerHost
import proofs.«180555_g2000006695542353_pallasbulk_342_5_alg».proof.Proof.KerVal0
import proofs.«180555_g2000006695542353_pallasbulk_342_5_alg».proof.Proof.KerVal1
import proofs.«180555_g2000006695542353_pallasbulk_342_5_alg».proof.Proof.KerVal2

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- Argument array r on core c. -/
abbrev ak (c : Dev nD) (r : Ref sig .tc) : Buf (Elt Ideal) ((c : Thread nD τ).loc r) := m ((c : Thread nD τ).loc r)

/-- The source and the target graph's first-layer convolution times the concatenated second-layer weights. -/
def sS (c : Dev nD) : Cert.Spec.Mat 4096 32 :=
  Cert.Spec.mm (Cert.Spec.gcn (ak m c main_arg23) (Cert.Spec.mm (ak m c main_arg20) (ak m c main_arg0)) (KH.rB (ak m c main_arg1))) (KH.cat1 (ak m c main_arg4) (ak m c main_arg6))
def sT (c : Dev nD) : Cert.Spec.Mat 4096 32 :=
  Cert.Spec.mm (Cert.Spec.gcn (ak m c main_arg25) (Cert.Spec.mm (ak m c main_arg21) (ak m c main_arg2)) (KH.rB (ak m c main_arg3))) (KH.cat1 (ak m c main_arg8) (ak m c main_arg10))

/-- The mixing layer's 32 columns, from the argument arrays. -/
def kU (c : Dev nD) : Cert.Spec.Mat 8192 32 :=
  Cert.Spec.union
    (Cert.Spec.gcn (ak m c main_arg22) (sS m c) (KH.rB (KH.cat0 (ak m c main_arg5) (ak m c main_arg7))))
    (Cert.Spec.gcn (ak m c main_arg24) (sT m c) (KH.rB (KH.cat0 (ak m c main_arg9) (ak m c main_arg11))))
    (ak m c main_arg20) (ak m c main_arg21)
    (KH.wcS (ak m c main_arg12) (ak m c main_arg14)) (KH.wcT (ak m c main_arg16) (ak m c main_arg18))
    (KH.wfS (ak m c main_arg12) (ak m c main_arg14)) (KH.wfT (ak m c main_arg16) (ak m c main_arg18))
    (KH.bU (ak m c main_arg13) (ak m c main_arg15) (ak m c main_arg17) (ak m c main_arg19))

theorem sup0 (c : Dev nD) : (dat0 (V1 m ρ) c).arrAt 5 cfg0.N = sS m c := by
  rw [value0 (V1 m ρ) c, V1_arg23 m ρ c, V1_arg20 m ρ c, V1_arg0 m ρ c, V1_v4 m ρ c, V1_v0 m ρ c]
  rfl

theorem sup1 (c : Dev nD) : (dat1 (V3 m ρ) c).arrAt 5 cfg1.N = sT m c := by
  rw [value1 (V3 m ρ) c, V3_arg25 m ρ c, V3_arg21 m ρ c, V3_arg2 m ρ c, V3_v6 m ρ c, V3_v2 m ρ c]
  rfl

/-- Region 2 is entered with the arguments, the two products above and the host-computed operands. -/
theorem U2_eq (c : Dev nD) : U2 (V9 m ρ) c = kU m c := by
  dsimp only [U2]
  rw [V9_arg22 m ρ c, V9_v5 m ρ c, sup0 m ρ c, V9_v47 m ρ c, V9_arg24 m ρ c, V9_v7 m ρ c, sup1 m ρ c, V9_v48 m ρ c,
    V9_arg20 m ρ c, V9_arg21 m ρ c, V9_v27 m ρ c, V9_v31 m ρ c, V9_v34 m ρ c, V9_v38 m ρ c, V9_v49 m ρ c]
  rfl

/-- The two results are the left and the right 16 columns of the mixing layer. -/
theorem res0 (c : Dev nD) : W10 m ρ c (Proc.devRef .tc main_v50_0) = Cert.Spec.colsLo (kU m c) := by
  rw [W10_v50_0 m ρ c, value2_13 (V9 m ρ) c, U2_eq m ρ c]
theorem res1 (c : Dev nD) : W10 m ρ c (Proc.devRef .tc main_v50_1) = Cert.Spec.colsHi (kU m c) := by
  rw [W10_v50_1 m ρ c, value2_14 (V9 m ρ) c, U2_eq m ρ c]

end Cert.KernelIdeal.Hand

end
-- ==== Proof.RefHost.lean ====
import proofs.«180555_g2000006695542353_pallasbulk_342_5_alg».proof.Proof.Gen.ReferenceIdeal.Regions
import proofs.«180555_g2000006695542353_pallasbulk_342_5_alg».proof.Proof.Spec
import Idealize.ShloMosaic.Lib.StableHlo.Run
import Idealize.ShloMosaic.Lib.Pipeline.Value

noncomputable section

namespace Cert.ReferenceIdeal.Hand

open Idealize.ShloMosaic Idealize.ShloMosaic.TcCoe
open Cert.ReferenceIdeal Cert.ReferenceIdeal.Gen

namespace RH

variable {F : FTy → Type} [FloatOps F]

def tLo (p : Vec F S16x32 .f32) : Vec F S16x16 .f32 :=
  transpose S16x16 [1, 0] (extractStridedSlice S16x16 ![0, 0] p slices_S16x32_S16x16_0_0) transposes_S16x16_S16x16_1_0

def tHi (p : Vec F S16x32 .f32) : Vec F S16x16 .f32 :=
  transpose S16x16 [1, 0] (extractStridedSlice S16x16 ![0, 16] p slices_S16x32_S16x16_0_16) transposes_S16x16_S16x16_1_0

def z16 : Vec F S16x16 .f32 :=
  broadcastInDim S16x16 ![] bcast_S_S16x16 (constant (F := F) S_ .f32 0x00000000#32)

def row (a b : Vec F S16x16 .f32) : Vec F S16x32 .f32 :=
  concatenate S16x32 1 [⟨S16x16, a⟩, ⟨S16x16, b⟩] concatenates_S16x16_S16x16_S16x32_d1

def blk (a z b : Vec F S16x16 .f32) : Vec F S32x32 .f32 :=
  concatenate S32x32 0 [⟨S16x32, row a z⟩, ⟨S16x32, row z b⟩] concatenates_S16x32_S16x32_S32x32_d0

def cS : Vec F S_ .f32 := constant (F := F) S_ .f32 0x3F333333#32

def cT : Vec F S_ .f32 := subf (constant (F := F) S_ .f32 0x3F800000#32) (constant (F := F) S_ .f32 0x3F333333#32)

def rB (a : Vec F S32 .f32) : Vec F S1x32 .f32 :=
  fun i => shapeCast S1x32 a shapeCasts_S32_S1x32 i

def cat0 (a b : Vec F S16 .f32) : Vec F S32 .f32 :=
  concatenate S32 0 [⟨S16, a⟩, ⟨S16, b⟩] concatenates_S16_S16_S32_d0

def cat1 (a b : Vec F S32x16 .f32) : Vec F S32x32 .f32 :=
  concatenate S32x32 1 [⟨S32x16, a⟩, ⟨S32x16, b⟩] concatenates_S32x16_S32x16_S32x32_d1

def wcS (p q : Vec F S16x32 .f32) : Vec F S32x32 .f32 :=
  mulf (blk (tLo p) z16 (tLo q)) (broadcastInDim S32x32 ![] bcast_S_S32x32 (cS (F := F)))

def wfS (p q : Vec F S16x32 .f32) : Vec F S16x32 .f32 :=
  mulf (row (tHi p) (tHi q)) (broadcastInDim S16x32 ![] bcast_S_S16x32 (cS (F := F)))

def wcT (p q : Vec F S16x32 .f32) : Vec F S32x32 .f32 :=
  mulf (blk (tLo p) z16 (tLo q)) (broadcastInDim S32x32 ![] bcast_S_S32x32 (cT (F := F)))

def wfT (p q : Vec F S16x32 .f32) : Vec F S16x32 .f32 :=
  mulf (row (tHi p) (tHi q)) (broadcastInDim S16x32 ![] bcast_S_S16x32 (cT (F := F)))

def bU (a b a' b' : Vec F S16 .f32) : Vec F S1x32 .f32 :=
  rB (addf (mulf (broadcastInDim S32 ![] bcast_S_S32 (cS (F := F))) (cat0 a b))
    (mulf (broadcastInDim S32 ![] bcast_S_S32 (cT (F := F))) (cat0 a' b')))

def slLo (x : Vec F S8192x32 .f32) : Vec F S8192x16 .f32 :=
  extractStridedSlice S8192x16 ![0, 0] x slices_S8192x32_S8192x16_0_0

def slHi (x : Vec F S8192x32 .f32) : Vec F S8192x16 .f32 :=
  extractStridedSlice S8192x16 ![0, 16] x slices_S8192x32_S8192x16_0_16

end RH

variable {F : FTy → Type} [FloatOps F] (m : (ℓ : Loc nD τ sig) → Buf (Elt F) ℓ) (outs : Outs (F := F))

namespace RH

-- What each of the first nineteen items writes.
abbrev Ws : List (List (Ref sig .tc)) :=
  [[main_v0], hostOps1_W, [main_v2], [main_v3], hostOps3_W, [main_v5], hostOps4_W, [main_v8], hostOps5_W, [main_v10], hostOps6_W, [main_v13], hostOps7_W, [main_v15], hostOps8_W, hostOps8_1_W, hostOps8_2_W, hostOps8_3_W, hostOps8_4_W]

section Args

variable (c : Dev nD) (r : Ref sig .tc)

-- An argument is written by no item, so every item finds it as launched.
theorem K1 (h : ∀ W ∈ Ws, r ∉ W) : V1 m outs c r = m ((c : Thread nD τ).loc r) :=
  (V1_of m outs c r (h _ (by decide))).trans rfl
theorem K2 (h : ∀ W ∈ Ws, r ∉ W) : V2 m outs c r = m ((c : Thread nD τ).loc r) :=
  (V2_of m outs c r (h _ (by decide))).trans (K1 m outs c r h)
theorem K3 (h : ∀ W ∈ Ws, r ∉ W) : V3 m outs c r = m ((c : Thread nD τ).loc r) :=
  (V3_of m outs c r (h _ (by decide))).trans (K2 m outs c r h)
theorem K4 (h : ∀ W ∈ Ws, r ∉ W) : V4 m outs c r = m ((c : Thread nD τ).loc r) :=
  (V4_of m outs c r (h _ (by decide))).trans (K3 m outs c r h)
theorem K5 (h : ∀ W ∈ Ws, r ∉ W) : V5 m outs c r = m ((c : Thread nD τ).loc r) :=
  (V5_of m outs c r (h _ (by decide))).trans (K4 m outs c r h)
theorem K6 (h : ∀ W ∈ Ws, r ∉ W) : V6 m outs c r = m ((c : Thread nD τ).loc r) :=
  (V6_of m outs c r (h _ (by decide))).trans (K5 m outs c r h)
theorem K9 (h : ∀ W ∈ Ws, r ∉ W) : V9 m outs c r = m ((c : Thread nD τ).loc r) :=
  (V9_of m outs c r (h _ (by decide))).trans <| (V8_of m outs c r (h _ (by decide))).trans <| (V7_of m outs c r (h _ (by decide))).trans (K6 m outs c r h)
theorem K10 (h : ∀ W ∈ Ws, r ∉ W) : V10 m outs c r = m ((c : Thread nD τ).loc r) :=
  (V10_of m outs c r (h _ (by decide))).trans (K9 m outs c r h)
theorem K13 (h : ∀ W ∈ Ws, r ∉ W) : V13 m outs c r = m ((c : Thread nD τ).loc r) :=
  (V13_of m outs c r (h _ (by decide))).trans <| (V12_of m outs c r (h _ (by decide))).trans <| (V11_of m outs c r (h _ (by decide))).trans (K10 m outs c r h)
theorem K14 (h : ∀ W ∈ Ws, r ∉ W) : V14 m outs c r = m ((c : Thread nD τ).loc r) :=
  (V14_of m outs c r (h _ (by decide))).trans (K13 m outs c r h)
theorem K18 (h : ∀ W ∈ Ws, r ∉ W) : V18 m outs c r = m ((c : Thread nD τ).loc r) :=
  (V18_of m outs c r (h _ (by decide))).trans <| (V17_of m outs c r (h _ (by decide))).trans <| (V16_of m outs c r (h _ (by decide))).trans <| (V15_of m outs c r (h _ (by decide))).trans (K14 m outs c r h)
theorem K19 (h : ∀ W ∈ Ws, r ∉ W) : V19 m outs c r = m ((c : Thread nD τ).loc r) :=
  (V19_of m outs c r (h _ (by decide))).trans (K18 m outs c r h)

-- After the first stretch of the mixing layer, what the next two (three) stretches do not write.
theorem K1517 (h : r ∉ hostOps8_2_W ∧ r ∉ hostOps8_1_W) : V17 m outs c r = V15 m outs c r :=
  (V17_of m outs c r h.1).trans (V16_of m outs c r h.2)
theorem K1518 (h : r ∉ hostOps8_3_W ∧ r ∉ hostOps8_2_W ∧ r ∉ hostOps8_1_W) : V18 m outs c r = V15 m outs c r :=
  (V18_of m outs c r h.1).trans (K1517 m outs c r h.2)

end Args

section Stretches

variable (W : Valuation τ sig (Elt F))

theorem h8_1_v33 : StableHlo.after hostOps8_1 W (Proc.devRef .tc main_v33) = blk (W (Proc.devRef .tc main_v17)) (W (Proc.devRef .tc main_v32)) (W (Proc.devRef .tc main_v21)) := by
  after_results
  rfl
theorem h8_2_v35 : StableHlo.after hostOps8_2 W (Proc.devRef .tc main_v35) = mulf (W (Proc.devRef .tc main_v33)) (broadcastInDim S32x32 ![] bcast_S_S32x32 (cS (F := F))) := by
  after_results
  rfl
theorem h8_3_v36 : StableHlo.after hostOps8_3 W (Proc.devRef .tc main_v36) = blk (W (Proc.devRef .tc main_v25)) (W (Proc.devRef .tc main_v32)) (W (Proc.devRef .tc main_v29)) := by
  after_results
  rfl
theorem h8_4_v39 : StableHlo.after hostOps8_4 W (Proc.devRef .tc main_v39) = mulf (W (Proc.devRef .tc main_v36)) (broadcastInDim S32x32 ![] bcast_S_S32x32 (cT (F := F))) := by
  after_results_simp
  rfl
theorem h8_4_v42 : StableHlo.after hostOps8_4 W (Proc.devRef .tc main_v42) = mulf (row (W (Proc.devRef .tc main_v19)) (W (Proc.devRef .tc main_v23))) (broadcastInDim S16x32 ![] bcast_S_S16x32 (cS (F := F))) := by
  after_results_simp
  rfl
theorem h8_4_v46 : StableHlo.after hostOps8_4 W (Proc.devRef .tc main_v46) = mulf (row (W (Proc.devRef .tc main_v27)) (W (Proc.devRef .tc main_v31))) (broadcastInDim S16x32 ![] bcast_S_S16x32 (cT (F := F))) := by
  after_results_simp
  rfl
theorem h8_4_v55 : StableHlo.after hostOps8_4 W (Proc.devRef .tc main_v55) = RH.bU (W (Proc.devRef .tc main_arg13)) (W (Proc.devRef .tc main_arg15)) (W (Proc.devRef .tc main_arg17)) (W (Proc.devRef .tc main_arg19)) := by
  after_results_simp
  rfl

end Stretches

end RH

open RH

theorem V0_arg20 (c : Dev nD) : V0 m c main_arg20 = m ((c : Thread nD τ).loc main_arg20) := rfl
theorem V0_arg0 (c : Dev nD) : V0 m c main_arg0 = m ((c : Thread nD τ).loc main_arg0) := rfl
theorem V2_arg23 (c : Dev nD) : V2 m outs c main_arg23 = m ((c : Thread nD τ).loc main_arg23) := K2 m outs c main_arg23 (by decide)
theorem V3_arg21 (c : Dev nD) : V3 m outs c main_arg21 = m ((c : Thread nD τ).loc main_arg21) := K3 m outs c main_arg21 (by decide)
theorem V3_arg2 (c : Dev nD) : V3 m outs c main_arg2 = m ((c : Thread nD τ).loc main_arg2) := K3 m outs c main_arg2 (by decide)
theorem V5_arg25 (c : Dev nD) : V5 m outs c main_arg25 = m ((c : Thread nD τ).loc main_arg25) := K5 m outs c main_arg25 (by decide)
theorem V9_arg22 (c : Dev nD) : V9 m outs c main_arg22 = m ((c : Thread nD τ).loc main_arg22) := K9 m outs c main_arg22 (by decide)
theorem V13_arg24 (c : Dev nD) : V13 m outs c main_arg24 = m ((c : Thread nD τ).loc main_arg24) := K13 m outs c main_arg24 (by decide)
theorem V19_arg20 (c : Dev nD) : V19 m outs c main_arg20 = m ((c : Thread nD τ).loc main_arg20) := K19 m outs c main_arg20 (by decide)
theorem V19_arg21 (c : Dev nD) : V19 m outs c main_arg21 = m ((c : Thread nD τ).loc main_arg21) := K19 m outs c main_arg21 (by decide)

theorem V2_v0 (c : Dev nD) : V2 m outs c main_v0 = outs 1 main_v0 c :=
  (V2_of m outs c main_v0 (by decide)).trans <| Function.update_self ..
theorem V5_v3 (c : Dev nD) : V5 m outs c main_v3 = outs 4 main_v3 c :=
  (V5_of m outs c main_v3 (by decide)).trans <| Function.update_self ..
theorem V7_v2 (c : Dev nD) : V7 m outs c main_v2 = outs 3 main_v2 c :=
  (V7_of m outs c main_v2 (by decide)).trans <| (V6_of m outs c main_v2 (by decide)).trans <| (V5_of m outs c main_v2 (by decide)).trans <| (V4_of m outs c main_v2 (by decide)).trans <| Function.update_self ..
theorem V9_v8 (c : Dev nD) : V9 m outs c main_v8 = outs 8 main_v8 c :=
  (V9_of m outs c main_v8 (by decide)).trans <| Function.update_self ..
theorem V11_v5 (c : Dev nD) : V11 m outs c main_v5 = outs 6 main_v5 c :=
  (V11_of m outs c main_v5 (by decide)).trans <| (V10_of m outs c main_v5 (by decide)).trans <| (V9_of m outs c main_v5 (by decide)).trans <| (V8_of m outs c main_v5 (by decide)).trans <| (V7_of m outs c main_v5 (by decide)).trans <| Function.update_self ..
theorem V13_v13 (c : Dev nD) : V13 m outs c main_v13 = outs 12 main_v13 c :=
  (V13_of m outs c main_v13 (by decide)).trans <| Function.update_self ..
theorem V19_v10 (c : Dev nD) : V19 m outs c main_v10 = outs 10 main_v10 c :=
  (V19_of m outs c main_v10 (by decide)).trans <| (V18_of m outs c main_v10 (by decide)).trans <| (V17_of m outs c main_v10 (by decide)).trans <| (V16_of m outs c main_v10 (by decide)).trans <| (V15_of m outs c main_v10 (by decide)).trans <| (V14_of m outs c main_v10 (by decide)).trans <| (V13_of m outs c main_v10 (by decide)).trans <| (V12_of m outs c main_v10 (by decide)).trans <| (V11_of m outs c main_v10 (by decide)).trans <| Function.update_self ..
theorem V19_v15 (c : Dev nD) : V19 m outs c main_v15 = outs 14 main_v15 c :=
  (V19_of m outs c main_v15 (by decide)).trans <| (V18_of m outs c main_v15 (by decide)).trans <| (V17_of m outs c main_v15 (by decide)).trans <| (V16_of m outs c main_v15 (by decide)).trans <| (V15_of m outs c main_v15 (by decide)).trans <| Function.update_self ..

theorem V2_v1 (c : Dev nD) : V2 m outs c main_v1 = RH.rB (m ((c : Thread nD τ).loc main_arg1)) := by
  show StableHlo.after _ _ _ = _
  after_results
  rw [K1 m outs c main_arg1 (by decide)]
  rfl

theorem V5_v4 (c : Dev nD) : V5 m outs c main_v4 = RH.rB (m ((c : Thread nD τ).loc main_arg3)) := by
  show StableHlo.after _ _ _ = _
  after_results
  rw [K4 m outs c main_arg3 (by decide)]
  rfl

theorem V7_v6 (c : Dev nD) : V7 m outs c main_v6 = RH.cat1 (m ((c : Thread nD τ).loc main_arg4)) (m ((c : Thread nD τ).loc main_arg6)) := by
  show StableHlo.after _ _ _ = _
  after_results
  rw [K6 m outs c main_arg4 (by decide), K6 m outs c main_arg6 (by decide)]
  rfl

theorem V7_v7 (c : Dev nD) : V7 m outs c main_v7 = RH.cat0 (m ((c : Thread nD τ).loc main_arg5)) (m ((c : Thread nD τ).loc main_arg7)) := by
  show StableHlo.after _ _ _ = _
  after_results
  rw [K6 m outs c main_arg5 (by decide), K6 m outs c main_arg7 (by decide)]
  rfl

theorem V9_v9 (c : Dev nD) : V9 m outs c main_v9 = RH.rB (RH.cat0 (m ((c : Thread nD τ).loc main_arg5)) (m ((c : Thread nD τ).loc main_arg7))) := by
  show StableHlo.after _ _ _ = _
  after_results
  rw [V8_of m outs c main_v7 (by decide), V7_v7]
  rfl

theorem V11_v11 (c : Dev nD) : V11 m outs c main_v11 = RH.cat1 (m ((c : Thread nD τ).loc main_arg8)) (m ((c : Thread nD τ).loc main_arg10)) := by
  show StableHlo.after _ _ _ = _
  after_results
  rw [K10 m outs c main_arg8 (by decide), K10 m outs c main_arg10 (by decide)]
  rfl

theorem V11_v12 (c : Dev nD) : V11 m outs c main_v12 = RH.cat0 (m ((c : Thread nD τ).loc main_arg9)) (m ((c : Thread nD τ).loc main_arg11)) := by
  show StableHlo.after _ _ _ = _
  after_results
  rw [K10 m outs c main_arg9 (by decide), K10 m outs c main_arg11 (by decide)]
  rfl

theorem V13_v14 (c : Dev nD) : V13 m outs c main_v14 = RH.rB (RH.cat0 (m ((c : Thread nD τ).loc main_arg9)) (m ((c : Thread nD τ).loc main_arg11))) := by
  show StableHlo.after _ _ _ = _
  after_results
  rw [V12_of m outs c main_v12 (by decide), V11_v12]
  rfl

theorem V20_v56 (c : Dev nD) : V20 m outs c main_v56 = outs 20 main_v56 c := Function.update_self ..

theorem V21_v57 (c : Dev nD) : V21 m outs c main_v57 = RH.slLo (outs 20 main_v56 c) := by
  show StableHlo.after _ _ _ = _
  after_results
  rw [V20_v56]
  rfl

theorem V21_v58 (c : Dev nD) : V21 m outs c main_v58 = RH.slHi (outs 20 main_v56 c) := by
  show StableHlo.after _ _ _ = _
  after_results
  rw [V20_v56]
  rfl

theorem V15_v17 (c : Dev nD) : V15 m outs c main_v17 = tLo (m ((c : Thread nD τ).loc main_arg12)) := by
  show StableHlo.after _ _ _ = _
  after_results_simp
  rw [K14 m outs c main_arg12 (by decide)]
  rfl
theorem V15_v19 (c : Dev nD) : V15 m outs c main_v19 = tHi (m ((c : Thread nD τ).loc main_arg12)) := by
  show StableHlo.after _ _ _ = _
  after_results_simp
  rw [K14 m outs c main_arg12 (by decide)]
  rfl
theorem V15_v21 (c : Dev nD) : V15 m outs c main_v21 = tLo (m ((c : Thread nD τ).loc main_arg14)) := by
  show StableHlo.after _ _ _ = _
  after_results_simp
  rw [K14 m outs c main_arg14 (by decide)]
  rfl
theorem V15_v23 (c : Dev nD) : V15 m outs c main_v23 = tHi (m ((c : Thread nD τ).loc main_arg14)) := by
  show StableHlo.after _ _ _ = _
  after_results_simp
  rw [K14 m outs c main_arg14 (by decide)]
  rfl
theorem V15_v25 (c : Dev nD) : V15 m outs c main_v25 = tLo (m ((c : Thread nD τ).loc main_arg16)) := by
  show StableHlo.after _ _ _ = _
  after_results_simp
  rw [K14 m outs c main_arg16 (by decide)]
  rfl
theorem V15_v27 (c : Dev nD) : V15 m outs c main_v27 = tHi (m ((c : Thread nD τ).loc main_arg16)) := by
  show StableHlo.after _ _ _ = _
  after_results_simp
  rw [K14 m outs c main_arg16 (by decide)]
  rfl
theorem V15_v29 (c : Dev nD) : V15 m outs c main_v29 = tLo (m ((c : Thread nD τ).loc main_arg18)) := by
  show StableHlo.after _ _ _ = _
  after_results_simp
  rw [K14 m outs c main_arg18 (by decide)]
  rfl
theorem V15_v31 (c : Dev nD) : V15 m outs c main_v31 = tHi (m ((c : Thread nD τ).loc main_arg18)) := by
  show StableHlo.after _ _ _ = _
  after_results_simp
  rw [K14 m outs c main_arg18 (by decide)]
  rfl
theorem V15_v32 (c : Dev nD) : V15 m outs c main_v32 = z16 (F := F) := by
  show StableHlo.after _ _ _ = _
  after_results_simp
  rfl

theorem V19_v35 (c : Dev nD) : V19 m outs c main_v35 = RH.wcS (m ((c : Thread nD τ).loc main_arg12)) (m ((c : Thread nD τ).loc main_arg14)) :=
  (V19_of m outs c main_v35 (by decide)).trans <| (V18_of m outs c main_v35 (by decide)).trans <| (h8_2_v35 (V16 m outs c)).trans <| by
    rw [show V16 m outs c (Proc.devRef .tc main_v33) = _ from h8_1_v33 (V15 m outs c), V15_v17, V15_v32, V15_v21]
    rfl

theorem V19_v39 (c : Dev nD) : V19 m outs c main_v39 = RH.wcT (m ((c : Thread nD τ).loc main_arg16)) (m ((c : Thread nD τ).loc main_arg18)) :=
  (h8_4_v39 (V18 m outs c)).trans <| by
    rw [show V18 m outs c (Proc.devRef .tc main_v36) = _ from h8_3_v36 (V17 m outs c), K1517 m outs c main_v25 (by decide), K1517 m outs c main_v32 (by decide), K1517 m outs c main_v29 (by decide), V15_v25, V15_v32, V15_v29]
    rfl

theorem V19_v42 (c : Dev nD) : V19 m outs c main_v42 = RH.wfS (m ((c : Thread nD τ).loc main_arg12)) (m ((c : Thread nD τ).loc main_arg14)) :=
  (h8_4_v42 (V18 m outs c)).trans <| by
    rw [K1518 m outs c main_v19 (by decide), K1518 m outs c main_v23 (by decide), V15_v19, V15_v23]
    rfl

theorem V19_v46 (c : Dev nD) : V19 m outs c main_v46 = RH.wfT (m ((c : Thread nD τ).loc main_arg16)) (m ((c : Thread nD τ).loc main_arg18)) :=
  (h8_4_v46 (V18 m outs c)).trans <| by
    rw [K1518 m outs c main_v27 (by decide), K1518 m outs c main_v31 (by decide), V15_v27, V15_v31]
    rfl

theorem V19_v55 (c : Dev nD) : V19 m outs c main_v55
    = RH.bU (m ((c : Thread nD τ).loc main_arg13)) (m ((c : Thread nD τ).loc main_arg15)) (m ((c : Thread nD τ).loc main_arg17)) (m ((c : Thread nD τ).loc main_arg19)) :=
  (h8_4_v55 (V18 m outs c)).trans <| by
    rw [K18 m outs c main_arg13 (by decide), K18 m outs c main_arg15 (by decide), K18 m outs c main_arg17 (by decide), K18 m outs c main_arg19 (by decide)]

theorem slLo_eq (x : Vec Ideal S8192x32 .f32) : RH.slLo x = Cert.Spec.colsLo x := by
  funext i
  show extractStridedSlice S8192x16 ![0, 0] x slices_S8192x32_S8192x16_0_0 i
    = x (ValueIdx.ix2 (i 0) ⟨(i 1).val, Nat.lt_of_lt_of_le (i 1).isLt (by decide)⟩)
  refine extractStridedSlice_apply _ x _ i _ fun a => ?_
  match a with
  | ⟨0, _⟩ => exact (Nat.zero_add _).symm
  | ⟨1, _⟩ => exact (Nat.zero_add _).symm

theorem slHi_eq (x : Vec Ideal S8192x32 .f32) : RH.slHi x = Cert.Spec.colsHi x := by
  funext i
  show extractStridedSlice S8192x16 ![0, 16] x slices_S8192x32_S8192x16_0_16 i
    = x (ValueIdx.ix2 (i 0) ⟨(i 1).val + 16, Nat.add_lt_add_right (i 1).isLt 16⟩)
  refine extractStridedSlice_apply _ x _ i _ fun a => ?_
  match a with
  | ⟨0, _⟩ => exact (Nat.zero_add _).symm
  | ⟨1, _⟩ => exact Nat.add_comm _ _

end Cert.ReferenceIdeal.Hand

end
-- ==== Proof.LibRow.lean ====
import proofs.«180555_g2000006695542353_pallasbulk_342_5_alg».proof.Proof.Spec
import proofs.«180555_g2000006695542353_pallasbulk_342_5_alg».proof.Proof.LibDotPlain

noncomputable section

namespace Cert.LibRow

open Idealize.ShloMosaic Idealize.ShloMosaic.ValueIdx Cert.Spec

theorem hz : (![0, 0] : Fin 2 → Nat) = fun _ => 0 := funext (by decide)

-- Two indices of a matrix with the same coordinates are the same index.
theorem idx_ext {M N : Nat} {i i' : (⟨2, ![M, N]⟩ : Shape).Idx} (h0 : (i 0).val = (i' 0).val)
    (h1 : (i 1).val = (i' 1).val) : i = i' :=
  funext fun a => Fin.ext (match a with | ⟨0, _⟩ => h0 | ⟨1, _⟩ => h1)

-- A plain product accumulated from zero is the matrix product, entry by entry.
theorem matmul_eq_mm {B K N : Nat} {φ₁ φ₂ : FTy} (x0 : FVec Ideal ⟨2, ![B, K]⟩ φ₁) (x1 : FVec Ideal ⟨2, ![K, N]⟩ φ₂) :
    matmul (DotDims.plain B K N) none x0 x1 (constant (F := Ideal) ⟨2, ![B, N]⟩ .f32 0x00000000#32) = mm x0 x1 :=
  funext fun j => by rw [eq_ix2 j]; exact LibDot.mm_plain B K N x0 x1 _ _

-- Rows n·B … n·B + B − 1 of A · W are the product of those rows of A by W: each term of the sum over k is the same.
theorem block_mm {R B K N : Nat} (A : Mat R K) (W : Mat K N) (n : Nat)
    (e0 : (⟨2, ![B, K]⟩ : Shape).Idx → (⟨2, ![R, K]⟩ : Shape).Idx)
    (e1 : (⟨2, ![K, N]⟩ : Shape).Idx → (⟨2, ![K, N]⟩ : Shape).Idx)
    (h0 : ∀ y, ((e0 y) 0).val = n * B + (y 0).val ∧ ((e0 y) 1).val = (y 1).val)
    (h1 : ∀ y, ((e1 y) 0).val = (y 0).val ∧ ((e1 y) 1).val = (y 1).val)
    (j : (⟨2, ![B, N]⟩ : Shape).Idx) (i : (⟨2, ![R, N]⟩ : Shape).Idx)
    (hi : (i 0).val = n * B + (j 0).val ∧ (i 1).val = (j 1).val) :
    mm (fun y => A (e0 y)) (fun y => W (e1 y)) j = mm A W i :=
  Finset.sum_congr rfl fun k _ => congrArg₂ (· * ·)
    (congrArg A (idx_ext ((h0 _).1.trans hi.1.symm) (h0 _).2))
    (congrArg W (idx_ext (h1 _).1 ((h1 _).2.trans hi.2.symm)))

end Cert.LibRow

end
-- ==== Proof.RefSup0.lean ====
import proofs.«180555_g2000006695542353_pallasbulk_342_5_alg».proof.Proof.Gen.ReferenceIdeal.Launch
import proofs.«180555_g2000006695542353_pallasbulk_342_5_alg».proof.Proof.Gen.ReferenceIdeal.Skeleton
import proofs.«180555_g2000006695542353_pallasbulk_342_5_alg».proof.Proof.Gen.ReferenceIdeal.Points
import proofs.«180555_g2000006695542353_pallasbulk_342_5_alg».proof.Proof.LibRow
import Idealize.ShloMosaic.Lib.Pipeline.Value
import Idealize.ShloMosaic.Lib.Tactic

noncomputable section

namespace Cert.ReferenceIdeal.Hand

open Idealize.ShloMosaic Idealize.ShloMosaic.TcCoe Idealize.ShloMosaic.ValueIdx
open Idealize.SL Idealize.SL.RA Idealize.SL.BI
open scoped Idealize.SL.BI
open Idealize.SL.BI.BIBase Idealize.SL.ProofMode Idealize.SL.Sem
open Idealize.ShloMosaic.Pipeline (Dat BodyObligation)
open Cert.ReferenceIdeal Cert.ReferenceIdeal.Gen Cert.LibRow

variable {F : FTy → Type} [FloatOps F]

section Region0
variable (V : (c : Dev nD) → (b : Ref sig .tc) → Buf (Elt F) ((c : Thread nD τ).loc b)) (c : Dev nD)

def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_2 (x0 : Vec F S2048x16 .f32) (x1 : Vec F S16x32 .f32) : Vec F S2048x32 .f32 :=
  View.canon [⟨Rect.unit ![0, 0] S2048x32.size inb_S2048x32_S2048x32_0_0,
    k0_pay1 (View.ld x0 (Rect.unit ![0, 0] S2048x16.size inb_S2048x16_S2048x16_0_0)) (View.ld x1 (Rect.unit ![0, 0] S16x32.size inb_S16x32_S16x32_0_0))⟩]

theorem sound_kernel0 (E : Set ℕ) (i : grid0.Coords) (arg1 : Memref sig .tc .vmem S2048x16 .f32) (harg1 : arg1.IsWhole) (arg2 : Memref sig .tc .vmem S16x32 .f32) (harg2 : arg2.IsWhole) (arg3 : Memref sig .tc .vmem S2048x32 .f32) (harg3 : arg3.IsWhole)
    (x0 : Vec F S2048x16 .f32) (x1 : Vec F S16x32 .f32) (K : PUnit → sProp (MT nD τ sig Unit (Elt F) ℕ (UR sig nD τ) ℕ)) :
    iprop(owns c arg1 fullShare x0 ∗ owns c arg2 fullShare x1 ∗ (∃ d, owns c arg3 fullShare d)
        ∗ (iprop(owns c arg1 fullShare x0 ∗ owns c arg2 fullShare x1 ∗ owns c arg3 fullShare (out0_2 x0 x1)) -∗ K ⟨⟩))
      ⊢ wp frame (wpE (defs₀ (F := F)) Variants.none c none) E (cc0__support_kernel i arg1 harg1 arg2 harg2 arg3 harg3) K := by
  simp only [cc0__support_kernel_eq_skeleton]; unfold cc0__support_kernel_skel owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ fun y => ⟨_, List.mem_singleton_self _, View.mem_set_unit_zero hz inb_S2048x32_S2048x32_0_0 y⟩

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (w : Fin cfg0.W) : (dat0 V c).A w = V c (Pipeline.arrRef spec0 w) := rfl

theorem Phi_eq0 (t : Fin (cfg0.N + 1)) : (dat0 V c).Φ t = Pipeline.ΦA spec0 c := rfl

theorem after0_0 (t : Fin cfg0.N) : (dat0 V c).after 0 t = iblk0 V c 0 t := by dsimp only [dat0]
theorem after0_1 (t : Fin cfg0.N) : (dat0 V c).after 1 t = iblk0 V c 1 t := by dsimp only [dat0]
theorem after0_2 (t : Fin cfg0.N) : (dat0 V c).after 2 t = out0_2 (iblk0 V c 0 t) (iblk0 V c 1 t) := by dsimp only [dat0]

theorem before0_0 (t : Fin cfg0.N) (d) : (dat0 V c).before 0 t d = iblk0 V c 0 t :=
  (dat0 V c).before_in_eq_fetched 0 rfl (fun _ => rfl) (fun _ _ _ => rfl) (fun _ => rfl) t d
theorem before0_1 (t : Fin cfg0.N) (d) : (dat0 V c).before 1 t d = iblk0 V c 1 t :=
  (dat0 V c).before_in_eq_fetched 1 rfl (fun _ => rfl) (fun _ _ _ => rfl) (fun _ => rfl) t d

theorem sound_body0 (t : Fin cfg0.N) :
    iprop((dat0 V c).Φ t.castSucc ∗ (dat0 V c).owesAt () t.castSucc
      ∗ (∃ d, owns c (st0_0 t) fullShare ((dat0 V c).before 0 t d))
      ∗ (∃ d, owns c (st0_1 t) fullShare ((dat0 V c).before 1 t d))
      ∗ (∃ d, owns c (st0_2 t) fullShare ((dat0 V c).before 2 t d)))
    ⊢ wp frame (wpE (defs₀ (F := F)) Variants.none c none) Set.univ (bodyAt0 t) fun _ =>
      iprop((dat0 V c).Φ t.succ ∗ (dat0 V c).owesAt () t.succ
        ∗ owns c (st0_0 t) fullShare ((dat0 V c).after 0 t)
        ∗ owns c (st0_1 t) fullShare ((dat0 V c).after 1 t)
        ∗ owns c (st0_2 t) fullShare ((dat0 V c).after 2 t)) := by
  simp only [before0_0, before0_1]
  rw [Phi_eq0, Phi_eq0, show (dat0 V c).owesAt () t.succ = (dat0 V c).owesAt () t.castSucc from rfl, after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  iframe H0 H1
  isplitl [H2]; · iexists _; iexact H2
  iintro ⟨H0, H1, H2⟩
  iframe

theorem body_obligation0 : BodyObligation (dat0 (F := F) V c) (defs₀ (F := F)) Variants.none () Set.univ := fun t => by
  rw [bigSep_W0, bigSep_W0]
  exact sound_body0 V c t

end Region0

section Value0

variable (V : (c : Dev nD) → (b : Ref sig .tc) → Buf (Elt Ideal) ((c : Thread nD τ).loc b)) (c : Dev nD)

theorem pay0_eq (x0 : Vec Ideal S2048x16 .f32) (x1 : Vec Ideal S16x32 .f32) : k0_pay1 (F := Ideal) x0 x1 = Cert.Spec.mm x0 x1 := by
  unfold k0_pay1
  exact matmul_eq_mm (B := 2048) (K := 16) x0 x1

theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

-- Entry (r, q) of rows 2048·t … 2048·t + 2047 of x times W is entry (2048·t + r, q) of x · W.
theorem flushed0_eq (t : Fin cfg0.N) :
    (dat0 V c).flushed 2 t = ((cfg0.win 2).blk t).view.read (Elt Ideal) (Cert.Spec.mm (V c main_arg20) (V c main_arg0)) := by
  show (cfg0.win 2).cut (grid0.coords t) ((dat0 V c).after 2 t) = _
  rw [after0_2]
  unfold out0_2
  rw [View.canon_unit_zero hz, View.ld_unit_zero hz, View.ld_unit_zero hz, pay0_eq]
  obtain ⟨e0, e1, e2, e3, e4, e5⟩ := idx_facts0 t
  funext j
  refine block_mm (V c main_arg20) (V c main_arg0) t.val ((cfg0.win 0).blk t).view.emb ((cfg0.win 1).blk t).view.emb
    (fun y => ⟨?_, ?_⟩) (fun y => ⟨?_, ?_⟩) j (((cfg0.win 2).blk t).view.emb j) ⟨?_, ?_⟩
  · show win0_0.index t (0 : Fin 2) * 2048 + 1 * (y 0).val = _; omega
  · show win0_0.index t (1 : Fin 2) * 16 + 1 * (y 1).val = _; omega
  · show win0_1.index t (0 : Fin 2) * 16 + 1 * (y 0).val = _; omega
  · show win0_1.index t (1 : Fin 2) * 32 + 1 * (y 1).val = _; omega
  · show win0_2.index t (0 : Fin 2) * 2048 + 1 * (j 0).val = _; omega
  · show win0_2.index t (1 : Fin 2) * 32 + 1 * (j 1).val = _; omega

-- Row r lies in row block r / 2048.
theorem cover0 (i : S8192x32.Idx) :
    ∃ t : Fin cfg0.N, (cfg0.win 2).flush t = true ∧ i ∈ ((cfg0.win 2).blk t).view.set := by
  have hi0 : (i 0).val < 8192 := (i 0).isLt
  have hi1 : (i 1).val < 32 := (i 1).isLt
  let t : Fin cfg0.N := ⟨(i 0).val / 2048, by show _ < grid0.N; rw [N_0]; omega⟩
  have ht : t.val = (i 0).val / 2048 := rfl
  obtain ⟨e0, e1, e2, e3, e4, e5⟩ := idx_facts0 t
  refine ⟨t, flush0_2 t, ?_⟩
  show i ∈ ((View.whole main_v0).slice (win0_2.rect t)).set
  rw [View.set_slice_whole, Rect.mem_set_unit]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 32 ≤ (i 1).val ∧ (i 1).val < win0_2.index t (1 : Fin 2) * 32 + 32; omega

theorem value0 :
    (dat0 (F := Ideal) V c).arrAt 2 cfg0.N = Cert.Spec.mm (V c main_arg20) (V c main_arg0) :=
  (dat0 V c).arrAt_eq_of_cover 2 _ (fun t _ => flushed0_eq V c t) cover0

end Value0

end Cert.ReferenceIdeal.Hand

end
-- ==== Proof.LibAggBlocks.lean ====
import proofs.«180555_g2000006695542353_pallasbulk_342_5_alg».proof.Proof.Gen.ReferenceIdeal.Launch
import proofs.«180555_g2000006695542353_pallasbulk_342_5_alg».proof.Proof.Gen.ReferenceIdeal.Skeleton
import proofs.«180555_g2000006695542353_pallasbulk_342_5_alg».proof.Proof.Gen.ReferenceIdeal.Points
import proofs.«180555_g2000006695542353_pallasbulk_342_5_alg».proof.Proof.Spec
import proofs.«180555_g2000006695542353_pallasbulk_342_5_alg».proof.Proof.LibDotPlain
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

noncomputable section

namespace Cert.ReferenceIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

-- A contraction over 8192 positions cut into four column blocks of 2048: column j of block b, the contraction over one block, and the sum of the first k + 1 of four terms.
def col1 (b : Fin 4) (j : Fin 2048) : Fin 8192 := ⟨2048 * b.val + j.val, by have := b.isLt; have := j.isLt; omega⟩

def blockTerm1 (A : Cert.Spec.Mat 4096 8192) (S : Cert.Spec.Mat 8192 32) (r : Fin 4096) (q : Fin 32) (b : Fin 4) : EReal :=
  ∑ j : Fin 2048, A (ix2 r (col1 b j)) * S (ix2 (col1 b j) q)

def partial1 (T : Fin 4 → EReal) (k : ℕ) : EReal := ∑ b : Fin 4, if b.val ≤ k then T b else 0

theorem partial1_zero (T : Fin 4 → EReal) : partial1 T 0 = 0 + T 0 := by
  unfold partial1
  rw [Fin.sum_univ_four]
  simp

theorem partial1_succ (T : Fin 4 → EReal) (k : ℕ) (hk : k + 1 < 4) : partial1 T (k + 1) = partial1 T k + T ⟨k + 1, hk⟩ := by
  unfold partial1
  rw [Fin.sum_univ_four, Fin.sum_univ_four]
  have hk3 : k < 3 := by omega
  interval_cases k <;> simp

theorem partial1_three (T : Fin 4 → EReal) : partial1 T 3 = ∑ b : Fin 4, T b := by
  unfold partial1
  refine Finset.sum_congr rfl fun b _ => if_pos ?_
  have := b.isLt; omega

theorem sum_blocks1 (f : Fin 8192 → EReal) : ∑ b : Fin 4, ∑ j : Fin 2048, f (col1 b j) = ∑ k : Fin 8192, f k := by
  rw [← Fintype.sum_prod_type (f := fun x : Fin 4 × Fin 2048 => f (col1 x.1 x.2))]
  rw [← Equiv.sum_comp (finProdFinEquiv : Fin 4 × Fin 2048 ≃ Fin 8192) f]
  refine Finset.sum_congr rfl fun x _ => congrArg f (Fin.ext ?_)
  show 2048 * x.1.val + x.2.val = x.2.val + 2048 * x.1.val
  omega

theorem sum_blockTerm1 (A : Cert.Spec.Mat 4096 8192) (S : Cert.Spec.Mat 8192 32) (r : Fin 4096) (q : Fin 32) :
    ∑ b : Fin 4, blockTerm1 A S r q b = Cert.Spec.mm A S (ix2 r q) := by
  unfold blockTerm1
  exact sum_blocks1 fun k => A (ix2 r k) * S (ix2 k q)

theorem hz1 : (![0, 0] : Fin 2 → Nat) = fun _ => 0 := funext fun a => by fin_cases a <;> rfl

-- Position n of the grid has contraction block n % 4 and row block n / 4.
def kOf1 (n : ℕ) : Fin 4 := ⟨n % 4, Nat.mod_lt _ (by decide)⟩
def row1 (n : ℕ) (p : Fin 512) : Fin 4096 := ⟨(512 * (n / 4) + p.val) % 4096, Nat.mod_lt _ (by decide)⟩

-- Pieces that cover a memref, written over anything, leave it at their canonical reading.
theorem owns_canon (c : Dev nD) {S : Shape} (m : Memref sig .tc .vmem S .f32) (f) (L : List (View.Piece (Elt F) S .f32)) (h : ∀ y, ∃ p ∈ L, y ∈ p.1.set) :
    (m.view.loc (c : Thread nD τ) ↦[m.view.set]{fullShare} m.view.writes (Elt F) f L : sProp 𝕄) ⊢ owns (c : Thread nD τ) m fullShare (View.canon L) := by
  unfold owns; iintro H; iexists _; isplitr; swap; · iexact H
  ipureintro; exact View.read_writes_eq_canon _ _ _ h

end Cert.ReferenceIdeal.Hand

end
-- ==== Proof.RefAgg1Runs.lean ====
import proofs.«180555_g2000006695542353_pallasbulk_342_5_alg».proof.Proof.LibAggBlocks

noncomputable section

namespace Cert.ReferenceIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

-- The body's two conditions hold exactly at the points of residue 0 and 3 mod 4: the first and the last contraction block.
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem idleAt1_3 : ∀ t : Fin cfg1.N, ¬t.val % 4 = 3 → cfg1.idle 3 (grid1.coords t) = true := by decide +kernel
theorem liveAt1_3 : ∀ t : Fin cfg1.N, t.val % 4 = 3 → cfg1.idle 3 (grid1.coords t) = false := by decide +kernel

abbrev ms1_0 (t : Fin cfg1.N) : Memref sig .tc .vmem S512x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x32 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x32 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x32 .f32 := win1_3.stage (cfg1.slots t 3)
abbrev hs1_3 (t : Fin cfg1.N) : (ms1_3 t).IsWhole := hstage1_3 ((cfg1.slots t 3).cast nbuf1_3)
abbrev scM1_0 : Memref sig .tc .vmem S512x32 .f32 := Memref.whole cc1_scratch0

theorem PhiA1_eq (c : Dev nD) :
    (Pipeline.ΦA spec1 c : sProp 𝕄)
      = iprop(iprop(iprop((∃ d, owns (c : Thread nD τ) scM1_0 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

-- The pieces each of the body's three runs stores into the output block and into the accumulator.
variable (c : Dev nD) (i : grid1.Coords) (arg2 : Memref sig .tc .vmem S512x2048 .f32) (harg2 : arg2.IsWhole) (arg3 : Memref sig .tc .vmem S2048x32 .f32) (harg3 : arg3.IsWhole) (arg4 : Memref sig .tc .vmem S1x32 .f32) (harg4 : arg4.IsWhole) (arg5 : Memref sig .tc .vmem S512x32 .f32) (harg5 : arg5.IsWhole) (arg6 : Memref sig .tc .vmem S512x32 .f32) (harg6 : arg6.IsWhole)

noncomputable def kernelRun1_A (hc0 : cond1_0 i) (hc1 : ¬cond1_1 i)
    (x0 : Vec F S512x2048 .f32) (x1 : Vec F S2048x32 .f32) (x2 : Vec F S1x32 .f32) :
    Σ' (L3 : List (View.Piece (Elt F) S512x32 .f32)), { LS0 : List (View.Piece (Elt F) S512x32 .f32) //
      ∀ (xi3 : Vec F S512x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__aggregate_kernel i arg2 harg2 arg3 harg3 arg4 harg4 arg5 harg5 arg6 harg6) K } := by
  refine ⟨[], ?_, fun xi3 E K => ?run⟩
  case run =>
    simp only [cc1__aggregate_kernel_eq_skeleton]; unfold cc1__aggregate_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    have := harg2.read_unread x0; have := harg3.read_unread x1; have := harg4.read_unread x2; have := harg5.read_unread xi3
    sl_close

noncomputable def kernelRun1_B (hc0 : ¬cond1_0 i) (hc1 : ¬cond1_1 i)
    (x0 : Vec F S512x2048 .f32) (x1 : Vec F S2048x32 .f32) (x2 : Vec F S1x32 .f32) (xs0 : Vec F S512x32 .f32) :
    Σ' (L3 : List (View.Piece (Elt F) S512x32 .f32)), { LS0 : List (View.Piece (Elt F) S512x32 .f32) //
      ∀ (xi3 : Vec F S512x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__aggregate_kernel i arg2 harg2 arg3 harg3 arg4 harg4 arg5 harg5 arg6 harg6) K } := by
  refine ⟨[], ?_, fun xi3 E K => ?run⟩
  case run =>
    simp only [cc1__aggregate_kernel_eq_skeleton]; unfold cc1__aggregate_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    have := harg2.read_unread x0; have := harg3.read_unread x1; have := harg4.read_unread x2; have := harg5.read_unread xi3
    sl_close

noncomputable def kernelRun1_C (hc0 : ¬cond1_0 i) (hc1 : cond1_1 i)
    (x0 : Vec F S512x2048 .f32) (x1 : Vec F S2048x32 .f32) (x2 : Vec F S1x32 .f32) (xs0 : Vec F S512x32 .f32) :
    Σ' (L3 : List (View.Piece (Elt F) S512x32 .f32)), { LS0 : List (View.Piece (Elt F) S512x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__aggregate_kernel i arg2 harg2 arg3 harg3 arg4 harg4 arg5 harg5 arg6 harg6) K } := by
  refine ⟨?_, ?_, fun E K => ?run⟩
  case run =>
    simp only [cc1__aggregate_kernel_eq_skeleton]; unfold cc1__aggregate_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    have := harg2.read_unread x0; have := harg3.read_unread x1; have := harg4.read_unread x2
    sl_close

end Cert.ReferenceIdeal.Hand

end
-- ==== Proof.RefAgg1Frame.lean ====
import proofs.«180555_g2000006695542353_pallasbulk_342_5_alg».proof.Proof.RefAgg1Runs

noncomputable section

namespace Cert.ReferenceIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

variable (c : Dev nD) (i : grid1.Coords) (arg2 : Memref sig .tc .vmem S512x2048 .f32) (harg2 : arg2.IsWhole) (arg3 : Memref sig .tc .vmem S2048x32 .f32) (harg3 : arg3.IsWhole) (arg4 : Memref sig .tc .vmem S1x32 .f32) (harg4 : arg4.IsWhole) (arg5 : Memref sig .tc .vmem S512x32 .f32) (harg5 : arg5.IsWhole) (arg6 : Memref sig .tc .vmem S512x32 .f32) (harg6 : arg6.IsWhole)

-- The pieces a run stores tile their block, so they cover it.
theorem scover1_A_0 (hc0 : cond1_0 i) (hc1 : ¬cond1_1 i) (x0 : Vec F S512x2048 .f32) (x1 : Vec F S2048x32 .f32) (x2 : Vec F S1x32 .f32) : ∀ y : S512x32.Idx, ∃ pc ∈ (kernelRun1_A c i arg2 harg2 arg3 harg3 arg4 harg4 arg5 harg5 arg6 harg6 hc0 hc1 x0 x1 x2).2.1, y ∈ pc.1.set :=
  View.cover_of_tiledL _ S512x32.size (by sl_kernel_rfl)
theorem scover1_B_0 (hc0 : ¬cond1_0 i) (hc1 : ¬cond1_1 i) (x0 : Vec F S512x2048 .f32) (x1 : Vec F S2048x32 .f32) (x2 : Vec F S1x32 .f32) (xs0 : Vec F S512x32 .f32) : ∀ y : S512x32.Idx, ∃ pc ∈ (kernelRun1_B c i arg2 harg2 arg3 harg3 arg4 harg4 arg5 harg5 arg6 harg6 hc0 hc1 x0 x1 x2 xs0).2.1, y ∈ pc.1.set :=
  View.cover_of_tiledL _ S512x32.size (by sl_kernel_rfl)
theorem scover1_C_0 (hc0 : ¬cond1_0 i) (hc1 : cond1_1 i) (x0 : Vec F S512x2048 .f32) (x1 : Vec F S2048x32 .f32) (x2 : Vec F S1x32 .f32) (xs0 : Vec F S512x32 .f32) : ∀ y : S512x32.Idx, ∃ pc ∈ (kernelRun1_C c i arg2 harg2 arg3 harg3 arg4 harg4 arg5 harg5 arg6 harg6 hc0 hc1 x0 x1 x2 xs0).2.1, y ∈ pc.1.set :=
  View.cover_of_tiledL _ S512x32.size (by sl_kernel_rfl)
theorem cover1_C_3 (hc0 : ¬cond1_0 i) (hc1 : cond1_1 i) (x0 : Vec F S512x2048 .f32) (x1 : Vec F S2048x32 .f32) (x2 : Vec F S1x32 .f32) (xs0 : Vec F S512x32 .f32) : ∀ y : S512x32.Idx, ∃ pc ∈ (kernelRun1_C c i arg2 harg2 arg3 harg3 arg4 harg4 arg5 harg5 arg6 harg6 hc0 hc1 x0 x1 x2 xs0).1, y ∈ pc.1.set :=
  View.cover_of_tiledL _ S512x32.size (by sl_kernel_rfl)

-- What the run at point t leaves in the accumulator (and, at the last contraction block, in the output block): its pieces' canonical reading.
abbrev sA1 (t : Fin cfg1.N) (h0 : t.val % 4 = 0) (h1 : ¬t.val % 4 = 3) : Vec F S512x32 .f32 :=
  View.canon (kernelRun1_A c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)).2.1
abbrev sB1 (t : Fin cfg1.N) (h0 : ¬t.val % 4 = 0) (h1 : ¬t.val % 4 = 3) (xs : Vec F S512x32 .f32) : Vec F S512x32 .f32 :=
  View.canon (kernelRun1_B c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) xs).2.1
abbrev sC1 (t : Fin cfg1.N) (h0 : ¬t.val % 4 = 0) (h1 : t.val % 4 = 3) (xs : Vec F S512x32 .f32) : Vec F S512x32 .f32 :=
  View.canon (kernelRun1_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) xs).2.1
abbrev oC1 (t : Fin cfg1.N) (h0 : ¬t.val % 4 = 0) (h1 : t.val % 4 = 3) (xs : Vec F S512x32 .f32) : Vec F S512x32 .f32 :=
  View.canon (kernelRun1_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) xs).1

-- After position n: (output block, accumulator); off the last contraction block the first component is never consulted.
def outsAt1 : (n : ℕ) → n < cfg1.N → Vec F S512x32 .f32 × Vec F S512x32 .f32
  | 0, hn => (sA1 V c ⟨0, hn⟩ rfl (by show ¬0 % 4 = 3; omega), sA1 V c ⟨0, hn⟩ rfl (by show ¬0 % 4 = 3; omega))
  | n + 1, hn =>
    if h0 : (n + 1) % 4 = 0 then (sA1 V c ⟨n + 1, hn⟩ h0 (by show ¬(n + 1) % 4 = 3; omega), sA1 V c ⟨n + 1, hn⟩ h0 (by show ¬(n + 1) % 4 = 3; omega))
    else if h1 : (n + 1) % 4 = 3 then
      (oC1 V c ⟨n + 1, hn⟩ h0 h1 (outsAt1 n (Nat.lt_of_succ_lt hn)).2, sC1 V c ⟨n + 1, hn⟩ h0 h1 (outsAt1 n (Nat.lt_of_succ_lt hn)).2)
    else (sB1 V c ⟨n + 1, hn⟩ h0 h1 (outsAt1 n (Nat.lt_of_succ_lt hn)).2, sB1 V c ⟨n + 1, hn⟩ h0 h1 (outsAt1 n (Nat.lt_of_succ_lt hn)).2)

theorem outsAt1_A (t : Fin cfg1.N) (h0 : t.val % 4 = 0) (h1 : ¬t.val % 4 = 3) :
    outsAt1 V c t.val t.isLt = (sA1 V c t h0 h1, sA1 V c t h0 h1) := by
  obtain ⟨n, hn⟩ := t
  cases n with
  | zero => rfl
  | succ n => exact dif_pos h0

theorem outsAt1_B (t : Fin cfg1.N) (h0 : ¬t.val % 4 = 0) (h1 : ¬t.val % 4 = 3) :
    outsAt1 V c t.val t.isLt = (sB1 V c t h0 h1 (outsAt1 V c (t.val - 1) (Nat.lt_of_le_of_lt (Nat.sub_le _ _) t.isLt)).2, sB1 V c t h0 h1 (outsAt1 V c (t.val - 1) (Nat.lt_of_le_of_lt (Nat.sub_le _ _) t.isLt)).2) := by
  obtain ⟨n, hn⟩ := t
  cases n with
  | zero => exact absurd rfl h0
  | succ n => exact (dif_neg h0).trans (dif_neg h1)

theorem outsAt1_C (t : Fin cfg1.N) (h0 : ¬t.val % 4 = 0) (h1 : t.val % 4 = 3) :
    outsAt1 V c t.val t.isLt = (oC1 V c t h0 h1 (outsAt1 V c (t.val - 1) (Nat.lt_of_le_of_lt (Nat.sub_le _ _) t.isLt)).2, sC1 V c t h0 h1 (outsAt1 V c (t.val - 1) (Nat.lt_of_le_of_lt (Nat.sub_le _ _) t.isLt)).2) := by
  obtain ⟨n, hn⟩ := t
  cases n with
  | zero => exact absurd rfl h0
  | succ n => exact (dif_neg h0).trans (dif_pos h1)

-- The invariant before position n: the accumulator holds what position n - 1 left.
def PhiS1 : (n : ℕ) → n ≤ cfg1.N → sProp 𝕄
  | 0, _ => Pipeline.ΦA spec1 c
  | n + 1, hn => iprop(iprop(owns (c : Thread nD τ) scM1_0 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_pos (n : ℕ) (h : n ≤ cfg1.N) (hz : n ≠ 0) :
    PhiS1 V c n h = iprop(iprop(owns (c : Thread nD τ) scM1_0 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

-- Forgetting the accumulator's contents gives the class invariant back.
theorem PhiS1_weak : ∀ (n : ℕ) (h : n ≤ cfg1.N), PhiS1 V c n h ⊢ iprop(iprop(iprop((∃ d, owns (c : Thread nD τ) scM1_0 fullShare d)) ∗ Pipeline.scopedRestBut (Ix := Unit) (Name := ℕ) (U := UR sig nD τ) (Lvl := ℕ) (Val := Elt F) spec1 c [cc1_scratch0]) ∗ (∃ r, prngReg c r))
  | 0, _ => by rw [PhiS1, PhiA1_eq]
  | n + 1, _ => by
    rw [PhiS1]
    iintro ⟨⟨HS0, HR⟩, Hg⟩
    isplitl [HS0 HR]
    · isplitl [HS0]
      · iexists _; iexact HS0
      iexact HR
    iexact Hg

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (w : Fin cfg1.W) : (dat1 V c).A w = V c (Pipeline.arrRef spec1 w) := rfl

-- Each input's buffer holds its block of the entry contents at every point.
theorem before1_0 (t : Fin cfg1.N) (d) : (dat1 V c).before 0 t d = iblk1 V c 0 t :=
  (dat1 V c).before_in_eq_fetched 0 rfl (fun _ => rfl) (fun _ _ _ => rfl) (fun _ => rfl) t d
theorem before1_1 (t : Fin cfg1.N) (d) : (dat1 V c).before 1 t d = iblk1 V c 1 t :=
  (dat1 V c).before_in_eq_fetched 1 rfl (fun _ => rfl) (fun _ _ _ => rfl) (fun _ => rfl) t d
theorem before1_2 (t : Fin cfg1.N) (d) : (dat1 V c).before 2 t d = iblk1 V c 2 t :=
  (dat1 V c).before_in_eq_fetched 2 rfl (fun _ => rfl) (fun _ _ _ => rfl) (fun _ => rfl) t d

-- The body at any point: its residue mod 4 selects the run; the invariant hands it the accumulator and takes it back at the run's reading.
theorem sound_body1 (t : Fin cfg1.N) :
    iprop((dat1 V c).Φ t.castSucc ∗ (dat1 V c).owesAt () t.castSucc ∗ (∃ d, owns (c : Thread nD τ) (ms1_0 t) fullShare ((dat1 V c).before 0 t d)) ∗ (∃ d, owns (c : Thread nD τ) (ms1_1 t) fullShare ((dat1 V c).before 1 t d)) ∗ (∃ d, owns (c : Thread nD τ) (ms1_2 t) fullShare ((dat1 V c).before 2 t d)) ∗ (∃ d, owns (c : Thread nD τ) (ms1_3 t) fullShare ((dat1 V c).before 3 t d)))
      ⊢ wp frame (wpE (defs₀ (F := F)) Variants.none c none) Set.univ (bodyAt1 t) (fun _ => iprop((dat1 V c).Φ t.succ ∗ (dat1 V c).owesAt () t.succ
        ∗ (dat1 V c).leavesExact 0 t ∗ (dat1 V c).leavesExact 1 t ∗ (dat1 V c).leavesExact 2 t ∗ (dat1 V c).leavesExact 3 t)) := by
  simp only [before1_0, before1_1, before1_2]
  rw [show (dat1 V c).owesAt () t.succ = (dat1 V c).owesAt () t.castSucc from rfl,
    show (dat1 V c).Φ t.succ = iprop(iprop(owns (c : Thread nD τ) scM1_0 fullShare ((outsAt1 V c t.val t.isLt).2) ∗ Pipeline.scopedRestBut (Ix := Unit) (Name := ℕ) (U := UR sig nD τ) (Lvl := ℕ) (Val := Elt F) spec1 c [cc1_scratch0]) ∗ (∃ r, prngReg c r)) from rfl,
    show (dat1 V c).Φ t.castSucc = PhiS1 V c t.val (Nat.le_of_lt t.isLt) from rfl,
    show (dat1 V c).leavesExact 0 t = owns (c : Thread nD τ) (ms1_0 t) fullShare (iblk1 V c 0 t) from rfl,
    show (dat1 V c).leavesExact 1 t = owns (c : Thread nD τ) (ms1_1 t) fullShare (iblk1 V c 1 t) from rfl,
    show (dat1 V c).leavesExact 2 t = owns (c : Thread nD τ) (ms1_2 t) fullShare (iblk1 V c 2 t) from rfl]
  by_cases h1 : t.val % 4 = 3
  · have h0 : ¬t.val % 4 = 0 := by omega
    rw [show (dat1 V c).leavesExact 3 t = owns (c : Thread nD τ) (ms1_3 t) fullShare (outsAt1 V c t.val t.isLt).1 from by
      unfold Dat.leavesExact; rw [liveAt1_3 t h1]; rfl]
    rw [outsAt1_C V c t h0 h1, PhiS1_pos V c _ _ (by omega)]
    iintro ⟨⟨⟨HS0, HR⟩, Hg⟩, Ho, ⟨%d0, H0⟩, ⟨%d1, H1⟩, ⟨%d2, H2⟩, ⟨%d3, H3⟩⟩
    iapply ((kernelRun1_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) _).2.2 Set.univ _)
    iframe H0 H1 H2 HS0
    isplitl [H3]; · iexists _; iexact H3
    iintro ⟨H0, H1, H2, ⟨%e3, H3⟩, ⟨%es0, HS0⟩⟩
    icases (owns_canon c _ _ _ fun _ => scover1_C_0 ..) $$ HS0 with HS0
    icases (owns_canon c _ _ _ fun _ => cover1_C_3 ..) $$ H3 with H3
    iframe
  · rw [Dat.leavesExact_idle (dat1 V c) 3 t (idleAt1_3 t h1) (Bool.eq_false_iff.mpr (mt (flush1_3 t).mp h1))]
    by_cases h0 : t.val % 4 = 0
    · rw [outsAt1_A V c t h0 h1]
      iintro ⟨HΦ, Ho, ⟨%d0, H0⟩, ⟨%d1, H1⟩, ⟨%d2, H2⟩, ⟨%d3, H3⟩⟩
      icases (PhiS1_weak V c _ _) $$ HΦ with ⟨⟨HS0, HR⟩, Hg⟩
      iapply ((kernelRun1_A c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)).2.2 _ Set.univ _)
      iframe H0 H1 H2 H3 HS0
      iintro ⟨H0, H1, H2, H3, ⟨%es0, HS0⟩⟩
      icases (owns_canon c _ _ _ fun _ => scover1_A_0 ..) $$ HS0 with HS0
      iframe HS0 HR Hg Ho H0 H1 H2
      iexists _; iexact H3
    · rw [outsAt1_B V c t h0 h1, PhiS1_pos V c _ _ (by omega)]
      iintro ⟨⟨⟨HS0, HR⟩, Hg⟩, Ho, ⟨%d0, H0⟩, ⟨%d1, H1⟩, ⟨%d2, H2⟩, ⟨%d3, H3⟩⟩
      iapply ((kernelRun1_B c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) _).2.2 _ Set.univ _)
      iframe H0 H1 H2 H3 HS0
      iintro ⟨H0, H1, H2, H3, ⟨%es0, HS0⟩⟩
      icases (owns_canon c _ _ _ fun _ => scover1_B_0 ..) $$ HS0 with HS0
      iframe HS0 HR Hg Ho H0 H1 H2
      iexists _; iexact H3

theorem body_obligation1 : BodyObligation (dat1 (F := F) V c) (defs₀ (F := F)) Variants.none () Set.univ := fun t => by
  rw [bigSep_W1, bigSep_W1]
  exact sound_body1 V c t

theorem hin1 : Pipeline.ΦA spec1 c ⊢ (dat1 V c).Φ 0 := BIBase.Entails.rfl

theorem hout1 : (dat1 V c).Φ (Fin.last cfg1.N) ⊢ Pipeline.ΦA spec1 c := by
  rw [PhiA1_eq]; exact PhiS1_weak V c cfg1.N (Nat.le_refl _)
end Cert.ReferenceIdeal.Hand

end
-- ==== Proof.RefAgg1.lean ====
import proofs.«180555_g2000006695542353_pallasbulk_342_5_alg».proof.Proof.RefAgg1Frame

noncomputable section

namespace Cert.ReferenceIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem pay1_1_apply (p : Fin 512) (q : Fin 32) : (k1_pay1 (F := Ideal)) (ix2 p q) = 0 := by
  unfold k1_pay1
  rw [shapeCast_self]
  exact Ideal.ofBits_zero_f32

theorem pay2_1_apply (acc : Vec Ideal S512x32 .f32) (a : Vec Ideal S512x2048 .f32) (s : Vec Ideal S2048x32 .f32) (p : Fin 512) (q : Fin 32) :
    k1_pay2 acc a s (ix2 p q) = acc (ix2 p q) + ∑ j : Fin 2048, a (ix2 p j) * s (ix2 j q) := by
  unfold k1_pay2
  rw [shapeCast_self, shapeCast_self]
  refine (addf_apply _ _ _).trans ?_
  exact congrArg (acc (ix2 p q) + ·) (Cert.LibDot.mm_plain 512 2048 32 a s p q)

theorem pay3_1_apply (acc : Vec Ideal S512x32 .f32) (b : Vec Ideal S1x32 .f32) (p : Fin 512) (q : Fin 32) :
    k1_pay3 acc b (ix2 p q) = Cert.Spec.lk (acc (ix2 p q) + b (ix2 0 q)) := by
  unfold k1_pay3
  rw [shapeCast_self]
  have hb : broadcastTo S512x32 b broadcasts_S1x32_S512x32 (ix2 p q) = b (ix2 0 q) :=
    broadcastTo_apply b broadcasts_S1x32_S512x32 (ix2 p q) (ix2 0 q) (fun a => by
      match a with
      | ⟨0, _⟩ => rfl
      | ⟨1, _⟩ => rfl)
  show Cert.Spec.lk (acc (ix2 p q) + broadcastTo S512x32 b broadcasts_S1x32_S512x32 (ix2 p q)) = _
  rw [hb]

variable (VI : (c : Dev nD) → (b : Ref sig .tc) → Buf (Elt Ideal) ((c : Thread nD τ).loc b)) (c : Dev nD)

abbrev adj1 : Cert.Spec.Mat 4096 8192 := VI c main_arg23
abbrev sup1 : Cert.Spec.Mat 8192 32 := VI c main_v0
abbrev bias1 : Cert.Spec.Mat 1 32 := VI c main_v1

theorem idx1_facts : ∀ t : Fin cfg1.N,
    win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = 0 ∧ win1_2.index t (1 : Fin 2) = 0
    ∧ win1_3.index t (0 : Fin 2) = t.val / 4 ∧ win1_3.index t (1 : Fin 2) = 0 :=
  (by decide +kernel : ∀ t : Fin grid1.N, _)

theorem blk1_0_apply (t : Fin cfg1.N) (p : Fin 512) (j : Fin 2048) :
    (iblk1 VI c 0 t : Vec Ideal S512x2048 .f32) (ix2 p j) = adj1 VI c (ix2 (row1 t.val p) (col1 (kOf1 t.val) j)) := by
  obtain ⟨e0, e1, -⟩ := idx1_facts t
  have hN : t.val < 32 := lt_of_lt_of_eq t.isLt (show cfg1.N = 32 from N_1)
  unfold iblk1
  rw [View.read_apply]
  show VI c main_arg23 (((cfg1.win 0).blk t).view.emb (ix2 p j)) = VI c main_arg23 (ix2 (row1 t.val p) (col1 (kOf1 t.val) j))
  refine congrArg (VI c main_arg23) (funext fun a => Fin.ext ?_)
  match a with
  | ⟨0, _⟩ => show win1_0.index t (0 : Fin 2) * 512 + 1 * p.val = (512 * (t.val / 4) + p.val) % 4096; have := p.isLt; omega
  | ⟨1, _⟩ => show win1_0.index t (1 : Fin 2) * 2048 + 1 * j.val = 2048 * (t.val % 4) + j.val; omega

theorem blk1_1_apply (t : Fin cfg1.N) (j : Fin 2048) (q : Fin 32) :
    (iblk1 VI c 1 t : Vec Ideal S2048x32 .f32) (ix2 j q) = sup1 VI c (ix2 (col1 (kOf1 t.val) j) q) := by
  obtain ⟨-, -, e0, e1, -⟩ := idx1_facts t
  unfold iblk1
  rw [View.read_apply]
  show VI c main_v0 (((cfg1.win 1).blk t).view.emb (ix2 j q)) = VI c main_v0 (ix2 (col1 (kOf1 t.val) j) q)
  refine congrArg (VI c main_v0) (funext fun a => Fin.ext ?_)
  match a with
  | ⟨0, _⟩ => show win1_1.index t (0 : Fin 2) * 2048 + 1 * j.val = 2048 * (t.val % 4) + j.val; omega
  | ⟨1, _⟩ => show win1_1.index t (1 : Fin 2) * 32 + 1 * q.val = q.val; omega

theorem blk1_2_apply (t : Fin cfg1.N) (q : Fin 32) :
    (iblk1 VI c 2 t : Vec Ideal S1x32 .f32) (ix2 0 q) = bias1 VI c (ix2 0 q) := by
  obtain ⟨-, -, -, -, e0, e1, -⟩ := idx1_facts t
  unfold iblk1
  rw [View.read_apply]
  show VI c main_v1 (((cfg1.win 2).blk t).view.emb (ix2 0 q)) = VI c main_v1 (ix2 0 q)
  refine congrArg (VI c main_v1) (funext fun a => Fin.ext ?_)
  match a with
  | ⟨0, _⟩ => show win1_2.index t (0 : Fin 2) * 1 + 1 * 0 = 0; omega
  | ⟨1, _⟩ => show win1_2.index t (1 : Fin 2) * 32 + 1 * q.val = q.val; omega

section
variable (i : grid1.Coords) (arg2 : Memref sig .tc .vmem S512x2048 .f32) (harg2 : arg2.IsWhole) (arg3 : Memref sig .tc .vmem S2048x32 .f32) (harg3 : arg3.IsWhole) (arg4 : Memref sig .tc .vmem S1x32 .f32) (harg4 : arg4.IsWhole) (arg5 : Memref sig .tc .vmem S512x32 .f32) (harg5 : arg5.IsWhole) (arg6 : Memref sig .tc .vmem S512x32 .f32) (harg6 : arg6.IsWhole)

-- Each run's pieces, read canonically, are the payloads of what the run read.
theorem sout1_A_eq (hc0 : cond1_0 i) (hc1 : ¬cond1_1 i) (x0 : Vec F S512x2048 .f32) (x1 : Vec F S2048x32 .f32) (x2 : Vec F S1x32 .f32) : View.canon (kernelRun1_A c i arg2 harg2 arg3 harg3 arg4 harg4 arg5 harg5 arg6 harg6 hc0 hc1 x0 x1 x2).2.1 = k1_pay2 (k1_pay1 (F := F)) x0 x1 := by
  unfold kernelRun1_A
  dsimp only
  sl_unfold_words
  rw [View.canon_cons_unit_zero (S := S512x32) hz1, View.readCov_unit_zero (S := S512x32) _ hz1]
  simp only [View.readAt_eq_ld, harg2.read_unread, harg3.read_unread, harg4.read_unread, harg6.read_unread, View.ld_unit_zero (S := S512x32) hz1, View.ld_unit_zero (S := S512x2048) hz1, View.ld_unit_zero (S := S2048x32) hz1, View.ld_unit_zero (S := S1x32) hz1]

theorem sout1_B_eq (hc0 : ¬cond1_0 i) (hc1 : ¬cond1_1 i) (x0 : Vec F S512x2048 .f32) (x1 : Vec F S2048x32 .f32) (x2 : Vec F S1x32 .f32) (xs0 : Vec F S512x32 .f32) : View.canon (kernelRun1_B c i arg2 harg2 arg3 harg3 arg4 harg4 arg5 harg5 arg6 harg6 hc0 hc1 x0 x1 x2 xs0).2.1 = k1_pay2 xs0 x0 x1 := by
  unfold kernelRun1_B
  dsimp only
  sl_unfold_words
  rw [View.canon_unit_zero hz1]
  simp only [View.readAt_eq_ld, harg2.read_unread, harg3.read_unread, harg4.read_unread, harg6.read_unread, View.ld_unit_zero (S := S512x32) hz1, View.ld_unit_zero (S := S512x2048) hz1, View.ld_unit_zero (S := S2048x32) hz1, View.ld_unit_zero (S := S1x32) hz1]

theorem sout1_C_eq (hc0 : ¬cond1_0 i) (hc1 : cond1_1 i) (x0 : Vec F S512x2048 .f32) (x1 : Vec F S2048x32 .f32) (x2 : Vec F S1x32 .f32) (xs0 : Vec F S512x32 .f32) : View.canon (kernelRun1_C c i arg2 harg2 arg3 harg3 arg4 harg4 arg5 harg5 arg6 harg6 hc0 hc1 x0 x1 x2 xs0).2.1 = k1_pay2 xs0 x0 x1 := by
  unfold kernelRun1_C
  dsimp only
  sl_unfold_words
  rw [View.canon_unit_zero hz1]
  simp only [View.readAt_eq_ld, harg2.read_unread, harg3.read_unread, harg4.read_unread, harg6.read_unread, View.ld_unit_zero (S := S512x32) hz1, View.ld_unit_zero (S := S512x2048) hz1, View.ld_unit_zero (S := S2048x32) hz1, View.ld_unit_zero (S := S1x32) hz1]

theorem out1_C_eq (hc0 : ¬cond1_0 i) (hc1 : cond1_1 i) (x0 : Vec F S512x2048 .f32) (x1 : Vec F S2048x32 .f32) (x2 : Vec F S1x32 .f32) (xs0 : Vec F S512x32 .f32) : View.canon (kernelRun1_C c i arg2 harg2 arg3 harg3 arg4 harg4 arg5 harg5 arg6 harg6 hc0 hc1 x0 x1 x2 xs0).1 = k1_pay3 (k1_pay2 xs0 x0 x1) x2 := by
  unfold kernelRun1_C
  dsimp only
  sl_unfold_words
  rw [View.canon_unit_zero hz1]
  simp only [View.readCov_unit_zero (S := S512x32) _ hz1, View.readAt_eq_ld, harg2.read_unread, harg3.read_unread, harg4.read_unread, harg6.read_unread, View.ld_unit_zero (S := S512x32) hz1, View.ld_unit_zero (S := S512x2048) hz1, View.ld_unit_zero (S := S2048x32) hz1, View.ld_unit_zero (S := S1x32) hz1]
end

abbrev ablk1 (t : Fin cfg1.N) : Vec Ideal S512x2048 .f32 := iblk1 VI c 0 t
abbrev sblk1 (t : Fin cfg1.N) : Vec Ideal S2048x32 .f32 := iblk1 VI c 1 t

-- The product of point t's two blocks at (p, q) is the contraction over t's column block of the whole matrices.
theorem blockProd1 (t : Fin cfg1.N) (p : Fin 512) (q : Fin 32) :
    ∑ j : Fin 2048, ablk1 VI c t (ix2 p j) * sblk1 VI c t (ix2 j q)
      = blockTerm1 (adj1 VI c) (sup1 VI c) (row1 t.val p) q (kOf1 t.val) :=
  Finset.sum_congr rfl fun j _ => congrArg₂ (· * ·) (blk1_0_apply VI c t p j) (blk1_1_apply VI c t j q)

-- At the first contraction block the accumulator's entry becomes zero plus the point's block contraction;
theorem stepA1 (t : Fin cfg1.N) (h0 : t.val % 4 = 0) (h1 : ¬t.val % 4 = 3) (p : Fin 512) (q : Fin 32) :
    ((outsAt1 VI c t.val t.isLt).2 : Vec Ideal S512x32 .f32) (ix2 p q)
      = 0 + blockTerm1 (adj1 VI c) (sup1 VI c) (row1 t.val p) q (kOf1 t.val) := by
  rw [outsAt1_A VI c t h0 h1]; dsimp only [sA1]
  rw [sout1_A_eq, pay2_1_apply, pay1_1_apply, blockProd1]

-- at any other it becomes what the point before left plus the point's block contraction.
theorem stepBC1 (t : Fin cfg1.N) (h0 : ¬t.val % 4 = 0) (p : Fin 512) (q : Fin 32) :
    ((outsAt1 VI c t.val t.isLt).2 : Vec Ideal S512x32 .f32) (ix2 p q)
      = ((outsAt1 VI c (t.val - 1) (Nat.lt_of_le_of_lt (Nat.sub_le _ _) t.isLt)).2 : Vec Ideal S512x32 .f32) (ix2 p q)
        + blockTerm1 (adj1 VI c) (sup1 VI c) (row1 t.val p) q (kOf1 t.val) := by
  have key : (outsAt1 VI c t.val t.isLt).2 = k1_pay2 (outsAt1 VI c (t.val - 1) (Nat.lt_of_le_of_lt (Nat.sub_le _ _) t.isLt)).2 (ablk1 VI c t) (sblk1 VI c t) := by
    by_cases h1 : t.val % 4 = 3
    · rw [outsAt1_C VI c t h0 h1]; dsimp only [sC1]; rw [sout1_C_eq]
    · rw [outsAt1_B VI c t h0 h1]; dsimp only [sB1]; rw [sout1_B_eq]
  rw [key, pay2_1_apply, blockProd1]

-- After position n the accumulator at (p, q) is the sum of the contractions over the column blocks 0 … n % 4 of row 512 (n / 4) + p against column q.
theorem acc1_eq : ∀ (n : ℕ) (h : n < cfg1.N) (p : Fin 512) (q : Fin 32),
    ((outsAt1 VI c n h).2 : Vec Ideal S512x32 .f32) (ix2 p q)
      = partial1 (blockTerm1 (adj1 VI c) (sup1 VI c) (row1 n p) q) (n % 4)
  | 0, h, p, q => (stepA1 VI c ⟨0, h⟩ rfl (by show ¬0 % 4 = 3; omega) p q).trans (partial1_zero _).symm
  | n + 1, h, p, q => by
    have hN : n + 1 < 32 := lt_of_lt_of_eq h (show cfg1.N = 32 from N_1)
    by_cases h0 : (n + 1) % 4 = 0
    · refine (stepA1 VI c ⟨n + 1, h⟩ h0 (by show ¬(n + 1) % 4 = 3; omega) p q).trans ?_
      show 0 + blockTerm1 (adj1 VI c) (sup1 VI c) (row1 (n + 1) p) q (kOf1 (n + 1)) = partial1 _ ((n + 1) % 4)
      rw [h0, partial1_zero, show kOf1 (n + 1) = 0 from Fin.ext h0]
    · refine (stepBC1 VI c ⟨n + 1, h⟩ h0 p q).trans ?_
      show ((outsAt1 VI c n _).2 : Vec Ideal S512x32 .f32) (ix2 p q) + blockTerm1 (adj1 VI c) (sup1 VI c) (row1 (n + 1) p) q (kOf1 (n + 1)) = partial1 _ ((n + 1) % 4)
      have hm : (n + 1) % 4 = n % 4 + 1 := by omega
      rw [acc1_eq n (Nat.lt_of_succ_lt h) p q, show row1 (n + 1) p = row1 n p from Fin.ext (by show (512 * ((n + 1) / 4) + p.val) % 4096 = (512 * (n / 4) + p.val) % 4096; rw [show (n + 1) / 4 = n / 4 by omega]),
        hm, partial1_succ _ (n % 4) (by omega), show kOf1 (n + 1) = ⟨n % 4 + 1, by omega⟩ from Fin.ext hm]

-- At the last contraction block the output block at (p, q) is the leaky rectifier of the accumulator's entry plus the bias.
theorem outC1_apply (t : Fin cfg1.N) (h0 : ¬t.val % 4 = 0) (h1 : t.val % 4 = 3) (p : Fin 512) (q : Fin 32) :
    ((outsAt1 VI c t.val t.isLt).1 : Vec Ideal S512x32 .f32) (ix2 p q)
      = Cert.Spec.lk (((outsAt1 VI c t.val t.isLt).2 : Vec Ideal S512x32 .f32) (ix2 p q) + bias1 VI c (ix2 0 q)) := by
  rw [outsAt1_C VI c t h0 h1]; dsimp only [oC1, sC1]
  rw [out1_C_eq, sout1_C_eq, pay3_1_apply, blk1_2_apply]

theorem flushed1_eq (t : Fin cfg1.N) (hf : (cfg1.win 3).flush t = true) :
    (dat1 VI c).flushed 3 t = ((cfg1.win 3).blk t).view.read (Elt Ideal) (Cert.Spec.gcn (adj1 VI c) (sup1 VI c) (bias1 VI c)) := by
  have h3 : t.val % 4 = 3 := (flush1_3 t).mp hf
  have hN : t.val < 32 := lt_of_lt_of_eq t.isLt (show cfg1.N = 32 from N_1)
  obtain ⟨-, -, -, -, -, -, e0, e1⟩ := idx1_facts t
  show (cfg1.win 3).cut (grid1.coords t) ((dat1 VI c).after 3 t) = _
  refine funext fun (y : S512x32.Idx) => ?_
  obtain ⟨p, q, rfl⟩ : ∃ (p : Fin 512) (q : Fin 32), y = ix2 p q := ⟨y 0, y 1, eq_ix2 y⟩
  rw [View.read_apply]
  have he : ((cfg1.win 3).blk t).view.emb (ix2 p q) = ix2 (row1 t.val p) q := funext fun a => Fin.ext (by
    match a with
    | ⟨0, _⟩ => show win1_3.index t (0 : Fin 2) * 512 + 1 * p.val = (512 * (t.val / 4) + p.val) % 4096; have := p.isLt; omega
    | ⟨1, _⟩ => show win1_3.index t (1 : Fin 2) * 32 + 1 * q.val = q.val; omega)
  rw [he]
  show ((outsAt1 VI c t.val t.isLt).1 : Vec Ideal S512x32 .f32) (ix2 p q)
    = Cert.Spec.lk (Cert.Spec.mm (adj1 VI c) (sup1 VI c) (ix2 (row1 t.val p) q) + bias1 VI c (ix2 0 q))
  rw [outC1_apply VI c t (by omega) h3 p q, acc1_eq VI c t.val t.isLt p q, h3, partial1_three, sum_blockTerm1]

theorem mem_blk1_3 (t : Fin cfg1.N) (i : S4096x32.Idx) :
    i ∈ ((cfg1.win 3).blk t).view.set ↔ ∀ a : Fin 2, win1_3.index t a * S512x32.size a ≤ (i a).val ∧ (i a).val < win1_3.index t a * S512x32.size a + S512x32.size a := by
  show i ∈ ((View.whole main_v2).slice (win1_3.rect t)).set ↔ _
  rw [View.set_slice_whole, Rect.mem_set_unit]
  exact Iff.rfl

theorem cover1 (i : S4096x32.Idx) : ∃ t : Fin cfg1.N, (cfg1.win 3).flush t = true ∧ i ∈ ((cfg1.win 3).blk t).view.set := by
  have hi0 : (i 0).val < 4096 := (i 0).isLt
  have hi1 : (i 1).val < 32 := (i 1).isLt
  have hlt : (i 0).val / 512 * 4 + 3 < cfg1.N := lt_of_lt_of_eq (by omega : (i 0).val / 512 * 4 + 3 < 32) N_1.symm
  obtain ⟨-, -, -, -, -, -, e0, e1⟩ := idx1_facts ⟨(i 0).val / 512 * 4 + 3, hlt⟩
  have e0' : win1_3.index ⟨(i 0).val / 512 * 4 + 3, hlt⟩ (0 : Fin 2) = ((i 0).val / 512 * 4 + 3) / 4 := e0
  refine ⟨⟨(i 0).val / 512 * 4 + 3, hlt⟩, (flush1_3 _).mpr (by show ((i 0).val / 512 * 4 + 3) % 4 = 3; omega), ?_⟩
  rw [mem_blk1_3]
  intro a
  match a with
  | ⟨0, _⟩ => show win1_3.index ⟨(i 0).val / 512 * 4 + 3, hlt⟩ (0 : Fin 2) * 512 ≤ (i 0).val ∧ (i 0).val < win1_3.index ⟨(i 0).val / 512 * 4 + 3, hlt⟩ (0 : Fin 2) * 512 + 512; omega
  | ⟨1, _⟩ => show win1_3.index ⟨(i 0).val / 512 * 4 + 3, hlt⟩ (1 : Fin 2) * 32 ≤ (i 1).val ∧ (i 1).val < win1_3.index ⟨(i 0).val / 512 * 4 + 3, hlt⟩ (1 : Fin 2) * 32 + 32; omega

theorem value1 (V : (c : Dev nD) → (b : Ref sig .tc) → Buf (Elt Ideal) ((c : Thread nD τ).loc b)) (c : Dev nD) :
    (dat1 (F := Ideal) V c).arrAt 3 cfg1.N = Cert.Spec.gcn (V c main_arg23) (V c main_v0) (V c main_v1) :=
  (dat1 V c).arrAt_eq_of_cover 3 (Cert.Spec.gcn (adj1 V c) (sup1 V c) (bias1 V c)) (fun t hf => flushed1_eq V c t hf) cover1

end Cert.ReferenceIdeal.Hand

end
-- ==== Proof.RefSup2.lean ====
import proofs.«180555_g2000006695542353_pallasbulk_342_5_alg».proof.Proof.Gen.ReferenceIdeal.Launch
import proofs.«180555_g2000006695542353_pallasbulk_342_5_alg».proof.Proof.Gen.ReferenceIdeal.Skeleton
import proofs.«180555_g2000006695542353_pallasbulk_342_5_alg».proof.Proof.Gen.ReferenceIdeal.Points
import proofs.«180555_g2000006695542353_pallasbulk_342_5_alg».proof.Proof.LibRow
import Idealize.ShloMosaic.Lib.Pipeline.Value
import Idealize.ShloMosaic.Lib.Tactic

noncomputable section

namespace Cert.ReferenceIdeal.Hand

open Idealize.ShloMosaic Idealize.ShloMosaic.TcCoe Idealize.ShloMosaic.ValueIdx
open Idealize.SL Idealize.SL.RA Idealize.SL.BI
open scoped Idealize.SL.BI
open Idealize.SL.BI.BIBase Idealize.SL.ProofMode Idealize.SL.Sem
open Idealize.ShloMosaic.Pipeline (Dat BodyObligation)
open Cert.ReferenceIdeal Cert.ReferenceIdeal.Gen Cert.LibRow

variable {F : FTy → Type} [FloatOps F]

section Region2
variable (V : (c : Dev nD) → (b : Ref sig .tc) → Buf (Elt F) ((c : Thread nD τ).loc b)) (c : Dev nD)

def iblk2 (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_2 (x0 : Vec F S2048x16 .f32) (x1 : Vec F S16x32 .f32) : Vec F S2048x32 .f32 :=
  View.canon [⟨Rect.unit ![0, 0] S2048x32.size inb_S2048x32_S2048x32_0_0,
    k2_pay1 (View.ld x0 (Rect.unit ![0, 0] S2048x16.size inb_S2048x16_S2048x16_0_0)) (View.ld x1 (Rect.unit ![0, 0] S16x32.size inb_S16x32_S16x32_0_0))⟩]

theorem sound_kernel2 (E : Set ℕ) (i : grid2.Coords) (arg1 : Memref sig .tc .vmem S2048x16 .f32) (harg1 : arg1.IsWhole) (arg2 : Memref sig .tc .vmem S16x32 .f32) (harg2 : arg2.IsWhole) (arg3 : Memref sig .tc .vmem S2048x32 .f32) (harg3 : arg3.IsWhole)
    (x0 : Vec F S2048x16 .f32) (x1 : Vec F S16x32 .f32) (K : PUnit → sProp (MT nD τ sig Unit (Elt F) ℕ (UR sig nD τ) ℕ)) :
    iprop(owns c arg1 fullShare x0 ∗ owns c arg2 fullShare x1 ∗ (∃ d, owns c arg3 fullShare d)
        ∗ (iprop(owns c arg1 fullShare x0 ∗ owns c arg2 fullShare x1 ∗ owns c arg3 fullShare (out2_2 x0 x1)) -∗ K ⟨⟩))
      ⊢ wp frame (wpE (defs₀ (F := F)) Variants.none c none) E (cc2__support_kernel i arg1 harg1 arg2 harg2 arg3 harg3) K := by
  simp only [cc2__support_kernel_eq_skeleton]; unfold cc2__support_kernel_skel owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ fun y => ⟨_, List.mem_singleton_self _, View.mem_set_unit_zero hz inb_S2048x32_S2048x32_0_0 y⟩

def dat2 : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (w : Fin cfg2.W) : (dat2 V c).A w = V c (Pipeline.arrRef spec2 w) := rfl

theorem Phi_eq2 (t : Fin (cfg2.N + 1)) : (dat2 V c).Φ t = Pipeline.ΦA spec2 c := rfl

theorem after2_0 (t : Fin cfg2.N) : (dat2 V c).after 0 t = iblk2 V c 0 t := by dsimp only [dat2]
theorem after2_1 (t : Fin cfg2.N) : (dat2 V c).after 1 t = iblk2 V c 1 t := by dsimp only [dat2]
theorem after2_2 (t : Fin cfg2.N) : (dat2 V c).after 2 t = out2_2 (iblk2 V c 0 t) (iblk2 V c 1 t) := by dsimp only [dat2]

theorem before2_0 (t : Fin cfg2.N) (d) : (dat2 V c).before 0 t d = iblk2 V c 0 t :=
  (dat2 V c).before_in_eq_fetched 0 rfl (fun _ => rfl) (fun _ _ _ => rfl) (fun _ => rfl) t d
theorem before2_1 (t : Fin cfg2.N) (d) : (dat2 V c).before 1 t d = iblk2 V c 1 t :=
  (dat2 V c).before_in_eq_fetched 1 rfl (fun _ => rfl) (fun _ _ _ => rfl) (fun _ => rfl) t d

theorem sound_body2 (t : Fin cfg2.N) :
    iprop((dat2 V c).Φ t.castSucc ∗ (dat2 V c).owesAt () t.castSucc
      ∗ (∃ d, owns c (st2_0 t) fullShare ((dat2 V c).before 0 t d))
      ∗ (∃ d, owns c (st2_1 t) fullShare ((dat2 V c).before 1 t d))
      ∗ (∃ d, owns c (st2_2 t) fullShare ((dat2 V c).before 2 t d)))
    ⊢ wp frame (wpE (defs₀ (F := F)) Variants.none c none) Set.univ (bodyAt2 t) fun _ =>
      iprop((dat2 V c).Φ t.succ ∗ (dat2 V c).owesAt () t.succ
        ∗ owns c (st2_0 t) fullShare ((dat2 V c).after 0 t)
        ∗ owns c (st2_1 t) fullShare ((dat2 V c).after 1 t)
        ∗ owns c (st2_2 t) fullShare ((dat2 V c).after 2 t)) := by
  simp only [before2_0, before2_1]
  rw [Phi_eq2, Phi_eq2, show (dat2 V c).owesAt () t.succ = (dat2 V c).owesAt () t.castSucc from rfl, after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  iframe H0 H1
  isplitl [H2]; · iexists _; iexact H2
  iintro ⟨H0, H1, H2⟩
  iframe

theorem body_obligation2 : BodyObligation (dat2 (F := F) V c) (defs₀ (F := F)) Variants.none () Set.univ := fun t => by
  rw [bigSep_W2, bigSep_W2]
  exact sound_body2 V c t

end Region2

section Value2

variable (V : (c : Dev nD) → (b : Ref sig .tc) → Buf (Elt Ideal) ((c : Thread nD τ).loc b)) (c : Dev nD)

theorem pay2_eq (x0 : Vec Ideal S2048x16 .f32) (x1 : Vec Ideal S16x32 .f32) : k2_pay1 (F := Ideal) x0 x1 = Cert.Spec.mm x0 x1 := by
  unfold k2_pay1
  exact matmul_eq_mm (B := 2048) (K := 16) x0 x1

theorem idx_facts2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

-- Entry (r, q) of rows 2048·t … 2048·t + 2047 of x times W is entry (2048·t + r, q) of x · W.
theorem flushed2_eq (t : Fin cfg2.N) :
    (dat2 V c).flushed 2 t = ((cfg2.win 2).blk t).view.read (Elt Ideal) (Cert.Spec.mm (V c main_arg21) (V c main_arg2)) := by
  show (cfg2.win 2).cut (grid2.coords t) ((dat2 V c).after 2 t) = _
  rw [after2_2]
  unfold out2_2
  rw [View.canon_unit_zero hz, View.ld_unit_zero hz, View.ld_unit_zero hz, pay2_eq]
  obtain ⟨e0, e1, e2, e3, e4, e5⟩ := idx_facts2 t
  funext j
  refine block_mm (V c main_arg21) (V c main_arg2) t.val ((cfg2.win 0).blk t).view.emb ((cfg2.win 1).blk t).view.emb
    (fun y => ⟨?_, ?_⟩) (fun y => ⟨?_, ?_⟩) j (((cfg2.win 2).blk t).view.emb j) ⟨?_, ?_⟩
  · show win2_0.index t (0 : Fin 2) * 2048 + 1 * (y 0).val = _; omega
  · show win2_0.index t (1 : Fin 2) * 16 + 1 * (y 1).val = _; omega
  · show win2_1.index t (0 : Fin 2) * 16 + 1 * (y 0).val = _; omega
  · show win2_1.index t (1 : Fin 2) * 32 + 1 * (y 1).val = _; omega
  · show win2_2.index t (0 : Fin 2) * 2048 + 1 * (j 0).val = _; omega
  · show win2_2.index t (1 : Fin 2) * 32 + 1 * (j 1).val = _; omega

-- Row r lies in row block r / 2048.
theorem cover2 (i : S8192x32.Idx) :
    ∃ t : Fin cfg2.N, (cfg2.win 2).flush t = true ∧ i ∈ ((cfg2.win 2).blk t).view.set := by
  have hi0 : (i 0).val < 8192 := (i 0).isLt
  have hi1 : (i 1).val < 32 := (i 1).isLt
  let t : Fin cfg2.N := ⟨(i 0).val / 2048, by show _ < grid2.N; rw [N_2]; omega⟩
  have ht : t.val = (i 0).val / 2048 := rfl
  obtain ⟨e0, e1, e2, e3, e4, e5⟩ := idx_facts2 t
  refine ⟨t, flush2_2 t, ?_⟩
  show i ∈ ((View.whole main_v3).slice (win2_2.rect t)).set
  rw [View.set_slice_whole, Rect.mem_set_unit]
  intro a
  match a with
  | ⟨0, _⟩ => show win2_2.index t (0 : Fin 2) * 2048 ≤ (i 0).val ∧ (i 0).val < win2_2.index t (0 : Fin 2) * 2048 + 2048; omega
  | ⟨1, _⟩ => show win2_2.index t (1 : Fin 2) * 32 ≤ (i 1).val ∧ (i 1).val < win2_2.index t (1 : Fin 2) * 32 + 32; omega

theorem value2 :
    (dat2 (F := Ideal) V c).arrAt 2 cfg2.N = Cert.Spec.mm (V c main_arg21) (V c main_arg2) :=
  (dat2 V c).arrAt_eq_of_cover 2 _ (fun t _ => flushed2_eq V c t) cover2

end Value2

end Cert.ReferenceIdeal.Hand

end
-- ==== Proof.RefAgg3Runs.lean ====
import proofs.«180555_g2000006695542353_pallasbulk_342_5_alg».proof.Proof.LibAggBlocks

noncomputable section

namespace Cert.ReferenceIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

-- The body's two conditions hold exactly at the points of residue 0 and 3 mod 4: the first and the last contraction block.
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 4 = 0 :=
  (by decide +kernel : ∀ t : Fin grid3.N, cond3_0 (grid3.coords t) ↔ t.val % 4 = 0)
abbrev cond3_1 (i : grid3.Coords) : Prop := k3_cond2 i = 1#1
theorem hcond3_1 : ∀ t : Fin cfg3.N, cond3_1 (grid3.coords t) ↔ t.val % 4 = 3 :=
  (by decide +kernel : ∀ t : Fin grid3.N, cond3_1 (grid3.coords t) ↔ t.val % 4 = 3)

theorem idleAt3_3 : ∀ t : Fin cfg3.N, ¬t.val % 4 = 3 → cfg3.idle 3 (grid3.coords t) = true := by decide +kernel
theorem liveAt3_3 : ∀ t : Fin cfg3.N, t.val % 4 = 3 → cfg3.idle 3 (grid3.coords t) = false := by decide +kernel

abbrev ms3_0 (t : Fin cfg3.N) : Memref sig .tc .vmem S512x2048 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x32 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x32 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S512x32 .f32 := win3_3.stage (cfg3.slots t 3)
abbrev hs3_3 (t : Fin cfg3.N) : (ms3_3 t).IsWhole := hstage3_3 ((cfg3.slots t 3).cast nbuf3_3)
abbrev scM3_0 : Memref sig .tc .vmem S512x32 .f32 := Memref.whole cc3_scratch0

theorem PhiA3_eq (c : Dev nD) :
    (Pipeline.ΦA spec3 c : sProp 𝕄)
      = iprop(iprop(iprop((∃ d, owns (c : Thread nD τ) scM3_0 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

-- The pieces each of the body's three runs stores into the output block and into the accumulator.
variable (c : Dev nD) (i : grid3.Coords) (arg2 : Memref sig .tc .vmem S512x2048 .f32) (harg2 : arg2.IsWhole) (arg3 : Memref sig .tc .vmem S2048x32 .f32) (harg3 : arg3.IsWhole) (arg4 : Memref sig .tc .vmem S1x32 .f32) (harg4 : arg4.IsWhole) (arg5 : Memref sig .tc .vmem S512x32 .f32) (harg5 : arg5.IsWhole) (arg6 : Memref sig .tc .vmem S512x32 .f32) (harg6 : arg6.IsWhole)

noncomputable def kernelRun3_A (hc0 : cond3_0 i) (hc1 : ¬cond3_1 i)
    (x0 : Vec F S512x2048 .f32) (x1 : Vec F S2048x32 .f32) (x2 : Vec F S1x32 .f32) :
    Σ' (L3 : List (View.Piece (Elt F) S512x32 .f32)), { LS0 : List (View.Piece (Elt F) S512x32 .f32) //
      ∀ (xi3 : Vec F S512x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__aggregate_kernel i arg2 harg2 arg3 harg3 arg4 harg4 arg5 harg5 arg6 harg6) K } := by
  refine ⟨[], ?_, fun xi3 E K => ?run⟩
  case run =>
    simp only [cc3__aggregate_kernel_eq_skeleton]; unfold cc3__aggregate_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    have := harg2.read_unread x0; have := harg3.read_unread x1; have := harg4.read_unread x2; have := harg5.read_unread xi3
    sl_close

noncomputable def kernelRun3_B (hc0 : ¬cond3_0 i) (hc1 : ¬cond3_1 i)
    (x0 : Vec F S512x2048 .f32) (x1 : Vec F S2048x32 .f32) (x2 : Vec F S1x32 .f32) (xs0 : Vec F S512x32 .f32) :
    Σ' (L3 : List (View.Piece (Elt F) S512x32 .f32)), { LS0 : List (View.Piece (Elt F) S512x32 .f32) //
      ∀ (xi3 : Vec F S512x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__aggregate_kernel i arg2 harg2 arg3 harg3 arg4 harg4 arg5 harg5 arg6 harg6) K } := by
  refine ⟨[], ?_, fun xi3 E K => ?run⟩
  case run =>
    simp only [cc3__aggregate_kernel_eq_skeleton]; unfold cc3__aggregate_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    have := harg2.read_unread x0; have := harg3.read_unread x1; have := harg4.read_unread x2; have := harg5.read_unread xi3
    sl_close

noncomputable def kernelRun3_C (hc0 : ¬cond3_0 i) (hc1 : cond3_1 i)
    (x0 : Vec F S512x2048 .f32) (x1 : Vec F S2048x32 .f32) (x2 : Vec F S1x32 .f32) (xs0 : Vec F S512x32 .f32) :
    Σ' (L3 : List (View.Piece (Elt F) S512x32 .f32)), { LS0 : List (View.Piece (Elt F) S512x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc3__aggregate_kernel i arg2 harg2 arg3 harg3 arg4 harg4 arg5 harg5 arg6 harg6) K } := by
  refine ⟨?_, ?_, fun E K => ?run⟩
  case run =>
    simp only [cc3__aggregate_kernel_eq_skeleton]; unfold cc3__aggregate_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    have := harg2.read_unread x0; have := harg3.read_unread x1; have := harg4.read_unread x2
    sl_close

end Cert.ReferenceIdeal.Hand

end
-- ==== Proof.RefAgg3Frame.lean ====
import proofs.«180555_g2000006695542353_pallasbulk_342_5_alg».proof.Proof.RefAgg3Runs

noncomputable section

namespace Cert.ReferenceIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

variable (c : Dev nD) (i : grid3.Coords) (arg2 : Memref sig .tc .vmem S512x2048 .f32) (harg2 : arg2.IsWhole) (arg3 : Memref sig .tc .vmem S2048x32 .f32) (harg3 : arg3.IsWhole) (arg4 : Memref sig .tc .vmem S1x32 .f32) (harg4 : arg4.IsWhole) (arg5 : Memref sig .tc .vmem S512x32 .f32) (harg5 : arg5.IsWhole) (arg6 : Memref sig .tc .vmem S512x32 .f32) (harg6 : arg6.IsWhole)

-- The pieces a run stores tile their block, so they cover it.
theorem scover3_A_0 (hc0 : cond3_0 i) (hc1 : ¬cond3_1 i) (x0 : Vec F S512x2048 .f32) (x1 : Vec F S2048x32 .f32) (x2 : Vec F S1x32 .f32) : ∀ y : S512x32.Idx, ∃ pc ∈ (kernelRun3_A c i arg2 harg2 arg3 harg3 arg4 harg4 arg5 harg5 arg6 harg6 hc0 hc1 x0 x1 x2).2.1, y ∈ pc.1.set :=
  View.cover_of_tiledL _ S512x32.size (by sl_kernel_rfl)
theorem scover3_B_0 (hc0 : ¬cond3_0 i) (hc1 : ¬cond3_1 i) (x0 : Vec F S512x2048 .f32) (x1 : Vec F S2048x32 .f32) (x2 : Vec F S1x32 .f32) (xs0 : Vec F S512x32 .f32) : ∀ y : S512x32.Idx, ∃ pc ∈ (kernelRun3_B c i arg2 harg2 arg3 harg3 arg4 harg4 arg5 harg5 arg6 harg6 hc0 hc1 x0 x1 x2 xs0).2.1, y ∈ pc.1.set :=
  View.cover_of_tiledL _ S512x32.size (by sl_kernel_rfl)
theorem scover3_C_0 (hc0 : ¬cond3_0 i) (hc1 : cond3_1 i) (x0 : Vec F S512x2048 .f32) (x1 : Vec F S2048x32 .f32) (x2 : Vec F S1x32 .f32) (xs0 : Vec F S512x32 .f32) : ∀ y : S512x32.Idx, ∃ pc ∈ (kernelRun3_C c i arg2 harg2 arg3 harg3 arg4 harg4 arg5 harg5 arg6 harg6 hc0 hc1 x0 x1 x2 xs0).2.1, y ∈ pc.1.set :=
  View.cover_of_tiledL _ S512x32.size (by sl_kernel_rfl)
theorem cover3_C_3 (hc0 : ¬cond3_0 i) (hc1 : cond3_1 i) (x0 : Vec F S512x2048 .f32) (x1 : Vec F S2048x32 .f32) (x2 : Vec F S1x32 .f32) (xs0 : Vec F S512x32 .f32) : ∀ y : S512x32.Idx, ∃ pc ∈ (kernelRun3_C c i arg2 harg2 arg3 harg3 arg4 harg4 arg5 harg5 arg6 harg6 hc0 hc1 x0 x1 x2 xs0).1, y ∈ pc.1.set :=
  View.cover_of_tiledL _ S512x32.size (by sl_kernel_rfl)

-- What the run at point t leaves in the accumulator (and, at the last contraction block, in the output block): its pieces' canonical reading.
abbrev sA3 (t : Fin cfg3.N) (h0 : t.val % 4 = 0) (h1 : ¬t.val % 4 = 3) : Vec F S512x32 .f32 :=
  View.canon (kernelRun3_A c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t)).2.1
abbrev sB3 (t : Fin cfg3.N) (h0 : ¬t.val % 4 = 0) (h1 : ¬t.val % 4 = 3) (xs : Vec F S512x32 .f32) : Vec F S512x32 .f32 :=
  View.canon (kernelRun3_B c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) xs).2.1
abbrev sC3 (t : Fin cfg3.N) (h0 : ¬t.val % 4 = 0) (h1 : t.val % 4 = 3) (xs : Vec F S512x32 .f32) : Vec F S512x32 .f32 :=
  View.canon (kernelRun3_C c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) xs).2.1
abbrev oC3 (t : Fin cfg3.N) (h0 : ¬t.val % 4 = 0) (h1 : t.val % 4 = 3) (xs : Vec F S512x32 .f32) : Vec F S512x32 .f32 :=
  View.canon (kernelRun3_C c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) xs).1

-- After position n: (output block, accumulator); off the last contraction block the first component is never consulted.
def outsAt3 : (n : ℕ) → n < cfg3.N → Vec F S512x32 .f32 × Vec F S512x32 .f32
  | 0, hn => (sA3 V c ⟨0, hn⟩ rfl (by show ¬0 % 4 = 3; omega), sA3 V c ⟨0, hn⟩ rfl (by show ¬0 % 4 = 3; omega))
  | n + 1, hn =>
    if h0 : (n + 1) % 4 = 0 then (sA3 V c ⟨n + 1, hn⟩ h0 (by show ¬(n + 1) % 4 = 3; omega), sA3 V c ⟨n + 1, hn⟩ h0 (by show ¬(n + 1) % 4 = 3; omega))
    else if h1 : (n + 1) % 4 = 3 then
      (oC3 V c ⟨n + 1, hn⟩ h0 h1 (outsAt3 n (Nat.lt_of_succ_lt hn)).2, sC3 V c ⟨n + 1, hn⟩ h0 h1 (outsAt3 n (Nat.lt_of_succ_lt hn)).2)
    else (sB3 V c ⟨n + 1, hn⟩ h0 h1 (outsAt3 n (Nat.lt_of_succ_lt hn)).2, sB3 V c ⟨n + 1, hn⟩ h0 h1 (outsAt3 n (Nat.lt_of_succ_lt hn)).2)

theorem outsAt3_A (t : Fin cfg3.N) (h0 : t.val % 4 = 0) (h1 : ¬t.val % 4 = 3) :
    outsAt3 V c t.val t.isLt = (sA3 V c t h0 h1, sA3 V c t h0 h1) := by
  obtain ⟨n, hn⟩ := t
  cases n with
  | zero => rfl
  | succ n => exact dif_pos h0

theorem outsAt3_B (t : Fin cfg3.N) (h0 : ¬t.val % 4 = 0) (h1 : ¬t.val % 4 = 3) :
    outsAt3 V c t.val t.isLt = (sB3 V c t h0 h1 (outsAt3 V c (t.val - 1) (Nat.lt_of_le_of_lt (Nat.sub_le _ _) t.isLt)).2, sB3 V c t h0 h1 (outsAt3 V c (t.val - 1) (Nat.lt_of_le_of_lt (Nat.sub_le _ _) t.isLt)).2) := by
  obtain ⟨n, hn⟩ := t
  cases n with
  | zero => exact absurd rfl h0
  | succ n => exact (dif_neg h0).trans (dif_neg h1)

theorem outsAt3_C (t : Fin cfg3.N) (h0 : ¬t.val % 4 = 0) (h1 : t.val % 4 = 3) :
    outsAt3 V c t.val t.isLt = (oC3 V c t h0 h1 (outsAt3 V c (t.val - 1) (Nat.lt_of_le_of_lt (Nat.sub_le _ _) t.isLt)).2, sC3 V c t h0 h1 (outsAt3 V c (t.val - 1) (Nat.lt_of_le_of_lt (Nat.sub_le _ _) t.isLt)).2) := by
  obtain ⟨n, hn⟩ := t
  cases n with
  | zero => exact absurd rfl h0
  | succ n => exact (dif_neg h0).trans (dif_pos h1)

-- The invariant before position n: the accumulator holds what position n - 1 left.
def PhiS3 : (n : ℕ) → n ≤ cfg3.N → sProp 𝕄
  | 0, _ => Pipeline.ΦA spec3 c
  | n + 1, hn => iprop(iprop(owns (c : Thread nD τ) scM3_0 fullShare ((outsAt3 V c n hn).2) ∗ Pipeline.scopedRestBut (Ix := Unit) (Name := ℕ) (U := UR sig nD τ) (Lvl := ℕ) (Val := Elt F) spec3 c [cc3_scratch0]) ∗ (∃ r, prngReg c r))

theorem PhiS3_pos (n : ℕ) (h : n ≤ cfg3.N) (hz : n ≠ 0) :
    PhiS3 V c n h = iprop(iprop(owns (c : Thread nD τ) scM3_0 fullShare ((outsAt3 V c (n - 1) (by omega)).2) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

-- Forgetting the accumulator's contents gives the class invariant back.
theorem PhiS3_weak : ∀ (n : ℕ) (h : n ≤ cfg3.N), PhiS3 V c n h ⊢ iprop(iprop(iprop((∃ d, owns (c : Thread nD τ) scM3_0 fullShare d)) ∗ Pipeline.scopedRestBut (Ix := Unit) (Name := ℕ) (U := UR sig nD τ) (Lvl := ℕ) (Val := Elt F) spec3 c [cc3_scratch0]) ∗ (∃ r, prngReg c r))
  | 0, _ => by rw [PhiS3, PhiA3_eq]
  | n + 1, _ => by
    rw [PhiS3]
    iintro ⟨⟨HS0, HR⟩, Hg⟩
    isplitl [HS0 HR]
    · isplitl [HS0]
      · iexists _; iexact HS0
      iexact HR
    iexact Hg

def dat3 : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (w : Fin cfg3.W) : (dat3 V c).A w = V c (Pipeline.arrRef spec3 w) := rfl

-- Each input's buffer holds its block of the entry contents at every point.
theorem before3_0 (t : Fin cfg3.N) (d) : (dat3 V c).before 0 t d = iblk3 V c 0 t :=
  (dat3 V c).before_in_eq_fetched 0 rfl (fun _ => rfl) (fun _ _ _ => rfl) (fun _ => rfl) t d
theorem before3_1 (t : Fin cfg3.N) (d) : (dat3 V c).before 1 t d = iblk3 V c 1 t :=
  (dat3 V c).before_in_eq_fetched 1 rfl (fun _ => rfl) (fun _ _ _ => rfl) (fun _ => rfl) t d
theorem before3_2 (t : Fin cfg3.N) (d) : (dat3 V c).before 2 t d = iblk3 V c 2 t :=
  (dat3 V c).before_in_eq_fetched 2 rfl (fun _ => rfl) (fun _ _ _ => rfl) (fun _ => rfl) t d

-- The body at any point: its residue mod 4 selects the run; the invariant hands it the accumulator and takes it back at the run's reading.
theorem sound_body3 (t : Fin cfg3.N) :
    iprop((dat3 V c).Φ t.castSucc ∗ (dat3 V c).owesAt () t.castSucc ∗ (∃ d, owns (c : Thread nD τ) (ms3_0 t) fullShare ((dat3 V c).before 0 t d)) ∗ (∃ d, owns (c : Thread nD τ) (ms3_1 t) fullShare ((dat3 V c).before 1 t d)) ∗ (∃ d, owns (c : Thread nD τ) (ms3_2 t) fullShare ((dat3 V c).before 2 t d)) ∗ (∃ d, owns (c : Thread nD τ) (ms3_3 t) fullShare ((dat3 V c).before 3 t d)))
      ⊢ wp frame (wpE (defs₀ (F := F)) Variants.none c none) Set.univ (bodyAt3 t) (fun _ => iprop((dat3 V c).Φ t.succ ∗ (dat3 V c).owesAt () t.succ
        ∗ (dat3 V c).leavesExact 0 t ∗ (dat3 V c).leavesExact 1 t ∗ (dat3 V c).leavesExact 2 t ∗ (dat3 V c).leavesExact 3 t)) := by
  simp only [before3_0, before3_1, before3_2]
  rw [show (dat3 V c).owesAt () t.succ = (dat3 V c).owesAt () t.castSucc from rfl,
    show (dat3 V c).Φ t.succ = iprop(iprop(owns (c : Thread nD τ) scM3_0 fullShare ((outsAt3 V c t.val t.isLt).2) ∗ Pipeline.scopedRestBut (Ix := Unit) (Name := ℕ) (U := UR sig nD τ) (Lvl := ℕ) (Val := Elt F) spec3 c [cc3_scratch0]) ∗ (∃ r, prngReg c r)) from rfl,
    show (dat3 V c).Φ t.castSucc = PhiS3 V c t.val (Nat.le_of_lt t.isLt) from rfl,
    show (dat3 V c).leavesExact 0 t = owns (c : Thread nD τ) (ms3_0 t) fullShare (iblk3 V c 0 t) from rfl,
    show (dat3 V c).leavesExact 1 t = owns (c : Thread nD τ) (ms3_1 t) fullShare (iblk3 V c 1 t) from rfl,
    show (dat3 V c).leavesExact 2 t = owns (c : Thread nD τ) (ms3_2 t) fullShare (iblk3 V c 2 t) from rfl]
  by_cases h1 : t.val % 4 = 3
  · have h0 : ¬t.val % 4 = 0 := by omega
    rw [show (dat3 V c).leavesExact 3 t = owns (c : Thread nD τ) (ms3_3 t) fullShare (outsAt3 V c t.val t.isLt).1 from by
      unfold Dat.leavesExact; rw [liveAt3_3 t h1]; rfl]
    rw [outsAt3_C V c t h0 h1, PhiS3_pos V c _ _ (by omega)]
    iintro ⟨⟨⟨HS0, HR⟩, Hg⟩, Ho, ⟨%d0, H0⟩, ⟨%d1, H1⟩, ⟨%d2, H2⟩, ⟨%d3, H3⟩⟩
    iapply ((kernelRun3_C c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) _).2.2 Set.univ _)
    iframe H0 H1 H2 HS0
    isplitl [H3]; · iexists _; iexact H3
    iintro ⟨H0, H1, H2, ⟨%e3, H3⟩, ⟨%es0, HS0⟩⟩
    icases (owns_canon c _ _ _ fun _ => scover3_C_0 ..) $$ HS0 with HS0
    icases (owns_canon c _ _ _ fun _ => cover3_C_3 ..) $$ H3 with H3
    iframe
  · rw [Dat.leavesExact_idle (dat3 V c) 3 t (idleAt3_3 t h1) (Bool.eq_false_iff.mpr (mt (flush3_3 t).mp h1))]
    by_cases h0 : t.val % 4 = 0
    · rw [outsAt3_A V c t h0 h1]
      iintro ⟨HΦ, Ho, ⟨%d0, H0⟩, ⟨%d1, H1⟩, ⟨%d2, H2⟩, ⟨%d3, H3⟩⟩
      icases (PhiS3_weak V c _ _) $$ HΦ with ⟨⟨HS0, HR⟩, Hg⟩
      iapply ((kernelRun3_A c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t)).2.2 _ Set.univ _)
      iframe H0 H1 H2 H3 HS0
      iintro ⟨H0, H1, H2, H3, ⟨%es0, HS0⟩⟩
      icases (owns_canon c _ _ _ fun _ => scover3_A_0 ..) $$ HS0 with HS0
      iframe HS0 HR Hg Ho H0 H1 H2
      iexists _; iexact H3
    · rw [outsAt3_B V c t h0 h1, PhiS3_pos V c _ _ (by omega)]
      iintro ⟨⟨⟨HS0, HR⟩, Hg⟩, Ho, ⟨%d0, H0⟩, ⟨%d1, H1⟩, ⟨%d2, H2⟩, ⟨%d3, H3⟩⟩
      iapply ((kernelRun3_B c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) _).2.2 _ Set.univ _)
      iframe H0 H1 H2 H3 HS0
      iintro ⟨H0, H1, H2, H3, ⟨%es0, HS0⟩⟩
      icases (owns_canon c _ _ _ fun _ => scover3_B_0 ..) $$ HS0 with HS0
      iframe HS0 HR Hg Ho H0 H1 H2
      iexists _; iexact H3

theorem body_obligation3 : BodyObligation (dat3 (F := F) V c) (defs₀ (F := F)) Variants.none () Set.univ := fun t => by
  rw [bigSep_W3, bigSep_W3]
  exact sound_body3 V c t

theorem hin3 : Pipeline.ΦA spec3 c ⊢ (dat3 V c).Φ 0 := BIBase.Entails.rfl

theorem hout3 : (dat3 V c).Φ (Fin.last cfg3.N) ⊢ Pipeline.ΦA spec3 c := by
  rw [PhiA3_eq]; exact PhiS3_weak V c cfg3.N (Nat.le_refl _)
end Cert.ReferenceIdeal.Hand

end
-- ==== Proof.RefAgg3.lean ====
import proofs.«180555_g2000006695542353_pallasbulk_342_5_alg».proof.Proof.RefAgg3Frame

noncomputable section

namespace Cert.ReferenceIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem pay1_3_apply (p : Fin 512) (q : Fin 32) : (k3_pay1 (F := Ideal)) (ix2 p q) = 0 := by
  unfold k3_pay1
  rw [shapeCast_self]
  exact Ideal.ofBits_zero_f32

theorem pay2_3_apply (acc : Vec Ideal S512x32 .f32) (a : Vec Ideal S512x2048 .f32) (s : Vec Ideal S2048x32 .f32) (p : Fin 512) (q : Fin 32) :
    k3_pay2 acc a s (ix2 p q) = acc (ix2 p q) + ∑ j : Fin 2048, a (ix2 p j) * s (ix2 j q) := by
  unfold k3_pay2
  rw [shapeCast_self, shapeCast_self]
  refine (addf_apply _ _ _).trans ?_
  exact congrArg (acc (ix2 p q) + ·) (Cert.LibDot.mm_plain 512 2048 32 a s p q)

theorem pay3_3_apply (acc : Vec Ideal S512x32 .f32) (b : Vec Ideal S1x32 .f32) (p : Fin 512) (q : Fin 32) :
    k3_pay3 acc b (ix2 p q) = Cert.Spec.lk (acc (ix2 p q) + b (ix2 0 q)) := by
  unfold k3_pay3
  rw [shapeCast_self]
  have hb : broadcastTo S512x32 b broadcasts_S1x32_S512x32 (ix2 p q) = b (ix2 0 q) :=
    broadcastTo_apply b broadcasts_S1x32_S512x32 (ix2 p q) (ix2 0 q) (fun a => by
      match a with
      | ⟨0, _⟩ => rfl
      | ⟨1, _⟩ => rfl)
  show Cert.Spec.lk (acc (ix2 p q) + broadcastTo S512x32 b broadcasts_S1x32_S512x32 (ix2 p q)) = _
  rw [hb]

variable (VI : (c : Dev nD) → (b : Ref sig .tc) → Buf (Elt Ideal) ((c : Thread nD τ).loc b)) (c : Dev nD)

abbrev adj3 : Cert.Spec.Mat 4096 8192 := VI c main_arg25
abbrev sup3 : Cert.Spec.Mat 8192 32 := VI c main_v3
abbrev bias3 : Cert.Spec.Mat 1 32 := VI c main_v4

theorem idx3_facts : ∀ t : Fin cfg3.N,
    win3_0.index t (0 : Fin 2) = t.val / 4 ∧ win3_0.index t (1 : Fin 2) = t.val % 4
    ∧ win3_1.index t (0 : Fin 2) = t.val % 4 ∧ win3_1.index t (1 : Fin 2) = 0
    ∧ win3_2.index t (0 : Fin 2) = 0 ∧ win3_2.index t (1 : Fin 2) = 0
    ∧ win3_3.index t (0 : Fin 2) = t.val / 4 ∧ win3_3.index t (1 : Fin 2) = 0 :=
  (by decide +kernel : ∀ t : Fin grid3.N, _)

theorem blk3_0_apply (t : Fin cfg3.N) (p : Fin 512) (j : Fin 2048) :
    (iblk3 VI c 0 t : Vec Ideal S512x2048 .f32) (ix2 p j) = adj3 VI c (ix2 (row1 t.val p) (col1 (kOf1 t.val) j)) := by
  obtain ⟨e0, e1, -⟩ := idx3_facts t
  have hN : t.val < 32 := lt_of_lt_of_eq t.isLt (show cfg3.N = 32 from N_3)
  unfold iblk3
  rw [View.read_apply]
  show VI c main_arg25 (((cfg3.win 0).blk t).view.emb (ix2 p j)) = VI c main_arg25 (ix2 (row1 t.val p) (col1 (kOf1 t.val) j))
  refine congrArg (VI c main_arg25) (funext fun a => Fin.ext ?_)
  match a with
  | ⟨0, _⟩ => show win3_0.index t (0 : Fin 2) * 512 + 1 * p.val = (512 * (t.val / 4) + p.val) % 4096; have := p.isLt; omega
  | ⟨1, _⟩ => show win3_0.index t (1 : Fin 2) * 2048 + 1 * j.val = 2048 * (t.val % 4) + j.val; omega

theorem blk3_1_apply (t : Fin cfg3.N) (j : Fin 2048) (q : Fin 32) :
    (iblk3 VI c 1 t : Vec Ideal S2048x32 .f32) (ix2 j q) = sup3 VI c (ix2 (col1 (kOf1 t.val) j) q) := by
  obtain ⟨-, -, e0, e1, -⟩ := idx3_facts t
  unfold iblk3
  rw [View.read_apply]
  show VI c main_v3 (((cfg3.win 1).blk t).view.emb (ix2 j q)) = VI c main_v3 (ix2 (col1 (kOf1 t.val) j) q)
  refine congrArg (VI c main_v3) (funext fun a => Fin.ext ?_)
  match a with
  | ⟨0, _⟩ => show win3_1.index t (0 : Fin 2) * 2048 + 1 * j.val = 2048 * (t.val % 4) + j.val; omega
  | ⟨1, _⟩ => show win3_1.index t (1 : Fin 2) * 32 + 1 * q.val = q.val; omega

theorem blk3_2_apply (t : Fin cfg3.N) (q : Fin 32) :
    (iblk3 VI c 2 t : Vec Ideal S1x32 .f32) (ix2 0 q) = bias3 VI c (ix2 0 q) := by
  obtain ⟨-, -, -, -, e0, e1, -⟩ := idx3_facts t
  unfold iblk3
  rw [View.read_apply]
  show VI c main_v4 (((cfg3.win 2).blk t).view.emb (ix2 0 q)) = VI c main_v4 (ix2 0 q)
  refine congrArg (VI c main_v4) (funext fun a => Fin.ext ?_)
  match a with
  | ⟨0, _⟩ => show win3_2.index t (0 : Fin 2) * 1 + 1 * 0 = 0; omega
  | ⟨1, _⟩ => show win3_2.index t (1 : Fin 2) * 32 + 1 * q.val = q.val; omega

section
variable (i : grid3.Coords) (arg2 : Memref sig .tc .vmem S512x2048 .f32) (harg2 : arg2.IsWhole) (arg3 : Memref sig .tc .vmem S2048x32 .f32) (harg3 : arg3.IsWhole) (arg4 : Memref sig .tc .vmem S1x32 .f32) (harg4 : arg4.IsWhole) (arg5 : Memref sig .tc .vmem S512x32 .f32) (harg5 : arg5.IsWhole) (arg6 : Memref sig .tc .vmem S512x32 .f32) (harg6 : arg6.IsWhole)

-- Each run's pieces, read canonically, are the payloads of what the run read.
theorem sout3_A_eq (hc0 : cond3_0 i) (hc1 : ¬cond3_1 i) (x0 : Vec F S512x2048 .f32) (x1 : Vec F S2048x32 .f32) (x2 : Vec F S1x32 .f32) : View.canon (kernelRun3_A c i arg2 harg2 arg3 harg3 arg4 harg4 arg5 harg5 arg6 harg6 hc0 hc1 x0 x1 x2).2.1 = k3_pay2 (k3_pay1 (F := F)) x0 x1 := by
  unfold kernelRun3_A
  dsimp only
  sl_unfold_words
  rw [View.canon_cons_unit_zero (S := S512x32) hz1, View.readCov_unit_zero (S := S512x32) _ hz1]
  simp only [View.readAt_eq_ld, harg2.read_unread, harg3.read_unread, harg4.read_unread, harg6.read_unread, View.ld_unit_zero (S := S512x32) hz1, View.ld_unit_zero (S := S512x2048) hz1, View.ld_unit_zero (S := S2048x32) hz1, View.ld_unit_zero (S := S1x32) hz1]

theorem sout3_B_eq (hc0 : ¬cond3_0 i) (hc1 : ¬cond3_1 i) (x0 : Vec F S512x2048 .f32) (x1 : Vec F S2048x32 .f32) (x2 : Vec F S1x32 .f32) (xs0 : Vec F S512x32 .f32) : View.canon (kernelRun3_B c i arg2 harg2 arg3 harg3 arg4 harg4 arg5 harg5 arg6 harg6 hc0 hc1 x0 x1 x2 xs0).2.1 = k3_pay2 xs0 x0 x1 := by
  unfold kernelRun3_B
  dsimp only
  sl_unfold_words
  rw [View.canon_unit_zero hz1]
  simp only [View.readAt_eq_ld, harg2.read_unread, harg3.read_unread, harg4.read_unread, harg6.read_unread, View.ld_unit_zero (S := S512x32) hz1, View.ld_unit_zero (S := S512x2048) hz1, View.ld_unit_zero (S := S2048x32) hz1, View.ld_unit_zero (S := S1x32) hz1]

theorem sout3_C_eq (hc0 : ¬cond3_0 i) (hc1 : cond3_1 i) (x0 : Vec F S512x2048 .f32) (x1 : Vec F S2048x32 .f32) (x2 : Vec F S1x32 .f32) (xs0 : Vec F S512x32 .f32) : View.canon (kernelRun3_C c i arg2 harg2 arg3 harg3 arg4 harg4 arg5 harg5 arg6 harg6 hc0 hc1 x0 x1 x2 xs0).2.1 = k3_pay2 xs0 x0 x1 := by
  unfold kernelRun3_C
  dsimp only
  sl_unfold_words
  rw [View.canon_unit_zero hz1]
  simp only [View.readAt_eq_ld, harg2.read_unread, harg3.read_unread, harg4.read_unread, harg6.read_unread, View.ld_unit_zero (S := S512x32) hz1, View.ld_unit_zero (S := S512x2048) hz1, View.ld_unit_zero (S := S2048x32) hz1, View.ld_unit_zero (S := S1x32) hz1]

theorem out3_C_eq (hc0 : ¬cond3_0 i) (hc1 : cond3_1 i) (x0 : Vec F S512x2048 .f32) (x1 : Vec F S2048x32 .f32) (x2 : Vec F S1x32 .f32) (xs0 : Vec F S512x32 .f32) : View.canon (kernelRun3_C c i arg2 harg2 arg3 harg3 arg4 harg4 arg5 harg5 arg6 harg6 hc0 hc1 x0 x1 x2 xs0).1 = k3_pay3 (k3_pay2 xs0 x0 x1) x2 := by
  unfold kernelRun3_C
  dsimp only
  sl_unfold_words
  rw [View.canon_unit_zero hz1]
  simp only [View.readCov_unit_zero (S := S512x32) _ hz1, View.readAt_eq_ld, harg2.read_unread, harg3.read_unread, harg4.read_unread, harg6.read_unread, View.ld_unit_zero (S := S512x32) hz1, View.ld_unit_zero (S := S512x2048) hz1, View.ld_unit_zero (S := S2048x32) hz1, View.ld_unit_zero (S := S1x32) hz1]
end

abbrev ablk3 (t : Fin cfg3.N) : Vec Ideal S512x2048 .f32 := iblk3 VI c 0 t
abbrev sblk3 (t : Fin cfg3.N) : Vec Ideal S2048x32 .f32 := iblk3 VI c 1 t

-- The product of point t's two blocks at (p, q) is the contraction over t's column block of the whole matrices.
theorem blockProd3 (t : Fin cfg3.N) (p : Fin 512) (q : Fin 32) :
    ∑ j : Fin 2048, ablk3 VI c t (ix2 p j) * sblk3 VI c t (ix2 j q)
      = blockTerm1 (adj3 VI c) (sup3 VI c) (row1 t.val p) q (kOf1 t.val) :=
  Finset.sum_congr rfl fun j _ => congrArg₂ (· * ·) (blk3_0_apply VI c t p j) (blk3_1_apply VI c t j q)

-- At the first contraction block the accumulator's entry becomes zero plus the point's block contraction;
theorem stepA3 (t : Fin cfg3.N) (h0 : t.val % 4 = 0) (h1 : ¬t.val % 4 = 3) (p : Fin 512) (q : Fin 32) :
    ((outsAt3 VI c t.val t.isLt).2 : Vec Ideal S512x32 .f32) (ix2 p q)
      = 0 + blockTerm1 (adj3 VI c) (sup3 VI c) (row1 t.val p) q (kOf1 t.val) := by
  rw [outsAt3_A VI c t h0 h1]; dsimp only [sA3]
  rw [sout3_A_eq, pay2_3_apply, pay1_3_apply, blockProd3]

-- at any other it becomes what the point before left plus the point's block contraction.
theorem stepBC3 (t : Fin cfg3.N) (h0 : ¬t.val % 4 = 0) (p : Fin 512) (q : Fin 32) :
    ((outsAt3 VI c t.val t.isLt).2 : Vec Ideal S512x32 .f32) (ix2 p q)
      = ((outsAt3 VI c (t.val - 1) (Nat.lt_of_le_of_lt (Nat.sub_le _ _) t.isLt)).2 : Vec Ideal S512x32 .f32) (ix2 p q)
        + blockTerm1 (adj3 VI c) (sup3 VI c) (row1 t.val p) q (kOf1 t.val) := by
  have key : (outsAt3 VI c t.val t.isLt).2 = k3_pay2 (outsAt3 VI c (t.val - 1) (Nat.lt_of_le_of_lt (Nat.sub_le _ _) t.isLt)).2 (ablk3 VI c t) (sblk3 VI c t) := by
    by_cases h1 : t.val % 4 = 3
    · rw [outsAt3_C VI c t h0 h1]; dsimp only [sC3]; rw [sout3_C_eq]
    · rw [outsAt3_B VI c t h0 h1]; dsimp only [sB3]; rw [sout3_B_eq]
  rw [key, pay2_3_apply, blockProd3]

-- After position n the accumulator at (p, q) is the sum of the contractions over the column blocks 0 … n % 4 of row 512 (n / 4) + p against column q.
theorem acc3_eq : ∀ (n : ℕ) (h : n < cfg3.N) (p : Fin 512) (q : Fin 32),
    ((outsAt3 VI c n h).2 : Vec Ideal S512x32 .f32) (ix2 p q)
      = partial1 (blockTerm1 (adj3 VI c) (sup3 VI c) (row1 n p) q) (n % 4)
  | 0, h, p, q => (stepA3 VI c ⟨0, h⟩ rfl (by show ¬0 % 4 = 3; omega) p q).trans (partial1_zero _).symm
  | n + 1, h, p, q => by
    have hN : n + 1 < 32 := lt_of_lt_of_eq h (show cfg3.N = 32 from N_3)
    by_cases h0 : (n + 1) % 4 = 0
    · refine (stepA3 VI c ⟨n + 1, h⟩ h0 (by show ¬(n + 1) % 4 = 3; omega) p q).trans ?_
      show 0 + blockTerm1 (adj3 VI c) (sup3 VI c) (row1 (n + 1) p) q (kOf1 (n + 1)) = partial1 _ ((n + 1) % 4)
      rw [h0, partial1_zero, show kOf1 (n + 1) = 0 from Fin.ext h0]
    · refine (stepBC3 VI c ⟨n + 1, h⟩ h0 p q).trans ?_
      show ((outsAt3 VI c n _).2 : Vec Ideal S512x32 .f32) (ix2 p q) + blockTerm1 (adj3 VI c) (sup3 VI c) (row1 (n + 1) p) q (kOf1 (n + 1)) = partial1 _ ((n + 1) % 4)
      have hm : (n + 1) % 4 = n % 4 + 1 := by omega
      rw [acc3_eq n (Nat.lt_of_succ_lt h) p q, show row1 (n + 1) p = row1 n p from Fin.ext (by show (512 * ((n + 1) / 4) + p.val) % 4096 = (512 * (n / 4) + p.val) % 4096; rw [show (n + 1) / 4 = n / 4 by omega]),
        hm, partial1_succ _ (n % 4) (by omega), show kOf1 (n + 1) = ⟨n % 4 + 1, by omega⟩ from Fin.ext hm]

-- At the last contraction block the output block at (p, q) is the leaky rectifier of the accumulator's entry plus the bias.
theorem outC3_apply (t : Fin cfg3.N) (h0 : ¬t.val % 4 = 0) (h1 : t.val % 4 = 3) (p : Fin 512) (q : Fin 32) :
    ((outsAt3 VI c t.val t.isLt).1 : Vec Ideal S512x32 .f32) (ix2 p q)
      = Cert.Spec.lk (((outsAt3 VI c t.val t.isLt).2 : Vec Ideal S512x32 .f32) (ix2 p q) + bias3 VI c (ix2 0 q)) := by
  rw [outsAt3_C VI c t h0 h1]; dsimp only [oC3, sC3]
  rw [out3_C_eq, sout3_C_eq, pay3_3_apply, blk3_2_apply]

theorem flushed3_eq (t : Fin cfg3.N) (hf : (cfg3.win 3).flush t = true) :
    (dat3 VI c).flushed 3 t = ((cfg3.win 3).blk t).view.read (Elt Ideal) (Cert.Spec.gcn (adj3 VI c) (sup3 VI c) (bias3 VI c)) := by
  have h3 : t.val % 4 = 3 := (flush3_3 t).mp hf
  have hN : t.val < 32 := lt_of_lt_of_eq t.isLt (show cfg3.N = 32 from N_3)
  obtain ⟨-, -, -, -, -, -, e0, e1⟩ := idx3_facts t
  show (cfg3.win 3).cut (grid3.coords t) ((dat3 VI c).after 3 t) = _
  refine funext fun (y : S512x32.Idx) => ?_
  obtain ⟨p, q, rfl⟩ : ∃ (p : Fin 512) (q : Fin 32), y = ix2 p q := ⟨y 0, y 1, eq_ix2 y⟩
  rw [View.read_apply]
  have he : ((cfg3.win 3).blk t).view.emb (ix2 p q) = ix2 (row1 t.val p) q := funext fun a => Fin.ext (by
    match a with
    | ⟨0, _⟩ => show win3_3.index t (0 : Fin 2) * 512 + 1 * p.val = (512 * (t.val / 4) + p.val) % 4096; have := p.isLt; omega
    | ⟨1, _⟩ => show win3_3.index t (1 : Fin 2) * 32 + 1 * q.val = q.val; omega)
  rw [he]
  show ((outsAt3 VI c t.val t.isLt).1 : Vec Ideal S512x32 .f32) (ix2 p q)
    = Cert.Spec.lk (Cert.Spec.mm (adj3 VI c) (sup3 VI c) (ix2 (row1 t.val p) q) + bias3 VI c (ix2 0 q))
  rw [outC3_apply VI c t (by omega) h3 p q, acc3_eq VI c t.val t.isLt p q, h3, partial1_three, sum_blockTerm1]

theorem mem_blk3_3 (t : Fin cfg3.N) (i : S4096x32.Idx) :
    i ∈ ((cfg3.win 3).blk t).view.set ↔ ∀ a : Fin 2, win3_3.index t a * S512x32.size a ≤ (i a).val ∧ (i a).val < win3_3.index t a * S512x32.size a + S512x32.size a := by
  show i ∈ ((View.whole main_v5).slice (win3_3.rect t)).set ↔ _
  rw [View.set_slice_whole, Rect.mem_set_unit]
  exact Iff.rfl

theorem cover3 (i : S4096x32.Idx) : ∃ t : Fin cfg3.N, (cfg3.win 3).flush t = true ∧ i ∈ ((cfg3.win 3).blk t).view.set := by
  have hi0 : (i 0).val < 4096 := (i 0).isLt
  have hi1 : (i 1).val < 32 := (i 1).isLt
  have hlt : (i 0).val / 512 * 4 + 3 < cfg3.N := lt_of_lt_of_eq (by omega : (i 0).val / 512 * 4 + 3 < 32) N_3.symm
  obtain ⟨-, -, -, -, -, -, e0, e1⟩ := idx3_facts ⟨(i 0).val / 512 * 4 + 3, hlt⟩
  have e0' : win3_3.index ⟨(i 0).val / 512 * 4 + 3, hlt⟩ (0 : Fin 2) = ((i 0).val / 512 * 4 + 3) / 4 := e0
  refine ⟨⟨(i 0).val / 512 * 4 + 3, hlt⟩, (flush3_3 _).mpr (by show ((i 0).val / 512 * 4 + 3) % 4 = 3; omega), ?_⟩
  rw [mem_blk3_3]
  intro a
  match a with
  | ⟨0, _⟩ => show win3_3.index ⟨(i 0).val / 512 * 4 + 3, hlt⟩ (0 : Fin 2) * 512 ≤ (i 0).val ∧ (i 0).val < win3_3.index ⟨(i 0).val / 512 * 4 + 3, hlt⟩ (0 : Fin 2) * 512 + 512; omega
  | ⟨1, _⟩ => show win3_3.index ⟨(i 0).val / 512 * 4 + 3, hlt⟩ (1 : Fin 2) * 32 ≤ (i 1).val ∧ (i 1).val < win3_3.index ⟨(i 0).val / 512 * 4 + 3, hlt⟩ (1 : Fin 2) * 32 + 32; omega

theorem value3 (V : (c : Dev nD) → (b : Ref sig .tc) → Buf (Elt Ideal) ((c : Thread nD τ).loc b)) (c : Dev nD) :
    (dat3 (F := Ideal) V c).arrAt 3 cfg3.N = Cert.Spec.gcn (V c main_arg25) (V c main_v3) (V c main_v4) :=
  (dat3 V c).arrAt_eq_of_cover 3 (Cert.Spec.gcn (adj3 V c) (sup3 V c) (bias3 V c)) (fun t hf => flushed3_eq V c t hf) cover3

end Cert.ReferenceIdeal.Hand

end
-- ==== Proof.RefSup4.lean ====
import proofs.«180555_g2000006695542353_pallasbulk_342_5_alg».proof.Proof.Gen.ReferenceIdeal.Launch
import proofs.«180555_g2000006695542353_pallasbulk_342_5_alg».proof.Proof.Gen.ReferenceIdeal.Skeleton
import proofs.«180555_g2000006695542353_pallasbulk_342_5_alg».proof.Proof.Gen.ReferenceIdeal.Points
import proofs.«180555_g2000006695542353_pallasbulk_342_5_alg».proof.Proof.LibRow
import Idealize.ShloMosaic.Lib.Pipeline.Value
import Idealize.ShloMosaic.Lib.Tactic

noncomputable section

namespace Cert.ReferenceIdeal.Hand

open Idealize.ShloMosaic Idealize.ShloMosaic.TcCoe Idealize.ShloMosaic.ValueIdx
open Idealize.SL Idealize.SL.RA Idealize.SL.BI
open scoped Idealize.SL.BI
open Idealize.SL.BI.BIBase Idealize.SL.ProofMode Idealize.SL.Sem
open Idealize.ShloMosaic.Pipeline (Dat BodyObligation)
open Cert.ReferenceIdeal Cert.ReferenceIdeal.Gen Cert.LibRow

variable {F : FTy → Type} [FloatOps F]

section Region4
variable (V : (c : Dev nD) → (b : Ref sig .tc) → Buf (Elt F) ((c : Thread nD τ).loc b)) (c : Dev nD)

def iblk4 (w : Fin cfg4.W) (t : Fin cfg4.N) : ((cfg4.win w).xblock (cfg4.grid.coords t)).Idx → Elt F (cfg4.win w).elt :=
  ((cfg4.win w).blk t).view.read (Elt F) (V c (Pipeline.arrRef spec4 w))

def out4_2 (x0 : Vec F S2048x32 .f32) (x1 : Vec F S32x32 .f32) : Vec F S2048x32 .f32 :=
  View.canon [⟨Rect.unit ![0, 0] S2048x32.size inb_S2048x32_S2048x32_0_0,
    k4_pay1 (View.ld x0 (Rect.unit ![0, 0] S2048x32.size inb_S2048x32_S2048x32_0_0)) (View.ld x1 (Rect.unit ![0, 0] S32x32.size inb_S32x32_S32x32_0_0))⟩]

theorem sound_kernel4 (E : Set ℕ) (i : grid4.Coords) (arg1 : Memref sig .tc .vmem S2048x32 .f32) (harg1 : arg1.IsWhole) (arg2 : Memref sig .tc .vmem S32x32 .f32) (harg2 : arg2.IsWhole) (arg3 : Memref sig .tc .vmem S2048x32 .f32) (harg3 : arg3.IsWhole)
    (x0 : Vec F S2048x32 .f32) (x1 : Vec F S32x32 .f32) (K : PUnit → sProp (MT nD τ sig Unit (Elt F) ℕ (UR sig nD τ) ℕ)) :
    iprop(owns c arg1 fullShare x0 ∗ owns c arg2 fullShare x1 ∗ (∃ d, owns c arg3 fullShare d)
        ∗ (iprop(owns c arg1 fullShare x0 ∗ owns c arg2 fullShare x1 ∗ owns c arg3 fullShare (out4_2 x0 x1)) -∗ K ⟨⟩))
      ⊢ wp frame (wpE (defs₀ (F := F)) Variants.none c none) E (cc4__support_kernel i arg1 harg1 arg2 harg2 arg3 harg3) K := by
  simp only [cc4__support_kernel_eq_skeleton]; unfold cc4__support_kernel_skel owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ fun y => ⟨_, List.mem_singleton_self _, View.mem_set_unit_zero hz inb_S2048x32_S2048x32_0_0 y⟩

def dat4 : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (w : Fin cfg4.W) : (dat4 V c).A w = V c (Pipeline.arrRef spec4 w) := rfl

theorem Phi_eq4 (t : Fin (cfg4.N + 1)) : (dat4 V c).Φ t = Pipeline.ΦA spec4 c := rfl

theorem after4_0 (t : Fin cfg4.N) : (dat4 V c).after 0 t = iblk4 V c 0 t := by dsimp only [dat4]
theorem after4_1 (t : Fin cfg4.N) : (dat4 V c).after 1 t = iblk4 V c 1 t := by dsimp only [dat4]
theorem after4_2 (t : Fin cfg4.N) : (dat4 V c).after 2 t = out4_2 (iblk4 V c 0 t) (iblk4 V c 1 t) := by dsimp only [dat4]

theorem before4_0 (t : Fin cfg4.N) (d) : (dat4 V c).before 0 t d = iblk4 V c 0 t :=
  (dat4 V c).before_in_eq_fetched 0 rfl (fun _ => rfl) (fun _ _ _ => rfl) (fun _ => rfl) t d
theorem before4_1 (t : Fin cfg4.N) (d) : (dat4 V c).before 1 t d = iblk4 V c 1 t :=
  (dat4 V c).before_in_eq_fetched 1 rfl (fun _ => rfl) (fun _ _ _ => rfl) (fun _ => rfl) t d

theorem sound_body4 (t : Fin cfg4.N) :
    iprop((dat4 V c).Φ t.castSucc ∗ (dat4 V c).owesAt () t.castSucc
      ∗ (∃ d, owns c (st4_0 t) fullShare ((dat4 V c).before 0 t d))
      ∗ (∃ d, owns c (st4_1 t) fullShare ((dat4 V c).before 1 t d))
      ∗ (∃ d, owns c (st4_2 t) fullShare ((dat4 V c).before 2 t d)))
    ⊢ wp frame (wpE (defs₀ (F := F)) Variants.none c none) Set.univ (bodyAt4 t) fun _ =>
      iprop((dat4 V c).Φ t.succ ∗ (dat4 V c).owesAt () t.succ
        ∗ owns c (st4_0 t) fullShare ((dat4 V c).after 0 t)
        ∗ owns c (st4_1 t) fullShare ((dat4 V c).after 1 t)
        ∗ owns c (st4_2 t) fullShare ((dat4 V c).after 2 t)) := by
  simp only [before4_0, before4_1]
  rw [Phi_eq4, Phi_eq4, show (dat4 V c).owesAt () t.succ = (dat4 V c).owesAt () t.castSucc from rfl, after4_0, after4_1, after4_2]
  iintro ⟨HΦ, Ho, ⟨%d0, H0⟩, ⟨%d1, H1⟩, ⟨%d2, H2⟩⟩
  iapply (sound_kernel4 c Set.univ (grid4.coords t) _ _ _ _ _ _ (iblk4 V c 0 t) (iblk4 V c 1 t) _)
  iframe H0 H1
  isplitl [H2]; · iexists _; iexact H2
  iintro ⟨H0, H1, H2⟩
  iframe

theorem body_obligation4 : BodyObligation (dat4 (F := F) V c) (defs₀ (F := F)) Variants.none () Set.univ := fun t => by
  rw [bigSep_W4, bigSep_W4]
  exact sound_body4 V c t

end Region4

section Value4

variable (V : (c : Dev nD) → (b : Ref sig .tc) → Buf (Elt Ideal) ((c : Thread nD τ).loc b)) (c : Dev nD)

theorem pay4_eq (x0 : Vec Ideal S2048x32 .f32) (x1 : Vec Ideal S32x32 .f32) : k4_pay1 (F := Ideal) x0 x1 = Cert.Spec.mm x0 x1 := by
  unfold k4_pay1
  simp only [shapeCast_self]
  exact matmul_eq_mm (B := 2048) (K := 32) x0 x1

theorem idx_facts4 : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

-- Entry (r, q) of rows 2048·t … 2048·t + 2047 of x times W is entry (2048·t + r, q) of x · W.
theorem flushed4_eq (t : Fin cfg4.N) :
    (dat4 V c).flushed 2 t = ((cfg4.win 2).blk t).view.read (Elt Ideal) (Cert.Spec.mm (V c main_v2) (V c main_v6)) := by
  show (cfg4.win 2).cut (grid4.coords t) ((dat4 V c).after 2 t) = _
  rw [after4_2]
  unfold out4_2
  rw [View.canon_unit_zero hz, View.ld_unit_zero hz, View.ld_unit_zero hz, pay4_eq]
  obtain ⟨e0, e1, e2, e3, e4, e5⟩ := idx_facts4 t
  funext j
  refine block_mm (V c main_v2) (V c main_v6) t.val ((cfg4.win 0).blk t).view.emb ((cfg4.win 1).blk t).view.emb
    (fun y => ⟨?_, ?_⟩) (fun y => ⟨?_, ?_⟩) j (((cfg4.win 2).blk t).view.emb j) ⟨?_, ?_⟩
  · show win4_0.index t (0 : Fin 2) * 2048 + 1 * (y 0).val = _; omega
  · show win4_0.index t (1 : Fin 2) * 32 + 1 * (y 1).val = _; omega
  · show win4_1.index t (0 : Fin 2) * 32 + 1 * (y 0).val = _; omega
  · show win4_1.index t (1 : Fin 2) * 32 + 1 * (y 1).val = _; omega
  · show win4_2.index t (0 : Fin 2) * 2048 + 1 * (j 0).val = _; omega
  · show win4_2.index t (1 : Fin 2) * 32 + 1 * (j 1).val = _; omega

-- Row r lies in row block r / 2048.
theorem cover4 (i : S4096x32.Idx) :
    ∃ t : Fin cfg4.N, (cfg4.win 2).flush t = true ∧ i ∈ ((cfg4.win 2).blk t).view.set := by
  have hi0 : (i 0).val < 4096 := (i 0).isLt
  have hi1 : (i 1).val < 32 := (i 1).isLt
  let t : Fin cfg4.N := ⟨(i 0).val / 2048, by show _ < grid4.N; rw [N_4]; omega⟩
  have ht : t.val = (i 0).val / 2048 := rfl
  obtain ⟨e0, e1, e2, e3, e4, e5⟩ := idx_facts4 t
  refine ⟨t, flush4_2 t, ?_⟩
  show i ∈ ((View.whole main_v8).slice (win4_2.rect t)).set
  rw [View.set_slice_whole, Rect.mem_set_unit]
  intro a
  match a with
  | ⟨0, _⟩ => show win4_2.index t (0 : Fin 2) * 2048 ≤ (i 0).val ∧ (i 0).val < win4_2.index t (0 : Fin 2) * 2048 + 2048; omega
  | ⟨1, _⟩ => show win4_2.index t (1 : Fin 2) * 32 ≤ (i 1).val ∧ (i 1).val < win4_2.index t (1 : Fin 2) * 32 + 32; omega

theorem value4 :
    (dat4 (F := Ideal) V c).arrAt 2 cfg4.N = Cert.Spec.mm (V c main_v2) (V c main_v6) :=
  (dat4 V c).arrAt_eq_of_cover 2 _ (fun t _ => flushed4_eq V c t) cover4

end Value4

end Cert.ReferenceIdeal.Hand

end
-- ==== Proof.RefAgg5Runs.lean ====
import proofs.«180555_g2000006695542353_pallasbulk_342_5_alg».proof.Proof.Gen.ReferenceIdeal.Launch
import proofs.«180555_g2000006695542353_pallasbulk_342_5_alg».proof.Proof.Gen.ReferenceIdeal.Skeleton
import proofs.«180555_g2000006695542353_pallasbulk_342_5_alg».proof.Proof.Gen.ReferenceIdeal.Points
import proofs.«180555_g2000006695542353_pallasbulk_342_5_alg».proof.Proof.Spec
import proofs.«180555_g2000006695542353_pallasbulk_342_5_alg».proof.Proof.LibDotPlain
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

noncomputable section

namespace Cert.ReferenceIdeal.Hand

open Idealize.ShloMosaic Idealize.ShloMosaic.TcCoe
open Idealize.SL Idealize.SL.RA Idealize.SL.BI
open scoped Idealize.SL.BI
open Idealize.SL.BI.BIBase
open Cert.ReferenceIdeal Cert.ReferenceIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev cond5_0 (i : grid5.Coords) : Prop := (Scalar.cmpi .ne (Scalar.extui (Scalar.cmpi .eq (BitVec.ofNat 32 (i 1).val) 0#32)) 0#32) = 1#1
-- The first contraction step is taken at the even points,
theorem hcond5_0 : ∀ t : Fin cfg5.N, cond5_0 (grid5.coords t) ↔ t.val % 2 = 0 :=
  (by decide +kernel : ∀ t : Fin grid5.N, cond5_0 (grid5.coords t) ↔ t.val % 2 = 0)

abbrev cond5_1 (i : grid5.Coords) : Prop := k5_cond2 i = 1#1
-- the last at the odd points.
theorem hcond5_1 : ∀ t : Fin cfg5.N, cond5_1 (grid5.coords t) ↔ t.val % 2 = 1 :=
  (by decide +kernel : ∀ t : Fin grid5.N, cond5_1 (grid5.coords t) ↔ t.val % 2 = 1)

theorem idleAt5_3_A : ∀ t : Fin cfg5.N, cond5_0 (grid5.coords t) → ¬cond5_1 (grid5.coords t) → cfg5.idle 3 (grid5.coords t) = true := by decide +kernel
theorem noFlush5_3_A : ∀ t : Fin cfg5.N, cond5_0 (grid5.coords t) → ¬cond5_1 (grid5.coords t) → (cfg5.win 3).flush t = false := by decide +kernel
theorem liveAt5_3_C : ∀ t : Fin cfg5.N, ¬cond5_0 (grid5.coords t) → cond5_1 (grid5.coords t) → cfg5.idle 3 (grid5.coords t) = false := by decide +kernel

abbrev VO5_3 : View sig .tc .vmem S512x32 .f32 := (Memref.whole cc5_stg3_0 : Memref sig .tc .vmem S512x32 .f32).view
abbrev ms5_0 (t : Fin cfg5.N) : Memref sig .tc .vmem S512x2048 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S2048x32 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x32 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S512x32 .f32 := win5_3.stage (cfg5.slots t 3)
abbrev hs5_3 (t : Fin cfg5.N) : (ms5_3 t).IsWhole := hstage5_3 ((cfg5.slots t 3).cast nbuf5_3)
abbrev scM5_0 : Memref sig .tc .vmem S512x32 .f32 := Memref.whole cc5_scratch0
abbrev VS5_0 : View sig .tc .vmem S512x32 .f32 := scM5_0.view

-- The class invariant with the accumulator owned at some contents.
theorem PhiA5_eq (c : Dev nD) :
    (Pipeline.ΦA spec5 c : sProp 𝕄)
      = iprop(iprop(iprop((∃ d, owns (c : Thread nD τ) scM5_0 fullShare d)) ∗ Pipeline.scopedRestBut spec5 c [cc5_scratch0]) ∗ (∃ r, prngReg c r)) := by
  unfold Pipeline.ΦA; rw [scopedRest5_split]; simp only [scM5_0, owns_whole]; rfl

end Cert.ReferenceIdeal.Hand

end
-- ==== Proof.RefAgg5RunA.lean ====
import proofs.«180555_g2000006695542353_pallasbulk_342_5_alg».proof.Proof.RefAgg5Runs

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.ReferenceIdeal Cert.ReferenceIdeal.Gen

variable {F : FTy → Type} [FloatOps F]

local notation "𝕄" => MT nD τ sig Unit (Elt F) ℕ (UR sig nD τ) ℕ

noncomputable def kernelRun5_A (c : Dev nD) (i : grid5.Coords) (arg2 : Memref sig .tc .vmem S512x2048 .f32) (harg2 : arg2.IsWhole) (arg3 : Memref sig .tc .vmem S2048x32 .f32) (harg3 : arg3.IsWhole) (arg4 : Memref sig .tc .vmem S1x32 .f32) (harg4 : arg4.IsWhole) (arg5 : Memref sig .tc .vmem S512x32 .f32) (harg5 : arg5.IsWhole) (arg6 : Memref sig .tc .vmem S512x32 .f32) (harg6 : arg6.IsWhole) (hc0 : cond5_0 i) (hc1 : ¬cond5_1 i)
    (x0 : Vec F S512x2048 .f32) (x1 : Vec F S2048x32 .f32) (x2 : Vec F S1x32 .f32) :
    Σ' (L3 : List (View.Piece (Elt F) S512x32 .f32)), { LS0 : List (View.Piece (Elt F) S512x32 .f32) //
      ∀ (xi3 : Vec F S512x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc5__aggregate_kernel i arg2 harg2 arg3 harg3 arg4 harg4 arg5 harg5 arg6 harg6) K } := by
  refine ⟨[], ?_, fun xi3 E K => ?run⟩
  case run =>
    simp only [cc5__aggregate_kernel_eq_skeleton]; unfold cc5__aggregate_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.ReferenceIdeal.Hand

end
-- ==== Proof.RefAgg5RunC.lean ====
import proofs.«180555_g2000006695542353_pallasbulk_342_5_alg».proof.Proof.RefAgg5RunA

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.ReferenceIdeal Cert.ReferenceIdeal.Gen

variable {F : FTy → Type} [FloatOps F]

local notation "𝕄" => MT nD τ sig Unit (Elt F) ℕ (UR sig nD τ) ℕ

noncomputable def kernelRun5_C (c : Dev nD) (i : grid5.Coords) (arg2 : Memref sig .tc .vmem S512x2048 .f32) (harg2 : arg2.IsWhole) (arg3 : Memref sig .tc .vmem S2048x32 .f32) (harg3 : arg3.IsWhole) (arg4 : Memref sig .tc .vmem S1x32 .f32) (harg4 : arg4.IsWhole) (arg5 : Memref sig .tc .vmem S512x32 .f32) (harg5 : arg5.IsWhole) (arg6 : Memref sig .tc .vmem S512x32 .f32) (harg6 : arg6.IsWhole) (hc0 : ¬cond5_0 i) (hc1 : cond5_1 i)
    (x0 : Vec F S512x2048 .f32) (x1 : Vec F S2048x32 .f32) (x2 : Vec F S1x32 .f32) (xs0 : Vec F S512x32 .f32) :
    Σ' (L3 : List (View.Piece (Elt F) S512x32 .f32)), { LS0 : List (View.Piece (Elt F) S512x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc5__aggregate_kernel i arg2 harg2 arg3 harg3 arg4 harg4 arg5 harg5 arg6 harg6) K } := by
  refine ⟨?_, ?_, fun E K => ?run⟩
  case run =>
    simp only [cc5__aggregate_kernel_eq_skeleton]; unfold cc5__aggregate_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.ReferenceIdeal.Hand

end
-- ==== Proof.RefAgg5Frame.lean ====
import proofs.«180555_g2000006695542353_pallasbulk_342_5_alg».proof.Proof.RefAgg5RunC

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.ReferenceIdeal Cert.ReferenceIdeal.Gen

variable {F : FTy → Type} [FloatOps F]

local notation "𝕄" => MT nD τ sig Unit (Elt F) ℕ (UR sig nD τ) ℕ

theorem hz5 : (![0, 0] : Fin 2 → Nat) = fun _ => 0 := funext fun a => by fin_cases a <;> rfl

section Run

variable (c : Dev nD) (i : grid5.Coords) (arg2 : Memref sig .tc .vmem S512x2048 .f32) (harg2 : arg2.IsWhole) (arg3 : Memref sig .tc .vmem S2048x32 .f32) (harg3 : arg3.IsWhole) (arg4 : Memref sig .tc .vmem S1x32 .f32) (harg4 : arg4.IsWhole) (arg5 : Memref sig .tc .vmem S512x32 .f32) (harg5 : arg5.IsWhole) (arg6 : Memref sig .tc .vmem S512x32 .f32) (harg6 : arg6.IsWhole)
  (x0 : Vec F S512x2048 .f32) (x1 : Vec F S2048x32 .f32) (x2 : Vec F S1x32 .f32) (xs0 : Vec F S512x32 .f32)

section
variable (hc0 : cond5_0 i) (hc1 : ¬cond5_1 i)

-- A first step's two stores into the accumulator cover it.
theorem scover5_A_0 : ∀ y : S512x32.Idx, ∃ pc ∈ (kernelRun5_A c i arg2 harg2 arg3 harg3 arg4 harg4 arg5 harg5 arg6 harg6 hc0 hc1 x0 x1 x2).2.1, y ∈ pc.1.set :=
  View.cover_of_tiledL _ S512x32.size (by sl_kernel_rfl)

def sout5_A_0 : Vec F S512x32 .f32 :=
  VS5_0.read (Elt F) (VS5_0.writes (Elt F) VS5_0.junk (kernelRun5_A c i arg2 harg2 arg3 harg3 arg4 harg4 arg5 harg5 arg6 harg6 hc0 hc1 x0 x1 x2).2.1)

-- A first step leaves in the accumulator the accumulation step over the zero block.
theorem sout5_A_0_eq :
    sout5_A_0 c i arg2 harg2 arg3 harg3 arg4 harg4 arg5 harg5 arg6 harg6 x0 x1 x2 hc0 hc1 = k5_pay2 (k5_pay1 (F := F)) x0 x1 := by
  unfold sout5_A_0
  rw [View.read_writes_eq_canon _ _ _ (scover5_A_0 c i arg2 harg2 arg3 harg3 arg4 harg4 arg5 harg5 arg6 harg6 x0 x1 x2 hc0 hc1)]
  unfold kernelRun5_A
  dsimp only
  sl_unfold_words
  rw [View.canon_cons_unit_zero (S := S512x32) hz5, View.readCov_unit_zero (S := S512x32) _ hz5]
  simp only [View.readAt_eq_ld, harg2.read_unread, harg3.read_unread, View.ld_unit_zero (S := S512x2048) hz5, View.ld_unit_zero (S := S2048x32) hz5]
end

variable (hc0 : ¬cond5_0 i) (hc1 : cond5_1 i)

-- A last step's store into the output's buffer covers it.
theorem cover5_C_3 : ∀ y : S512x32.Idx, ∃ pc ∈ (kernelRun5_C c i arg2 harg2 arg3 harg3 arg4 harg4 arg5 harg5 arg6 harg6 hc0 hc1 x0 x1 x2 xs0).1, y ∈ pc.1.set :=
  View.cover_of_tiledL _ S512x32.size (by sl_kernel_rfl)

def out5_C_3 : Vec F S512x32 .f32 :=
  VO5_3.read (Elt F) (VO5_3.writes (Elt F) VO5_3.junk (kernelRun5_C c i arg2 harg2 arg3 harg3 arg4 harg4 arg5 harg5 arg6 harg6 hc0 hc1 x0 x1 x2 xs0).1)

-- A last step leaves in the output's buffer the output step of the accumulation step over `xs0`.
theorem out5_C_3_eq :
    out5_C_3 c i arg2 harg2 arg3 harg3 arg4 harg4 arg5 harg5 arg6 harg6 x0 x1 x2 xs0 hc0 hc1 = k5_pay3 (k5_pay2 xs0 x0 x1) x2 := by
  unfold out5_C_3
  rw [View.read_writes_eq_canon _ _ _ (cover5_C_3 c i arg2 harg2 arg3 harg3 arg4 harg4 arg5 harg5 arg6 harg6 x0 x1 x2 xs0 hc0 hc1)]
  unfold kernelRun5_C
  dsimp only
  sl_unfold_words
  rw [View.canon_unit_zero hz5]
  simp only [View.readAt_eq_ld, View.readCov_unit_zero (S := S512x32) _ hz5, harg2.read_unread, harg3.read_unread, harg4.read_unread, harg6.read_unread, View.ld_unit_zero (S := S512x32) hz5, View.ld_unit_zero (S := S512x2048) hz5, View.ld_unit_zero (S := S2048x32) hz5, View.ld_unit_zero (S := S1x32) hz5]

end Run

variable (V : (c : Dev nD) → (b : Ref sig .tc) → Buf (Elt F) ((c : Thread nD τ).loc b)) (c : Dev nD)

theorem condA5 {t : Fin cfg5.N} (h0 : t.val % 2 = 0) : cond5_0 (grid5.coords t) ∧ ¬cond5_1 (grid5.coords t) :=
  ⟨(hcond5_0 t).mpr h0, fun h => by have := (hcond5_1 t).mp h; omega⟩
theorem condC5 {t : Fin cfg5.N} (h0 : ¬t.val % 2 = 0) : ¬cond5_0 (grid5.coords t) ∧ cond5_1 (grid5.coords t) :=
  ⟨fun h => h0 ((hcond5_0 t).mp h), (hcond5_1 t).mpr (by omega)⟩

-- What an even point leaves in the accumulator: the first step on the point's blocks.
def acc5 (t : Fin cfg5.N) (h0 : t.val % 2 = 0) : Vec F S512x32 .f32 :=
  sout5_A_0 c (grid5.coords t) (ms5_0 t) (hs5_0 t) (ms5_1 t) (hs5_1 t) (ms5_2 t) (hs5_2 t) (ms5_3 t) (hs5_3 t) scM5_0 (Memref.isWhole_whole _) (iblk5 V c 0 t) (iblk5 V c 1 t) (iblk5 V c 2 t) (condA5 h0).1 (condA5 h0).2

-- What point t leaves in the output's buffer: at odd t the last step over what point t - 1 accumulated (immaterial at even t).
def out5 (t : Fin cfg5.N) : Vec F S512x32 .f32 :=
  if h0 : t.val % 2 = 0 then acc5 V c t h0
  else out5_C_3 c (grid5.coords t) (ms5_0 t) (hs5_0 t) (ms5_1 t) (hs5_1 t) (ms5_2 t) (hs5_2 t) (ms5_3 t) (hs5_3 t) scM5_0 (Memref.isWhole_whole _) (iblk5 V c 0 t) (iblk5 V c 1 t) (iblk5 V c 2 t)
    (acc5 V c ⟨t.val - 1, Nat.lt_of_le_of_lt (Nat.sub_le _ _) t.isLt⟩ (by show (t.val - 1) % 2 = 0; omega)) (condC5 h0).1 (condC5 h0).2

-- The invariant before position n: at odd n the accumulator holds what point n - 1 left, at even n anything.
def PhiS5 (n : ℕ) (hn : n ≤ cfg5.N) : sProp 𝕄 :=
  if h0 : n % 2 = 0 then Pipeline.ΦA spec5 c
  else iprop(iprop(iprop(owns (c : Thread nD τ) scM5_0 fullShare (acc5 V c ⟨n - 1, by omega⟩ (by show (n - 1) % 2 = 0; omega))) ∗ Pipeline.scopedRestBut spec5 c [cc5_scratch0]) ∗ (∃ r, prngReg c r))

def dat5 : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5 V c t
  Φ t := PhiS5 V c t.val (Nat.le_of_lt_succ t.isLt)
  q _ := fullShare
  owed _ := 0

theorem A_eq5 (w : Fin cfg5.W) : (dat5 V c).A w = V c (Pipeline.arrRef spec5 w) := rfl

theorem before5 (t : Fin cfg5.N) : (∀ d, (dat5 V c).before 0 t d = iblk5 V c 0 t) ∧ (∀ d, (dat5 V c).before 1 t d = iblk5 V c 1 t)
    ∧ ∀ d, (dat5 V c).before 2 t d = iblk5 V c 2 t :=
  ⟨fun d => ((dat5 V c).before_in_eq_fetched 0 rfl (fun _ => rfl) (fun _ _ _ => rfl) (fun _ => rfl) t d).trans rfl,
   fun d => ((dat5 V c).before_in_eq_fetched 1 rfl (fun _ => rfl) (fun _ _ _ => rfl) (fun _ => rfl) t d).trans rfl,
   fun d => ((dat5 V c).before_in_eq_fetched 2 rfl (fun _ => rfl) (fun _ _ _ => rfl) (fun _ => rfl) t d).trans rfl⟩

theorem sound_body5 (t : Fin cfg5.N) :
    iprop(PhiS5 V c t.val (Nat.le_of_lt t.isLt) ∗ (dat5 V c).owesAt () t.castSucc
      ∗ (∃ d, owns (c : Thread nD τ) (ms5_0 t) fullShare ((dat5 V c).before 0 t d))
      ∗ (∃ d, owns (c : Thread nD τ) (ms5_1 t) fullShare ((dat5 V c).before 1 t d))
      ∗ (∃ d, owns (c : Thread nD τ) (ms5_2 t) fullShare ((dat5 V c).before 2 t d))
      ∗ (∃ d, owns (c : Thread nD τ) (ms5_3 t) fullShare ((dat5 V c).before 3 t d)))
    ⊢ wp frame (wpE (defs₀ (F := F)) Variants.none c none) Set.univ (bodyAt5 t) (fun _ =>
      iprop(PhiS5 V c (t.val + 1) t.isLt ∗ (dat5 V c).owesAt () t.castSucc
        ∗ owns (c : Thread nD τ) (ms5_0 t) fullShare (iblk5 V c 0 t)
        ∗ owns (c : Thread nD τ) (ms5_1 t) fullShare (iblk5 V c 1 t)
        ∗ owns (c : Thread nD τ) (ms5_2 t) fullShare (iblk5 V c 2 t)
        ∗ (dat5 V c).leavesExact 3 t)) := by
  simp only [before5 V c t]
  unfold PhiS5 bodyAt5
  by_cases h0 : t.val % 2 = 0
  · rw [dif_pos h0, dif_neg (show ¬(t.val + 1) % 2 = 0 by omega), PhiA5_eq,
      Dat.leavesExact_idle (dat5 V c) 3 t (idleAt5_3_A t (condA5 h0).1 (condA5 h0).2) (noFlush5_3_A t (condA5 h0).1 (condA5 h0).2)]
    unfold acc5 sout5_A_0
    iintro ⟨⟨⟨HS, Hr⟩, Hg⟩, Ho, ⟨%d0, H0⟩, ⟨%d1, H1⟩, ⟨%d2, H2⟩, ⟨%d3, H3⟩⟩
    iapply ((kernelRun5_A c (grid5.coords t) _ _ _ _ _ _ _ _ _ _ (condA5 h0).1 (condA5 h0).2 (iblk5 V c 0 t) (iblk5 V c 1 t) (iblk5 V c 2 t)).2.2 _ Set.univ _)
    iframe H0 H1 H2 H3 HS
    iintro ⟨H0, H1, H2, H3, ⟨%es, HS⟩⟩
    iframe Hr Hg Ho H0 H1 H2
    isplitl [HS]
    · unfold owns; iexists _; isplitr
      swap; · iexact HS
      ipureintro; exact View.read_writes_of_cover _ _ _ _ _ (scover5_A_0 (F := F) _ _ _ _ _ _ _ _ _ _ _ _ _ _ _ _ _)
    iexists _; iexact H3
  · rw [dif_neg h0, dif_pos (show (t.val + 1) % 2 = 0 by omega), PhiA5_eq]
    unfold Dat.leavesExact; rw [liveAt5_3_C t (condC5 h0).1 (condC5 h0).2]
    rw [show (dat5 V c).after 3 t = out5 V c t from rfl]; unfold out5; rw [dif_neg h0]
    iintro ⟨⟨⟨HS, Hr⟩, Hg⟩, Ho, ⟨%d0, H0⟩, ⟨%d1, H1⟩, ⟨%d2, H2⟩, ⟨%d3, H3⟩⟩
    iapply ((kernelRun5_C c (grid5.coords t) _ _ _ _ _ _ _ _ _ _ (condC5 h0).1 (condC5 h0).2 (iblk5 V c 0 t) (iblk5 V c 1 t) (iblk5 V c 2 t) _).2.2 Set.univ _)
    iframe H0 H1 H2 HS
    isplitl [H3]; · iexists _; iexact H3
    iintro ⟨H0, H1, H2, ⟨%e3, H3⟩, ⟨%es, HS⟩⟩
    iframe Hr Hg Ho H0 H1 H2
    isplitl [HS]
    · iexists _; unfold owns; iexists _; isplitr
      swap; · iexact HS
      ipureintro; rfl
    unfold owns; iexists _; isplitr
    swap; · iexact H3
    ipureintro; exact View.read_writes_of_cover _ _ _ _ _ (cover5_C_3 (F := F) _ _ _ _ _ _ _ _ _ _ _ _ _ _ _ _ _ _)

theorem body_obligation5 : BodyObligation (dat5 (F := F) V c) (defs₀ (F := F)) Variants.none () Set.univ := fun t => by
  rw [bigSep_W5, bigSep_W5]
  exact sound_body5 V c t

theorem hin5 : Pipeline.ΦA spec5 c ⊢ (dat5 V c).Φ 0 := by
  show _ ⊢ PhiS5 V c 0 (Nat.zero_le _)
  unfold PhiS5; rw [dif_pos (Nat.zero_mod 2)]

theorem hout5 : (dat5 V c).Φ (Fin.last cfg5.N) ⊢ Pipeline.ΦA spec5 c := by
  show PhiS5 V c cfg5.N (Nat.le_refl _) ⊢ _
  unfold PhiS5; rw [dif_pos (show cfg5.N % 2 = 0 by decide)]

end Cert.ReferenceIdeal.Hand

end
-- ==== Proof.RefAgg5.lean ====
import proofs.«180555_g2000006695542353_pallasbulk_342_5_alg».proof.Proof.RefAgg5Frame
import Mathlib.Algebra.BigOperators.Fin

noncomputable section

namespace Cert.ReferenceIdeal.Hand

open Idealize.ShloMosaic Idealize.ShloMosaic.TcCoe Idealize.ShloMosaic.ValueIdx
open Cert.ReferenceIdeal Cert.ReferenceIdeal.Gen

theorem pay1_5_apply (j : S512x32.Idx) : (k5_pay1 (F := Ideal)) j = 0 := by
  unfold k5_pay1
  simp only [shapeCast_self]
  exact Ideal.ofBits_zero_f32

-- One accumulation step at an entry: what the accumulator held plus the block product's entry.
theorem pay2_5_apply (v3 : Vec Ideal S512x32 .f32) (v4 : Vec Ideal S512x2048 .f32) (v5 : Vec Ideal S2048x32 .f32)
    (p : Fin 512) (q : Fin 32) :
    k5_pay2 v3 v4 v5 (ix2 p q) = v3 (ix2 p q) + ∑ k : Fin 2048, v4 (ix2 p k) * v5 (ix2 k q) := by
  unfold k5_pay2
  simp only [shapeCast_self]
  show v3 (ix2 p q) + matmul (DotDims.plain 512 2048 32) none v4 v5 (constant (F := Ideal) ⟨2, ![512, 32]⟩ .f32 0x00000000#32) (ix2 p q) = _
  rw [Cert.LibDot.mm_plain]

-- The output step at an entry: the leaky rectifier of the accumulator plus the bias of the column.
theorem pay3_5_apply (v15 : Vec Ideal S512x32 .f32) (v16 : Vec Ideal S1x32 .f32) (p : Fin 512) (q : Fin 32) :
    k5_pay3 v15 v16 (ix2 p q) = Cert.Spec.lk (v15 (ix2 p q) + v16 (ix2 0 q)) := by
  unfold k5_pay3
  simp only [shapeCast_self]
  have hb : broadcastTo S512x32 v16 broadcasts_S1x32_S512x32 (ix2 p q) = v16 (ix2 0 q) :=
    broadcastTo_apply v16 broadcasts_S1x32_S512x32 (ix2 p q) (ix2 0 q) (fun a => by
      match a with
      | ⟨0, _⟩ => rfl
      | ⟨1, _⟩ => rfl)
  show Cert.Spec.lk (v15 (ix2 p q) + broadcastTo S512x32 v16 broadcasts_S1x32_S512x32 (ix2 p q)) = _
  rw [hb]

variable (V : (c : Dev nD) → (b : Ref sig .tc) → Buf (Elt Ideal) ((c : Thread nD τ).loc b)) (c : Dev nD)

abbrev adj5 : Cert.Spec.Mat 8192 4096 := V c main_arg22
abbrev sup5 : Cert.Spec.Mat 4096 32 := V c main_v8
abbrev bias5 : Cert.Spec.Mat 1 32 := V c main_v9
abbrev ablk5 (t : Fin cfg5.N) : Vec Ideal S512x2048 .f32 := iblk5 V c 0 t
abbrev sblk5 (t : Fin cfg5.N) : Vec Ideal S2048x32 .f32 := iblk5 V c 1 t
abbrev bblk5 (t : Fin cfg5.N) : Vec Ideal S1x32 .f32 := iblk5 V c 2 t

-- At point t = 2 i + k the adjacency's block is (i, k), the support's (k, 0), the bias's (0, 0), the output's (i, 0).
theorem idx_facts5 : ∀ t : Fin cfg5.N,
    win5_0.index t (0 : Fin 2) = t.val / 2 ∧ win5_0.index t (1 : Fin 2) = t.val % 2
    ∧ win5_1.index t (0 : Fin 2) = t.val % 2 ∧ win5_1.index t (1 : Fin 2) = 0
    ∧ win5_2.index t (0 : Fin 2) = 0 ∧ win5_2.index t (1 : Fin 2) = 0
    ∧ win5_3.index t (0 : Fin 2) = t.val / 2 ∧ win5_3.index t (1 : Fin 2) = 0 :=
  (by decide +kernel : ∀ t : Fin grid5.N, _)

theorem ablk5_apply (t : Fin cfg5.N) (p : Fin 512) (j : Fin 2048) (r : Fin 8192) (k : Fin 4096)
    (hr : r.val = 512 * (t.val / 2) + p.val) (hk : k.val = 2048 * (t.val % 2) + j.val) :
    ablk5 V c t (ix2 p j) = adj5 V c (ix2 r k) := by
  obtain ⟨e0, e1, -⟩ := idx_facts5 t
  show V c main_arg22 (((cfg5.win 0).blk t).view.emb (ix2 p j)) = V c main_arg22 (ix2 r k)
  congr 1
  funext a
  apply Fin.ext
  match a with
  | ⟨0, _⟩ => show win5_0.index t (0 : Fin 2) * 512 + 1 * p.val = r.val; rw [e0, hr]; omega
  | ⟨1, _⟩ => show win5_0.index t (1 : Fin 2) * 2048 + 1 * j.val = k.val; rw [e1, hk]; omega

theorem sblk5_apply (t : Fin cfg5.N) (j : Fin 2048) (q : Fin 32) (k : Fin 4096)
    (hk : k.val = 2048 * (t.val % 2) + j.val) :
    sblk5 V c t (ix2 j q) = sup5 V c (ix2 k q) := by
  obtain ⟨-, -, e2, e3, -⟩ := idx_facts5 t
  show V c main_v8 (((cfg5.win 1).blk t).view.emb (ix2 j q)) = V c main_v8 (ix2 k q)
  congr 1
  funext a
  apply Fin.ext
  match a with
  | ⟨0, _⟩ => show win5_1.index t (0 : Fin 2) * 2048 + 1 * j.val = k.val; rw [e2, hk]; omega
  | ⟨1, _⟩ => show win5_1.index t (1 : Fin 2) * 32 + 1 * q.val = q.val; rw [e3]; omega

theorem bblk5_apply (t : Fin cfg5.N) (q : Fin 32) :
    bblk5 V c t (ix2 0 q) = bias5 V c (ix2 0 q) := by
  obtain ⟨-, -, -, -, e4, e5, -⟩ := idx_facts5 t
  show V c main_v9 (((cfg5.win 2).blk t).view.emb (ix2 0 q)) = V c main_v9 (ix2 0 q)
  congr 1
  funext a
  apply Fin.ext
  match a with
  | ⟨0, _⟩ => show win5_2.index t (0 : Fin 2) * 1 + 1 * 0 = 0; rw [e4]
  | ⟨1, _⟩ => show win5_2.index t (1 : Fin 2) * 32 + 1 * q.val = q.val; rw [e5]; omega

-- Row r of the adjacency times column q of the support, over the contraction positions of column block b only.
def part5 (r : Fin 8192) (q : Fin 32) (b : ℕ) (hb : b < 2) : EReal :=
  ∑ j : Fin 2048, adj5 V c (ix2 r ⟨2048 * b + j.val, by have := j.isLt; omega⟩) * sup5 V c (ix2 ⟨2048 * b + j.val, by have := j.isLt; omega⟩ q)

theorem blockprod5 (t : Fin cfg5.N) (p : Fin 512) (q : Fin 32) (r : Fin 8192)
    (hr : r.val = 512 * (t.val / 2) + p.val) (b : ℕ) (hb : b < 2) (hbt : t.val % 2 = b) :
    ∑ k : Fin 2048, ablk5 V c t (ix2 p k) * sblk5 V c t (ix2 k q) = part5 V c r q b hb := by
  unfold part5
  refine Finset.sum_congr rfl fun j _ => ?_
  rw [ablk5_apply V c t p j r ⟨2048 * b + j.val, by have := j.isLt; omega⟩ hr (by rw [hbt]),
    sblk5_apply V c t j q ⟨2048 * b + j.val, by have := j.isLt; omega⟩ (by rw [hbt])]

theorem sum_two_blocks5 (f : Fin 4096 → EReal) :
    ∑ k : Fin 4096, f k
      = (∑ j : Fin 2048, f ⟨2048 * 0 + j.val, by have := j.isLt; omega⟩) + ∑ j : Fin 2048, f ⟨2048 * 1 + j.val, by have := j.isLt; omega⟩ := by
  refine (Fin.sum_univ_add (M := EReal) (a := 2048) (b := 2048) f).trans ?_
  congr 1 <;> refine Finset.sum_congr rfl fun j _ => congrArg f (Fin.ext ?_)

-- After an even point the accumulator holds the first column block's partial product.
theorem acc5_even (t : Fin cfg5.N) (h0 : t.val % 2 = 0) (p : Fin 512) (q : Fin 32) (r : Fin 8192)
    (hr : r.val = 512 * (t.val / 2) + p.val) :
    acc5 V c t h0 (ix2 p q) = 0 + part5 V c r q 0 (by decide) := by
  unfold acc5
  rw [sout5_A_0_eq]
  refine (pay2_5_apply (k5_pay1 (F := Ideal)) (ablk5 V c t) (sblk5 V c t) p q).trans ?_
  rw [pay1_5_apply, blockprod5 V c t p q r hr 0 (by decide) h0]

-- After an odd point the output's buffer holds, at (p, q), the layer's entry (512 (t / 2) + p, q).
theorem out5_odd (t : Fin cfg5.N) (h0 : ¬t.val % 2 = 0) (p : Fin 512) (q : Fin 32) (r : Fin 8192)
    (hr : r.val = 512 * (t.val / 2) + p.val) :
    out5 V c t (ix2 p q) = Cert.Spec.gcn (adj5 V c) (sup5 V c) (bias5 V c) (ix2 r q) := by
  unfold out5
  rw [dif_neg h0, out5_C_3_eq]
  refine (pay3_5_apply _ (bblk5 V c t) p q).trans ?_
  rw [pay2_5_apply _ (ablk5 V c t) (sblk5 V c t) p q, blockprod5 V c t p q r hr 1 (by decide) (by omega),
    acc5_even V c _ _ p q r (by show r.val = 512 * ((t.val - 1) / 2) + p.val; omega), bblk5_apply V c t q]
  show _ = Cert.Spec.lk ((∑ k : Fin 4096, adj5 V c (ix2 r k) * sup5 V c (ix2 k q)) + bias5 V c (ix2 0 q))
  rw [sum_two_blocks5 (fun k => adj5 V c (ix2 r k) * sup5 V c (ix2 k q)), zero_add]
  rfl

-- At an odd point the output's block is the corresponding block of the layer's result.
theorem flushed5_eq (t : Fin cfg5.N) (hf : (cfg5.win 3).flush t = true) :
    (dat5 V c).flushed 3 t = ((cfg5.win 3).blk t).view.read (Elt Ideal) (Cert.Spec.gcn (V c main_arg22) (V c main_v8) (V c main_v9)) := by
  have h1 : t.val % 2 = 1 := (flush5_3 t).mp hf
  obtain ⟨-, -, -, -, -, -, e6, e7⟩ := idx_facts5 t
  have hN : t.val < 32 := lt_of_lt_of_eq t.isLt (show cfg5.N = 32 from N_5)
  funext y
  have hy0 : (y 0).val < 512 := (y 0).isLt
  show out5 V c t y = Cert.Spec.gcn (adj5 V c) (sup5 V c) (bias5 V c) (((cfg5.win 3).blk t).view.emb y)
  have he : ((cfg5.win 3).blk t).view.emb y = ix2 (⟨512 * (t.val / 2) + (y 0).val, by omega⟩ : Fin 8192) (y 1) := by
    funext a
    apply Fin.ext
    match a with
    | ⟨0, _⟩ => show win5_3.index t (0 : Fin 2) * 512 + 1 * (y 0).val = 512 * (t.val / 2) + (y 0).val; rw [e6]; omega
    | ⟨1, _⟩ => show win5_3.index t (1 : Fin 2) * 32 + 1 * (y 1).val = (y 1).val; rw [e7]; omega
  rw [he]
  refine (congrArg (out5 V c t) (@eq_ix2 512 32 y)).trans ?_
  exact out5_odd V c t (by omega) (y 0) (y 1) _ rfl

theorem mem_blk5 (t : Fin cfg5.N) (i : S8192x32.Idx) :
    i ∈ ((cfg5.win 3).blk t).view.set ↔ ∀ a : Fin 2, win5_3.index t a * S512x32.size a ≤ (i a).val ∧ (i a).val < win5_3.index t a * S512x32.size a + S512x32.size a := by
  show i ∈ ((View.whole main_v10).slice (win5_3.rect t)).set ↔ _
  rw [View.set_slice_whole, Rect.mem_set_unit]
  exact Iff.rfl

-- Row r of the output array lies in the block of the odd point of row block r / 512.
theorem cover5 (i : S8192x32.Idx) : ∃ t : Fin cfg5.N, (cfg5.win 3).flush t = true ∧ i ∈ ((cfg5.win 3).blk t).view.set := by
  have hi0 : (i 0).val < 8192 := (i 0).isLt
  have hi1 : (i 1).val < 32 := (i 1).isLt
  have hN : cfg5.N = 32 := N_5
  obtain ⟨t, ht⟩ : ∃ t : Fin cfg5.N, t.val = (i 0).val / 512 * 2 + 1 := ⟨⟨(i 0).val / 512 * 2 + 1, by rw [hN]; omega⟩, rfl⟩
  obtain ⟨-, -, -, -, -, -, e6, e7⟩ := idx_facts5 t
  refine ⟨t, (flush5_3 t).mpr (by rw [ht]; omega), ?_⟩
  rw [mem_blk5]
  intro a
  match a with
  | ⟨0, _⟩ => show win5_3.index t (0 : Fin 2) * 512 ≤ (i 0).val ∧ (i 0).val < win5_3.index t (0 : Fin 2) * 512 + 512; rw [e6, ht]; omega
  | ⟨1, _⟩ => show win5_3.index t (1 : Fin 2) * 32 ≤ (i 1).val ∧ (i 1).val < win5_3.index t (1 : Fin 2) * 32 + 32; rw [e7]; omega

-- The region's output array is the graph-convolution layer of the adjacency, the support and the bias.
theorem value5 :
    (dat5 (F := Ideal) V c).arrAt 3 cfg5.N = Cert.Spec.gcn (V c main_arg22) (V c main_v8) (V c main_v9) :=
  (dat5 V c).arrAt_eq_of_cover 3 _ (flushed5_eq V c) (cover5)

end Cert.ReferenceIdeal.Hand

end
-- ==== Proof.RefSup6.lean ====
import proofs.«180555_g2000006695542353_pallasbulk_342_5_alg».proof.Proof.Gen.ReferenceIdeal.Launch
import proofs.«180555_g2000006695542353_pallasbulk_342_5_alg».proof.Proof.Gen.ReferenceIdeal.Skeleton
import proofs.«180555_g2000006695542353_pallasbulk_342_5_alg».proof.Proof.Gen.ReferenceIdeal.Points
import proofs.«180555_g2000006695542353_pallasbulk_342_5_alg».proof.Proof.LibRow
import Idealize.ShloMosaic.Lib.Pipeline.Value
import Idealize.ShloMosaic.Lib.Tactic

noncomputable section

namespace Cert.ReferenceIdeal.Hand

open Idealize.ShloMosaic Idealize.ShloMosaic.TcCoe Idealize.ShloMosaic.ValueIdx
open Idealize.SL Idealize.SL.RA Idealize.SL.BI
open scoped Idealize.SL.BI
open Idealize.SL.BI.BIBase Idealize.SL.ProofMode Idealize.SL.Sem
open Idealize.ShloMosaic.Pipeline (Dat BodyObligation)
open Cert.ReferenceIdeal Cert.ReferenceIdeal.Gen Cert.LibRow

variable {F : FTy → Type} [FloatOps F]

section Region6
variable (V : (c : Dev nD) → (b : Ref sig .tc) → Buf (Elt F) ((c : Thread nD τ).loc b)) (c : Dev nD)

def iblk6 (w : Fin cfg6.W) (t : Fin cfg6.N) : ((cfg6.win w).xblock (cfg6.grid.coords t)).Idx → Elt F (cfg6.win w).elt :=
  ((cfg6.win w).blk t).view.read (Elt F) (V c (Pipeline.arrRef spec6 w))

def out6_2 (x0 : Vec F S2048x32 .f32) (x1 : Vec F S32x32 .f32) : Vec F S2048x32 .f32 :=
  View.canon [⟨Rect.unit ![0, 0] S2048x32.size inb_S2048x32_S2048x32_0_0,
    k6_pay1 (View.ld x0 (Rect.unit ![0, 0] S2048x32.size inb_S2048x32_S2048x32_0_0)) (View.ld x1 (Rect.unit ![0, 0] S32x32.size inb_S32x32_S32x32_0_0))⟩]

theorem sound_kernel6 (E : Set ℕ) (i : grid6.Coords) (arg1 : Memref sig .tc .vmem S2048x32 .f32) (harg1 : arg1.IsWhole) (arg2 : Memref sig .tc .vmem S32x32 .f32) (harg2 : arg2.IsWhole) (arg3 : Memref sig .tc .vmem S2048x32 .f32) (harg3 : arg3.IsWhole)
    (x0 : Vec F S2048x32 .f32) (x1 : Vec F S32x32 .f32) (K : PUnit → sProp (MT nD τ sig Unit (Elt F) ℕ (UR sig nD τ) ℕ)) :
    iprop(owns c arg1 fullShare x0 ∗ owns c arg2 fullShare x1 ∗ (∃ d, owns c arg3 fullShare d)
        ∗ (iprop(owns c arg1 fullShare x0 ∗ owns c arg2 fullShare x1 ∗ owns c arg3 fullShare (out6_2 x0 x1)) -∗ K ⟨⟩))
      ⊢ wp frame (wpE (defs₀ (F := F)) Variants.none c none) E (cc6__support_kernel i arg1 harg1 arg2 harg2 arg3 harg3) K := by
  simp only [cc6__support_kernel_eq_skeleton]; unfold cc6__support_kernel_skel owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ fun y => ⟨_, List.mem_singleton_self _, View.mem_set_unit_zero hz inb_S2048x32_S2048x32_0_0 y⟩

def dat6 : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (w : Fin cfg6.W) : (dat6 V c).A w = V c (Pipeline.arrRef spec6 w) := rfl

theorem Phi_eq6 (t : Fin (cfg6.N + 1)) : (dat6 V c).Φ t = Pipeline.ΦA spec6 c := rfl

theorem after6_0 (t : Fin cfg6.N) : (dat6 V c).after 0 t = iblk6 V c 0 t := by dsimp only [dat6]
theorem after6_1 (t : Fin cfg6.N) : (dat6 V c).after 1 t = iblk6 V c 1 t := by dsimp only [dat6]
theorem after6_2 (t : Fin cfg6.N) : (dat6 V c).after 2 t = out6_2 (iblk6 V c 0 t) (iblk6 V c 1 t) := by dsimp only [dat6]

theorem before6_0 (t : Fin cfg6.N) (d) : (dat6 V c).before 0 t d = iblk6 V c 0 t :=
  (dat6 V c).before_in_eq_fetched 0 rfl (fun _ => rfl) (fun _ _ _ => rfl) (fun _ => rfl) t d
theorem before6_1 (t : Fin cfg6.N) (d) : (dat6 V c).before 1 t d = iblk6 V c 1 t :=
  (dat6 V c).before_in_eq_fetched 1 rfl (fun _ => rfl) (fun _ _ _ => rfl) (fun _ => rfl) t d

theorem sound_body6 (t : Fin cfg6.N) :
    iprop((dat6 V c).Φ t.castSucc ∗ (dat6 V c).owesAt () t.castSucc
      ∗ (∃ d, owns c (st6_0 t) fullShare ((dat6 V c).before 0 t d))
      ∗ (∃ d, owns c (st6_1 t) fullShare ((dat6 V c).before 1 t d))
      ∗ (∃ d, owns c (st6_2 t) fullShare ((dat6 V c).before 2 t d)))
    ⊢ wp frame (wpE (defs₀ (F := F)) Variants.none c none) Set.univ (bodyAt6 t) fun _ =>
      iprop((dat6 V c).Φ t.succ ∗ (dat6 V c).owesAt () t.succ
        ∗ owns c (st6_0 t) fullShare ((dat6 V c).after 0 t)
        ∗ owns c (st6_1 t) fullShare ((dat6 V c).after 1 t)
        ∗ owns c (st6_2 t) fullShare ((dat6 V c).after 2 t)) := by
  simp only [before6_0, before6_1]
  rw [Phi_eq6, Phi_eq6, show (dat6 V c).owesAt () t.succ = (dat6 V c).owesAt () t.castSucc from rfl, after6_0, after6_1, after6_2]
  iintro ⟨HΦ, Ho, ⟨%d0, H0⟩, ⟨%d1, H1⟩, ⟨%d2, H2⟩⟩
  iapply (sound_kernel6 c Set.univ (grid6.coords t) _ _ _ _ _ _ (iblk6 V c 0 t) (iblk6 V c 1 t) _)
  iframe H0 H1
  isplitl [H2]; · iexists _; iexact H2
  iintro ⟨H0, H1, H2⟩
  iframe

theorem body_obligation6 : BodyObligation (dat6 (F := F) V c) (defs₀ (F := F)) Variants.none () Set.univ := fun t => by
  rw [bigSep_W6, bigSep_W6]
  exact sound_body6 V c t

end Region6

section Value6

variable (V : (c : Dev nD) → (b : Ref sig .tc) → Buf (Elt Ideal) ((c : Thread nD τ).loc b)) (c : Dev nD)

theorem pay6_eq (x0 : Vec Ideal S2048x32 .f32) (x1 : Vec Ideal S32x32 .f32) : k6_pay1 (F := Ideal) x0 x1 = Cert.Spec.mm x0 x1 := by
  unfold k6_pay1
  simp only [shapeCast_self]
  exact matmul_eq_mm (B := 2048) (K := 32) x0 x1

theorem idx_facts6 : ∀ t : Fin cfg6.N, win6_0.index t (0 : Fin 2) = t.val
    ∧ win6_0.index t (1 : Fin 2) = 0
    ∧ win6_1.index t (0 : Fin 2) = 0
    ∧ win6_1.index t (1 : Fin 2) = 0
    ∧ win6_2.index t (0 : Fin 2) = t.val
    ∧ win6_2.index t (1 : Fin 2) = 0 :=
  (by decide +kernel : ∀ t : Fin grid6.N, _)

-- Entry (r, q) of rows 2048·t … 2048·t + 2047 of x times W is entry (2048·t + r, q) of x · W.
theorem flushed6_eq (t : Fin cfg6.N) :
    (dat6 V c).flushed 2 t = ((cfg6.win 2).blk t).view.read (Elt Ideal) (Cert.Spec.mm (V c main_v5) (V c main_v11)) := by
  show (cfg6.win 2).cut (grid6.coords t) ((dat6 V c).after 2 t) = _
  rw [after6_2]
  unfold out6_2
  rw [View.canon_unit_zero hz, View.ld_unit_zero hz, View.ld_unit_zero hz, pay6_eq]
  obtain ⟨e0, e1, e2, e3, e4, e5⟩ := idx_facts6 t
  funext j
  refine block_mm (V c main_v5) (V c main_v11) t.val ((cfg6.win 0).blk t).view.emb ((cfg6.win 1).blk t).view.emb
    (fun y => ⟨?_, ?_⟩) (fun y => ⟨?_, ?_⟩) j (((cfg6.win 2).blk t).view.emb j) ⟨?_, ?_⟩
  · show win6_0.index t (0 : Fin 2) * 2048 + 1 * (y 0).val = _; omega
  · show win6_0.index t (1 : Fin 2) * 32 + 1 * (y 1).val = _; omega
  · show win6_1.index t (0 : Fin 2) * 32 + 1 * (y 0).val = _; omega
  · show win6_1.index t (1 : Fin 2) * 32 + 1 * (y 1).val = _; omega
  · show win6_2.index t (0 : Fin 2) * 2048 + 1 * (j 0).val = _; omega
  · show win6_2.index t (1 : Fin 2) * 32 + 1 * (j 1).val = _; omega

-- Row r lies in row block r / 2048.
theorem cover6 (i : S4096x32.Idx) :
    ∃ t : Fin cfg6.N, (cfg6.win 2).flush t = true ∧ i ∈ ((cfg6.win 2).blk t).view.set := by
  have hi0 : (i 0).val < 4096 := (i 0).isLt
  have hi1 : (i 1).val < 32 := (i 1).isLt
  let t : Fin cfg6.N := ⟨(i 0).val / 2048, by show _ < grid6.N; rw [N_6]; omega⟩
  have ht : t.val = (i 0).val / 2048 := rfl
  obtain ⟨e0, e1, e2, e3, e4, e5⟩ := idx_facts6 t
  refine ⟨t, flush6_2 t, ?_⟩
  show i ∈ ((View.whole main_v13).slice (win6_2.rect t)).set
  rw [View.set_slice_whole, Rect.mem_set_unit]
  intro a
  match a with
  | ⟨0, _⟩ => show win6_2.index t (0 : Fin 2) * 2048 ≤ (i 0).val ∧ (i 0).val < win6_2.index t (0 : Fin 2) * 2048 + 2048; omega
  | ⟨1, _⟩ => show win6_2.index t (1 : Fin 2) * 32 ≤ (i 1).val ∧ (i 1).val < win6_2.index t (1 : Fin 2) * 32 + 32; omega

theorem value6 :
    (dat6 (F := Ideal) V c).arrAt 2 cfg6.N = Cert.Spec.mm (V c main_v5) (V c main_v11) :=
  (dat6 V c).arrAt_eq_of_cover 2 _ (fun t _ => flushed6_eq V c t) cover6

end Value6

end Cert.ReferenceIdeal.Hand

end
-- ==== Proof.RefAgg7Runs.lean ====
import proofs.«180555_g2000006695542353_pallasbulk_342_5_alg».proof.Proof.Gen.ReferenceIdeal.Launch
import proofs.«180555_g2000006695542353_pallasbulk_342_5_alg».proof.Proof.Gen.ReferenceIdeal.Skeleton
import proofs.«180555_g2000006695542353_pallasbulk_342_5_alg».proof.Proof.Gen.ReferenceIdeal.Points
import proofs.«180555_g2000006695542353_pallasbulk_342_5_alg».proof.Proof.Spec
import proofs.«180555_g2000006695542353_pallasbulk_342_5_alg».proof.Proof.LibDotPlain
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

noncomputable section

namespace Cert.ReferenceIdeal.Hand

open Idealize.ShloMosaic Idealize.ShloMosaic.TcCoe
open Idealize.SL Idealize.SL.RA Idealize.SL.BI
open scoped Idealize.SL.BI
open Idealize.SL.BI.BIBase
open Cert.ReferenceIdeal Cert.ReferenceIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev cond7_0 (i : grid7.Coords) : Prop := (Scalar.cmpi .ne (Scalar.extui (Scalar.cmpi .eq (BitVec.ofNat 32 (i 1).val) 0#32)) 0#32) = 1#1
-- The first contraction step is taken at the even points,
theorem hcond7_0 : ∀ t : Fin cfg7.N, cond7_0 (grid7.coords t) ↔ t.val % 2 = 0 :=
  (by decide +kernel : ∀ t : Fin grid7.N, cond7_0 (grid7.coords t) ↔ t.val % 2 = 0)

abbrev cond7_1 (i : grid7.Coords) : Prop := k7_cond2 i = 1#1
-- the last at the odd points.
theorem hcond7_1 : ∀ t : Fin cfg7.N, cond7_1 (grid7.coords t) ↔ t.val % 2 = 1 :=
  (by decide +kernel : ∀ t : Fin grid7.N, cond7_1 (grid7.coords t) ↔ t.val % 2 = 1)

theorem idleAt7_3_A : ∀ t : Fin cfg7.N, cond7_0 (grid7.coords t) → ¬cond7_1 (grid7.coords t) → cfg7.idle 3 (grid7.coords t) = true := by decide +kernel
theorem noFlush7_3_A : ∀ t : Fin cfg7.N, cond7_0 (grid7.coords t) → ¬cond7_1 (grid7.coords t) → (cfg7.win 3).flush t = false := by decide +kernel
theorem liveAt7_3_C : ∀ t : Fin cfg7.N, ¬cond7_0 (grid7.coords t) → cond7_1 (grid7.coords t) → cfg7.idle 3 (grid7.coords t) = false := by decide +kernel

abbrev VO7_3 : View sig .tc .vmem S512x32 .f32 := (Memref.whole cc7_stg3_0 : Memref sig .tc .vmem S512x32 .f32).view
abbrev ms7_0 (t : Fin cfg7.N) : Memref sig .tc .vmem S512x2048 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S2048x32 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x32 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S512x32 .f32 := win7_3.stage (cfg7.slots t 3)
abbrev hs7_3 (t : Fin cfg7.N) : (ms7_3 t).IsWhole := hstage7_3 ((cfg7.slots t 3).cast nbuf7_3)
abbrev scM7_0 : Memref sig .tc .vmem S512x32 .f32 := Memref.whole cc7_scratch0
abbrev VS7_0 : View sig .tc .vmem S512x32 .f32 := scM7_0.view

-- The class invariant with the accumulator owned at some contents.
theorem PhiA7_eq (c : Dev nD) :
    (Pipeline.ΦA spec7 c : sProp 𝕄)
      = iprop(iprop(iprop((∃ d, owns (c : Thread nD τ) scM7_0 fullShare d)) ∗ Pipeline.scopedRestBut spec7 c [cc7_scratch0]) ∗ (∃ r, prngReg c r)) := by
  unfold Pipeline.ΦA; rw [scopedRest7_split]; simp only [scM7_0, owns_whole]; rfl

end Cert.ReferenceIdeal.Hand

end
-- ==== Proof.RefAgg7RunA.lean ====
import proofs.«180555_g2000006695542353_pallasbulk_342_5_alg».proof.Proof.RefAgg7Runs

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.ReferenceIdeal Cert.ReferenceIdeal.Gen

variable {F : FTy → Type} [FloatOps F]

local notation "𝕄" => MT nD τ sig Unit (Elt F) ℕ (UR sig nD τ) ℕ

noncomputable def kernelRun7_A (c : Dev nD) (i : grid7.Coords) (arg2 : Memref sig .tc .vmem S512x2048 .f32) (harg2 : arg2.IsWhole) (arg3 : Memref sig .tc .vmem S2048x32 .f32) (harg3 : arg3.IsWhole) (arg4 : Memref sig .tc .vmem S1x32 .f32) (harg4 : arg4.IsWhole) (arg5 : Memref sig .tc .vmem S512x32 .f32) (harg5 : arg5.IsWhole) (arg6 : Memref sig .tc .vmem S512x32 .f32) (harg6 : arg6.IsWhole) (hc0 : cond7_0 i) (hc1 : ¬cond7_1 i)
    (x0 : Vec F S512x2048 .f32) (x1 : Vec F S2048x32 .f32) (x2 : Vec F S1x32 .f32) :
    Σ' (L3 : List (View.Piece (Elt F) S512x32 .f32)), { LS0 : List (View.Piece (Elt F) S512x32 .f32) //
      ∀ (xi3 : Vec F S512x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc7__aggregate_kernel i arg2 harg2 arg3 harg3 arg4 harg4 arg5 harg5 arg6 harg6) K } := by
  refine ⟨[], ?_, fun xi3 E K => ?run⟩
  case run =>
    simp only [cc7__aggregate_kernel_eq_skeleton]; unfold cc7__aggregate_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.ReferenceIdeal.Hand

end
-- ==== Proof.RefAgg7RunC.lean ====
import proofs.«180555_g2000006695542353_pallasbulk_342_5_alg».proof.Proof.RefAgg7RunA

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.ReferenceIdeal Cert.ReferenceIdeal.Gen

variable {F : FTy → Type} [FloatOps F]

local notation "𝕄" => MT nD τ sig Unit (Elt F) ℕ (UR sig nD τ) ℕ

noncomputable def kernelRun7_C (c : Dev nD) (i : grid7.Coords) (arg2 : Memref sig .tc .vmem S512x2048 .f32) (harg2 : arg2.IsWhole) (arg3 : Memref sig .tc .vmem S2048x32 .f32) (harg3 : arg3.IsWhole) (arg4 : Memref sig .tc .vmem S1x32 .f32) (harg4 : arg4.IsWhole) (arg5 : Memref sig .tc .vmem S512x32 .f32) (harg5 : arg5.IsWhole) (arg6 : Memref sig .tc .vmem S512x32 .f32) (harg6 : arg6.IsWhole) (hc0 : ¬cond7_0 i) (hc1 : cond7_1 i)
    (x0 : Vec F S512x2048 .f32) (x1 : Vec F S2048x32 .f32) (x2 : Vec F S1x32 .f32) (xs0 : Vec F S512x32 .f32) :
    Σ' (L3 : List (View.Piece (Elt F) S512x32 .f32)), { LS0 : List (View.Piece (Elt F) S512x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc7__aggregate_kernel i arg2 harg2 arg3 harg3 arg4 harg4 arg5 harg5 arg6 harg6) K } := by
  refine ⟨?_, ?_, fun E K => ?run⟩
  case run =>
    simp only [cc7__aggregate_kernel_eq_skeleton]; unfold cc7__aggregate_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.ReferenceIdeal.Hand

end
-- ==== Proof.RefAgg7Frame.lean ====
import proofs.«180555_g2000006695542353_pallasbulk_342_5_alg».proof.Proof.RefAgg7RunC

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.ReferenceIdeal Cert.ReferenceIdeal.Gen

variable {F : FTy → Type} [FloatOps F]

local notation "𝕄" => MT nD τ sig Unit (Elt F) ℕ (UR sig nD τ) ℕ

theorem hz7 : (![0, 0] : Fin 2 → Nat) = fun _ => 0 := funext fun a => by fin_cases a <;> rfl

section Run

variable (c : Dev nD) (i : grid7.Coords) (arg2 : Memref sig .tc .vmem S512x2048 .f32) (harg2 : arg2.IsWhole) (arg3 : Memref sig .tc .vmem S2048x32 .f32) (harg3 : arg3.IsWhole) (arg4 : Memref sig .tc .vmem S1x32 .f32) (harg4 : arg4.IsWhole) (arg5 : Memref sig .tc .vmem S512x32 .f32) (harg5 : arg5.IsWhole) (arg6 : Memref sig .tc .vmem S512x32 .f32) (harg6 : arg6.IsWhole)
  (x0 : Vec F S512x2048 .f32) (x1 : Vec F S2048x32 .f32) (x2 : Vec F S1x32 .f32) (xs0 : Vec F S512x32 .f32)

section
variable (hc0 : cond7_0 i) (hc1 : ¬cond7_1 i)

-- A first step's two stores into the accumulator cover it.
theorem scover7_A_0 : ∀ y : S512x32.Idx, ∃ pc ∈ (kernelRun7_A c i arg2 harg2 arg3 harg3 arg4 harg4 arg5 harg5 arg6 harg6 hc0 hc1 x0 x1 x2).2.1, y ∈ pc.1.set :=
  View.cover_of_tiledL _ S512x32.size (by sl_kernel_rfl)

def sout7_A_0 : Vec F S512x32 .f32 :=
  VS7_0.read (Elt F) (VS7_0.writes (Elt F) VS7_0.junk (kernelRun7_A c i arg2 harg2 arg3 harg3 arg4 harg4 arg5 harg5 arg6 harg6 hc0 hc1 x0 x1 x2).2.1)

-- A first step leaves in the accumulator the accumulation step over the zero block.
theorem sout7_A_0_eq :
    sout7_A_0 c i arg2 harg2 arg3 harg3 arg4 harg4 arg5 harg5 arg6 harg6 x0 x1 x2 hc0 hc1 = k7_pay2 (k7_pay1 (F := F)) x0 x1 := by
  unfold sout7_A_0
  rw [View.read_writes_eq_canon _ _ _ (scover7_A_0 c i arg2 harg2 arg3 harg3 arg4 harg4 arg5 harg5 arg6 harg6 x0 x1 x2 hc0 hc1)]
  unfold kernelRun7_A
  dsimp only
  sl_unfold_words
  rw [View.canon_cons_unit_zero (S := S512x32) hz7, View.readCov_unit_zero (S := S512x32) _ hz7]
  simp only [View.readAt_eq_ld, harg2.read_unread, harg3.read_unread, View.ld_unit_zero (S := S512x2048) hz7, View.ld_unit_zero (S := S2048x32) hz7]
end

variable (hc0 : ¬cond7_0 i) (hc1 : cond7_1 i)

-- A last step's store into the output's buffer covers it.
theorem cover7_C_3 : ∀ y : S512x32.Idx, ∃ pc ∈ (kernelRun7_C c i arg2 harg2 arg3 harg3 arg4 harg4 arg5 harg5 arg6 harg6 hc0 hc1 x0 x1 x2 xs0).1, y ∈ pc.1.set :=
  View.cover_of_tiledL _ S512x32.size (by sl_kernel_rfl)

def out7_C_3 : Vec F S512x32 .f32 :=
  VO7_3.read (Elt F) (VO7_3.writes (Elt F) VO7_3.junk (kernelRun7_C c i arg2 harg2 arg3 harg3 arg4 harg4 arg5 harg5 arg6 harg6 hc0 hc1 x0 x1 x2 xs0).1)

-- A last step leaves in the output's buffer the output step of the accumulation step over `xs0`.
theorem out7_C_3_eq :
    out7_C_3 c i arg2 harg2 arg3 harg3 arg4 harg4 arg5 harg5 arg6 harg6 x0 x1 x2 xs0 hc0 hc1 = k7_pay3 (k7_pay2 xs0 x0 x1) x2 := by
  unfold out7_C_3
  rw [View.read_writes_eq_canon _ _ _ (cover7_C_3 c i arg2 harg2 arg3 harg3 arg4 harg4 arg5 harg5 arg6 harg6 x0 x1 x2 xs0 hc0 hc1)]
  unfold kernelRun7_C
  dsimp only
  sl_unfold_words
  rw [View.canon_unit_zero hz7]
  simp only [View.readAt_eq_ld, View.readCov_unit_zero (S := S512x32) _ hz7, harg2.read_unread, harg3.read_unread, harg4.read_unread, harg6.read_unread, View.ld_unit_zero (S := S512x32) hz7, View.ld_unit_zero (S := S512x2048) hz7, View.ld_unit_zero (S := S2048x32) hz7, View.ld_unit_zero (S := S1x32) hz7]

end Run

variable (V : (c : Dev nD) → (b : Ref sig .tc) → Buf (Elt F) ((c : Thread nD τ).loc b)) (c : Dev nD)

theorem condA7 {t : Fin cfg7.N} (h0 : t.val % 2 = 0) : cond7_0 (grid7.coords t) ∧ ¬cond7_1 (grid7.coords t) :=
  ⟨(hcond7_0 t).mpr h0, fun h => by have := (hcond7_1 t).mp h; omega⟩
theorem condC7 {t : Fin cfg7.N} (h0 : ¬t.val % 2 = 0) : ¬cond7_0 (grid7.coords t) ∧ cond7_1 (grid7.coords t) :=
  ⟨fun h => h0 ((hcond7_0 t).mp h), (hcond7_1 t).mpr (by omega)⟩

-- What an even point leaves in the accumulator: the first step on the point's blocks.
def acc7 (t : Fin cfg7.N) (h0 : t.val % 2 = 0) : Vec F S512x32 .f32 :=
  sout7_A_0 c (grid7.coords t) (ms7_0 t) (hs7_0 t) (ms7_1 t) (hs7_1 t) (ms7_2 t) (hs7_2 t) (ms7_3 t) (hs7_3 t) scM7_0 (Memref.isWhole_whole _) (iblk7 V c 0 t) (iblk7 V c 1 t) (iblk7 V c 2 t) (condA7 h0).1 (condA7 h0).2

-- What point t leaves in the output's buffer: at odd t the last step over what point t - 1 accumulated (immaterial at even t).
def out7 (t : Fin cfg7.N) : Vec F S512x32 .f32 :=
  if h0 : t.val % 2 = 0 then acc7 V c t h0
  else out7_C_3 c (grid7.coords t) (ms7_0 t) (hs7_0 t) (ms7_1 t) (hs7_1 t) (ms7_2 t) (hs7_2 t) (ms7_3 t) (hs7_3 t) scM7_0 (Memref.isWhole_whole _) (iblk7 V c 0 t) (iblk7 V c 1 t) (iblk7 V c 2 t)
    (acc7 V c ⟨t.val - 1, Nat.lt_of_le_of_lt (Nat.sub_le _ _) t.isLt⟩ (by show (t.val - 1) % 2 = 0; omega)) (condC7 h0).1 (condC7 h0).2

-- The invariant before position n: at odd n the accumulator holds what point n - 1 left, at even n anything.
def PhiS7 (n : ℕ) (hn : n ≤ cfg7.N) : sProp 𝕄 :=
  if h0 : n % 2 = 0 then Pipeline.ΦA spec7 c
  else iprop(iprop(iprop(owns (c : Thread nD τ) scM7_0 fullShare (acc7 V c ⟨n - 1, by omega⟩ (by show (n - 1) % 2 = 0; omega))) ∗ Pipeline.scopedRestBut spec7 c [cc7_scratch0]) ∗ (∃ r, prngReg c r))

def dat7 : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7 V c t
  Φ t := PhiS7 V c t.val (Nat.le_of_lt_succ t.isLt)
  q _ := fullShare
  owed _ := 0

theorem A_eq7 (w : Fin cfg7.W) : (dat7 V c).A w = V c (Pipeline.arrRef spec7 w) := rfl

theorem before7 (t : Fin cfg7.N) : (∀ d, (dat7 V c).before 0 t d = iblk7 V c 0 t) ∧ (∀ d, (dat7 V c).before 1 t d = iblk7 V c 1 t)
    ∧ ∀ d, (dat7 V c).before 2 t d = iblk7 V c 2 t :=
  ⟨fun d => ((dat7 V c).before_in_eq_fetched 0 rfl (fun _ => rfl) (fun _ _ _ => rfl) (fun _ => rfl) t d).trans rfl,
   fun d => ((dat7 V c).before_in_eq_fetched 1 rfl (fun _ => rfl) (fun _ _ _ => rfl) (fun _ => rfl) t d).trans rfl,
   fun d => ((dat7 V c).before_in_eq_fetched 2 rfl (fun _ => rfl) (fun _ _ _ => rfl) (fun _ => rfl) t d).trans rfl⟩

theorem sound_body7 (t : Fin cfg7.N) :
    iprop(PhiS7 V c t.val (Nat.le_of_lt t.isLt) ∗ (dat7 V c).owesAt () t.castSucc
      ∗ (∃ d, owns (c : Thread nD τ) (ms7_0 t) fullShare ((dat7 V c).before 0 t d))
      ∗ (∃ d, owns (c : Thread nD τ) (ms7_1 t) fullShare ((dat7 V c).before 1 t d))
      ∗ (∃ d, owns (c : Thread nD τ) (ms7_2 t) fullShare ((dat7 V c).before 2 t d))
      ∗ (∃ d, owns (c : Thread nD τ) (ms7_3 t) fullShare ((dat7 V c).before 3 t d)))
    ⊢ wp frame (wpE (defs₀ (F := F)) Variants.none c none) Set.univ (bodyAt7 t) (fun _ =>
      iprop(PhiS7 V c (t.val + 1) t.isLt ∗ (dat7 V c).owesAt () t.castSucc
        ∗ owns (c : Thread nD τ) (ms7_0 t) fullShare (iblk7 V c 0 t)
        ∗ owns (c : Thread nD τ) (ms7_1 t) fullShare (iblk7 V c 1 t)
        ∗ owns (c : Thread nD τ) (ms7_2 t) fullShare (iblk7 V c 2 t)
        ∗ (dat7 V c).leavesExact 3 t)) := by
  simp only [before7 V c t]
  unfold PhiS7 bodyAt7
  by_cases h0 : t.val % 2 = 0
  · rw [dif_pos h0, dif_neg (show ¬(t.val + 1) % 2 = 0 by omega), PhiA7_eq,
      Dat.leavesExact_idle (dat7 V c) 3 t (idleAt7_3_A t (condA7 h0).1 (condA7 h0).2) (noFlush7_3_A t (condA7 h0).1 (condA7 h0).2)]
    unfold acc7 sout7_A_0
    iintro ⟨⟨⟨HS, Hr⟩, Hg⟩, Ho, ⟨%d0, H0⟩, ⟨%d1, H1⟩, ⟨%d2, H2⟩, ⟨%d3, H3⟩⟩
    iapply ((kernelRun7_A c (grid7.coords t) _ _ _ _ _ _ _ _ _ _ (condA7 h0).1 (condA7 h0).2 (iblk7 V c 0 t) (iblk7 V c 1 t) (iblk7 V c 2 t)).2.2 _ Set.univ _)
    iframe H0 H1 H2 H3 HS
    iintro ⟨H0, H1, H2, H3, ⟨%es, HS⟩⟩
    iframe Hr Hg Ho H0 H1 H2
    isplitl [HS]
    · unfold owns; iexists _; isplitr
      swap; · iexact HS
      ipureintro; exact View.read_writes_of_cover _ _ _ _ _ (scover7_A_0 (F := F) _ _ _ _ _ _ _ _ _ _ _ _ _ _ _ _ _)
    iexists _; iexact H3
  · rw [dif_neg h0, dif_pos (show (t.val + 1) % 2 = 0 by omega), PhiA7_eq]
    unfold Dat.leavesExact; rw [liveAt7_3_C t (condC7 h0).1 (condC7 h0).2]
    rw [show (dat7 V c).after 3 t = out7 V c t from rfl]; unfold out7; rw [dif_neg h0]
    iintro ⟨⟨⟨HS, Hr⟩, Hg⟩, Ho, ⟨%d0, H0⟩, ⟨%d1, H1⟩, ⟨%d2, H2⟩, ⟨%d3, H3⟩⟩
    iapply ((kernelRun7_C c (grid7.coords t) _ _ _ _ _ _ _ _ _ _ (condC7 h0).1 (condC7 h0).2 (iblk7 V c 0 t) (iblk7 V c 1 t) (iblk7 V c 2 t) _).2.2 Set.univ _)
    iframe H0 H1 H2 HS
    isplitl [H3]; · iexists _; iexact H3
    iintro ⟨H0, H1, H2, ⟨%e3, H3⟩, ⟨%es, HS⟩⟩
    iframe Hr Hg Ho H0 H1 H2
    isplitl [HS]
    · iexists _; unfold owns; iexists _; isplitr
      swap; · iexact HS
      ipureintro; rfl
    unfold owns; iexists _; isplitr
    swap; · iexact H3
    ipureintro; exact View.read_writes_of_cover _ _ _ _ _ (cover7_C_3 (F := F) _ _ _ _ _ _ _ _ _ _ _ _ _ _ _ _ _ _)

theorem body_obligation7 : BodyObligation (dat7 (F := F) V c) (defs₀ (F := F)) Variants.none () Set.univ := fun t => by
  rw [bigSep_W7, bigSep_W7]
  exact sound_body7 V c t

theorem hin7 : Pipeline.ΦA spec7 c ⊢ (dat7 V c).Φ 0 := by
  show _ ⊢ PhiS7 V c 0 (Nat.zero_le _)
  unfold PhiS7; rw [dif_pos (Nat.zero_mod 2)]

theorem hout7 : (dat7 V c).Φ (Fin.last cfg7.N) ⊢ Pipeline.ΦA spec7 c := by
  show PhiS7 V c cfg7.N (Nat.le_refl _) ⊢ _
  unfold PhiS7; rw [dif_pos (show cfg7.N % 2 = 0 by decide)]

end Cert.ReferenceIdeal.Hand

end
-- ==== Proof.RefAgg7.lean ====
import proofs.«180555_g2000006695542353_pallasbulk_342_5_alg».proof.Proof.RefAgg7Frame
import Mathlib.Algebra.BigOperators.Fin

noncomputable section

namespace Cert.ReferenceIdeal.Hand

open Idealize.ShloMosaic Idealize.ShloMosaic.TcCoe Idealize.ShloMosaic.ValueIdx
open Cert.ReferenceIdeal Cert.ReferenceIdeal.Gen

theorem pay1_7_apply (j : S512x32.Idx) : (k7_pay1 (F := Ideal)) j = 0 := by
  unfold k7_pay1
  simp only [shapeCast_self]
  exact Ideal.ofBits_zero_f32

-- One accumulation step at an entry: what the accumulator held plus the block product's entry.
theorem pay2_7_apply (v3 : Vec Ideal S512x32 .f32) (v4 : Vec Ideal S512x2048 .f32) (v5 : Vec Ideal S2048x32 .f32)
    (p : Fin 512) (q : Fin 32) :
    k7_pay2 v3 v4 v5 (ix2 p q) = v3 (ix2 p q) + ∑ k : Fin 2048, v4 (ix2 p k) * v5 (ix2 k q) := by
  unfold k7_pay2
  simp only [shapeCast_self]
  show v3 (ix2 p q) + matmul (DotDims.plain 512 2048 32) none v4 v5 (constant (F := Ideal) ⟨2, ![512, 32]⟩ .f32 0x00000000#32) (ix2 p q) = _
  rw [Cert.LibDot.mm_plain]

-- The output step at an entry: the leaky rectifier of the accumulator plus the bias of the column.
theorem pay3_7_apply (v15 : Vec Ideal S512x32 .f32) (v16 : Vec Ideal S1x32 .f32) (p : Fin 512) (q : Fin 32) :
    k7_pay3 v15 v16 (ix2 p q) = Cert.Spec.lk (v15 (ix2 p q) + v16 (ix2 0 q)) := by
  unfold k7_pay3
  simp only [shapeCast_self]
  have hb : broadcastTo S512x32 v16 broadcasts_S1x32_S512x32 (ix2 p q) = v16 (ix2 0 q) :=
    broadcastTo_apply v16 broadcasts_S1x32_S512x32 (ix2 p q) (ix2 0 q) (fun a => by
      match a with
      | ⟨0, _⟩ => rfl
      | ⟨1, _⟩ => rfl)
  show Cert.Spec.lk (v15 (ix2 p q) + broadcastTo S512x32 v16 broadcasts_S1x32_S512x32 (ix2 p q)) = _
  rw [hb]

variable (V : (c : Dev nD) → (b : Ref sig .tc) → Buf (Elt Ideal) ((c : Thread nD τ).loc b)) (c : Dev nD)

abbrev adj7 : Cert.Spec.Mat 8192 4096 := V c main_arg24
abbrev sup7 : Cert.Spec.Mat 4096 32 := V c main_v13
abbrev bias7 : Cert.Spec.Mat 1 32 := V c main_v14
abbrev ablk7 (t : Fin cfg7.N) : Vec Ideal S512x2048 .f32 := iblk7 V c 0 t
abbrev sblk7 (t : Fin cfg7.N) : Vec Ideal S2048x32 .f32 := iblk7 V c 1 t
abbrev bblk7 (t : Fin cfg7.N) : Vec Ideal S1x32 .f32 := iblk7 V c 2 t

-- At point t = 2 i + k the adjacency's block is (i, k), the support's (k, 0), the bias's (0, 0), the output's (i, 0).
theorem idx_facts7 : ∀ t : Fin cfg7.N,
    win7_0.index t (0 : Fin 2) = t.val / 2 ∧ win7_0.index t (1 : Fin 2) = t.val % 2
    ∧ win7_1.index t (0 : Fin 2) = t.val % 2 ∧ win7_1.index t (1 : Fin 2) = 0
    ∧ win7_2.index t (0 : Fin 2) = 0 ∧ win7_2.index t (1 : Fin 2) = 0
    ∧ win7_3.index t (0 : Fin 2) = t.val / 2 ∧ win7_3.index t (1 : Fin 2) = 0 :=
  (by decide +kernel : ∀ t : Fin grid7.N, _)

theorem ablk7_apply (t : Fin cfg7.N) (p : Fin 512) (j : Fin 2048) (r : Fin 8192) (k : Fin 4096)
    (hr : r.val = 512 * (t.val / 2) + p.val) (hk : k.val = 2048 * (t.val % 2) + j.val) :
    ablk7 V c t (ix2 p j) = adj7 V c (ix2 r k) := by
  obtain ⟨e0, e1, -⟩ := idx_facts7 t
  show V c main_arg24 (((cfg7.win 0).blk t).view.emb (ix2 p j)) = V c main_arg24 (ix2 r k)
  congr 1
  funext a
  apply Fin.ext
  match a with
  | ⟨0, _⟩ => show win7_0.index t (0 : Fin 2) * 512 + 1 * p.val = r.val; rw [e0, hr]; omega
  | ⟨1, _⟩ => show win7_0.index t (1 : Fin 2) * 2048 + 1 * j.val = k.val; rw [e1, hk]; omega

theorem sblk7_apply (t : Fin cfg7.N) (j : Fin 2048) (q : Fin 32) (k : Fin 4096)
    (hk : k.val = 2048 * (t.val % 2) + j.val) :
    sblk7 V c t (ix2 j q) = sup7 V c (ix2 k q) := by
  obtain ⟨-, -, e2, e3, -⟩ := idx_facts7 t
  show V c main_v13 (((cfg7.win 1).blk t).view.emb (ix2 j q)) = V c main_v13 (ix2 k q)
  congr 1
  funext a
  apply Fin.ext
  match a with
  | ⟨0, _⟩ => show win7_1.index t (0 : Fin 2) * 2048 + 1 * j.val = k.val; rw [e2, hk]; omega
  | ⟨1, _⟩ => show win7_1.index t (1 : Fin 2) * 32 + 1 * q.val = q.val; rw [e3]; omega

theorem bblk7_apply (t : Fin cfg7.N) (q : Fin 32) :
    bblk7 V c t (ix2 0 q) = bias7 V c (ix2 0 q) := by
  obtain ⟨-, -, -, -, e4, e5, -⟩ := idx_facts7 t
  show V c main_v14 (((cfg7.win 2).blk t).view.emb (ix2 0 q)) = V c main_v14 (ix2 0 q)
  congr 1
  funext a
  apply Fin.ext
  match a with
  | ⟨0, _⟩ => show win7_2.index t (0 : Fin 2) * 1 + 1 * 0 = 0; rw [e4]
  | ⟨1, _⟩ => show win7_2.index t (1 : Fin 2) * 32 + 1 * q.val = q.val; rw [e5]; omega

-- Row r of the adjacency times column q of the support, over the contraction positions of column block b only.
def part7 (r : Fin 8192) (q : Fin 32) (b : ℕ) (hb : b < 2) : EReal :=
  ∑ j : Fin 2048, adj7 V c (ix2 r ⟨2048 * b + j.val, by have := j.isLt; omega⟩) * sup7 V c (ix2 ⟨2048 * b + j.val, by have := j.isLt; omega⟩ q)

theorem blockprod7 (t : Fin cfg7.N) (p : Fin 512) (q : Fin 32) (r : Fin 8192)
    (hr : r.val = 512 * (t.val / 2) + p.val) (b : ℕ) (hb : b < 2) (hbt : t.val % 2 = b) :
    ∑ k : Fin 2048, ablk7 V c t (ix2 p k) * sblk7 V c t (ix2 k q) = part7 V c r q b hb := by
  unfold part7
  refine Finset.sum_congr rfl fun j _ => ?_
  rw [ablk7_apply V c t p j r ⟨2048 * b + j.val, by have := j.isLt; omega⟩ hr (by rw [hbt]),
    sblk7_apply V c t j q ⟨2048 * b + j.val, by have := j.isLt; omega⟩ (by rw [hbt])]

theorem sum_two_blocks7 (f : Fin 4096 → EReal) :
    ∑ k : Fin 4096, f k
      = (∑ j : Fin 2048, f ⟨2048 * 0 + j.val, by have := j.isLt; omega⟩) + ∑ j : Fin 2048, f ⟨2048 * 1 + j.val, by have := j.isLt; omega⟩ := by
  refine (Fin.sum_univ_add (M := EReal) (a := 2048) (b := 2048) f).trans ?_
  congr 1 <;> refine Finset.sum_congr rfl fun j _ => congrArg f (Fin.ext ?_)

-- After an even point the accumulator holds the first column block's partial product.
theorem acc7_even (t : Fin cfg7.N) (h0 : t.val % 2 = 0) (p : Fin 512) (q : Fin 32) (r : Fin 8192)
    (hr : r.val = 512 * (t.val / 2) + p.val) :
    acc7 V c t h0 (ix2 p q) = 0 + part7 V c r q 0 (by decide) := by
  unfold acc7
  rw [sout7_A_0_eq]
  refine (pay2_7_apply (k7_pay1 (F := Ideal)) (ablk7 V c t) (sblk7 V c t) p q).trans ?_
  rw [pay1_7_apply, blockprod7 V c t p q r hr 0 (by decide) h0]

-- After an odd point the output's buffer holds, at (p, q), the layer's entry (512 (t / 2) + p, q).
theorem out7_odd (t : Fin cfg7.N) (h0 : ¬t.val % 2 = 0) (p : Fin 512) (q : Fin 32) (r : Fin 8192)
    (hr : r.val = 512 * (t.val / 2) + p.val) :
    out7 V c t (ix2 p q) = Cert.Spec.gcn (adj7 V c) (sup7 V c) (bias7 V c) (ix2 r q) := by
  unfold out7
  rw [dif_neg h0, out7_C_3_eq]
  refine (pay3_7_apply _ (bblk7 V c t) p q).trans ?_
  rw [pay2_7_apply _ (ablk7 V c t) (sblk7 V c t) p q, blockprod7 V c t p q r hr 1 (by decide) (by omega),
    acc7_even V c _ _ p q r (by show r.val = 512 * ((t.val - 1) / 2) + p.val; omega), bblk7_apply V c t q]
  show _ = Cert.Spec.lk ((∑ k : Fin 4096, adj7 V c (ix2 r k) * sup7 V c (ix2 k q)) + bias7 V c (ix2 0 q))
  rw [sum_two_blocks7 (fun k => adj7 V c (ix2 r k) * sup7 V c (ix2 k q)), zero_add]
  rfl

-- At an odd point the output's block is the corresponding block of the layer's result.
theorem flushed7_eq (t : Fin cfg7.N) (hf : (cfg7.win 3).flush t = true) :
    (dat7 V c).flushed 3 t = ((cfg7.win 3).blk t).view.read (Elt Ideal) (Cert.Spec.gcn (V c main_arg24) (V c main_v13) (V c main_v14)) := by
  have h1 : t.val % 2 = 1 := (flush7_3 t).mp hf
  obtain ⟨-, -, -, -, -, -, e6, e7⟩ := idx_facts7 t
  have hN : t.val < 32 := lt_of_lt_of_eq t.isLt (show cfg7.N = 32 from N_7)
  funext y
  have hy0 : (y 0).val < 512 := (y 0).isLt
  show out7 V c t y = Cert.Spec.gcn (adj7 V c) (sup7 V c) (bias7 V c) (((cfg7.win 3).blk t).view.emb y)
  have he : ((cfg7.win 3).blk t).view.emb y = ix2 (⟨512 * (t.val / 2) + (y 0).val, by omega⟩ : Fin 8192) (y 1) := by
    funext a
    apply Fin.ext
    match a with
    | ⟨0, _⟩ => show win7_3.index t (0 : Fin 2) * 512 + 1 * (y 0).val = 512 * (t.val / 2) + (y 0).val; rw [e6]; omega
    | ⟨1, _⟩ => show win7_3.index t (1 : Fin 2) * 32 + 1 * (y 1).val = (y 1).val; rw [e7]; omega
  rw [he]
  refine (congrArg (out7 V c t) (@eq_ix2 512 32 y)).trans ?_
  exact out7_odd V c t (by omega) (y 0) (y 1) _ rfl

theorem mem_blk7 (t : Fin cfg7.N) (i : S8192x32.Idx) :
    i ∈ ((cfg7.win 3).blk t).view.set ↔ ∀ a : Fin 2, win7_3.index t a * S512x32.size a ≤ (i a).val ∧ (i a).val < win7_3.index t a * S512x32.size a + S512x32.size a := by
  show i ∈ ((View.whole main_v15).slice (win7_3.rect t)).set ↔ _
  rw [View.set_slice_whole, Rect.mem_set_unit]
  exact Iff.rfl

-- Row r of the output array lies in the block of the odd point of row block r / 512.
theorem cover7 (i : S8192x32.Idx) : ∃ t : Fin cfg7.N, (cfg7.win 3).flush t = true ∧ i ∈ ((cfg7.win 3).blk t).view.set := by
  have hi0 : (i 0).val < 8192 := (i 0).isLt
  have hi1 : (i 1).val < 32 := (i 1).isLt
  have hN : cfg7.N = 32 := N_7
  obtain ⟨t, ht⟩ : ∃ t : Fin cfg7.N, t.val = (i 0).val / 512 * 2 + 1 := ⟨⟨(i 0).val / 512 * 2 + 1, by rw [hN]; omega⟩, rfl⟩
  obtain ⟨-, -, -, -, -, -, e6, e7⟩ := idx_facts7 t
  refine ⟨t, (flush7_3 t).mpr (by rw [ht]; omega), ?_⟩
  rw [mem_blk7]
  intro a
  match a with
  | ⟨0, _⟩ => show win7_3.index t (0 : Fin 2) * 512 ≤ (i 0).val ∧ (i 0).val < win7_3.index t (0 : Fin 2) * 512 + 512; rw [e6, ht]; omega
  | ⟨1, _⟩ => show win7_3.index t (1 : Fin 2) * 32 ≤ (i 1).val ∧ (i 1).val < win7_3.index t (1 : Fin 2) * 32 + 32; rw [e7]; omega

-- The region's output array is the graph-convolution layer of the adjacency, the support and the bias.
theorem value7 :
    (dat7 (F := Ideal) V c).arrAt 3 cfg7.N = Cert.Spec.gcn (V c main_arg24) (V c main_v13) (V c main_v14) :=
  (dat7 V c).arrAt_eq_of_cover 3 _ (flushed7_eq V c) (cover7)

end Cert.ReferenceIdeal.Hand

end
-- ==== Proof.RefUnion8.lean ====
import proofs.«180555_g2000006695542353_pallasbulk_342_5_alg».proof.Proof.Gen.ReferenceIdeal.Launch
import proofs.«180555_g2000006695542353_pallasbulk_342_5_alg».proof.Proof.Gen.ReferenceIdeal.Skeleton
import proofs.«180555_g2000006695542353_pallasbulk_342_5_alg».proof.Proof.Gen.ReferenceIdeal.Points
import proofs.«180555_g2000006695542353_pallasbulk_342_5_alg».proof.Proof.Spec
import proofs.«180555_g2000006695542353_pallasbulk_342_5_alg».proof.Proof.LibDotPlain
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
noncomputable section
namespace Cert.ReferenceIdeal.Hand
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen
variable {F : FTy → Type} [FloatOps F]
local notation "𝕄" => MT nD τ sig Unit (Elt F) ℕ (UR sig nD τ) ℕ

section Frame8
variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

def dat8 (c : Dev nD) : Dat τ (Elt F) Unit ℕ (UR sig nD τ) ℕ cfg8 c where
  A w := V c (Pipeline.arrRef spec8 w)
  after w t := match w with
    | ⟨9, _⟩ => k8_pay1 (iblk8 V c 0 t) (iblk8 V c 4 t) (iblk8 V c 2 t) (iblk8 V c 5 t) (iblk8 V c 1 t) (iblk8 V c 6 t) (iblk8 V c 3 t) (iblk8 V c 7 t) (iblk8 V c 8 t)
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => iblk8 V c 7 t
    | ⟨8, _⟩ => iblk8 V c 8 t
  Φ _ := Pipeline.ΦA spec8 c
  q _ := fullShare
  owed _ := 0

theorem A_eq8 (c : Dev nD) (w : Fin cfg8.W) : (dat8 V c).A w = V c (Pipeline.arrRef spec8 w) := rfl

theorem Phi_eq8 (c : Dev nD) (t : Fin (cfg8.N + 1)) : (dat8 V c).Φ t = Pipeline.ΦA spec8 c := rfl

/-- On an input window the body leaves what it finds. -/
theorem before8 (c : Dev nD) (t : Fin cfg8.N) : ∀ w : Fin cfg8.W, (cfg8.win w).isOut = false → ∀ d, (dat8 V c).before w t d = (dat8 V c).after w t
  | ⟨0, _⟩, h, d | ⟨1, _⟩, h, d | ⟨2, _⟩, h, d | ⟨3, _⟩, h, d | ⟨4, _⟩, h, d | ⟨5, _⟩, h, d | ⟨6, _⟩, h, d | ⟨7, _⟩, h, d | ⟨8, _⟩, h, d =>
    (dat8 V c).before_in_eq_fetched _ h (fun _ => rfl) (fun _ _ _ => rfl) (fun _ => rfl) t d
  | ⟨9, _⟩, h, _ => Bool.noConfusion h

theorem hz8 : (![0, 0] : Fin 2 → Nat) = fun _ => 0 := funext fun a => by fin_cases a <;> rfl

set_option maxHeartbeats 1000000 in
/-- The body's only store is the payload over the whole output block: each input keeps its contents and the output ends at the payload. -/
theorem body_obligation8 (c : Dev nD) : BodyObligation (dat8 (F := F) V c) (defs₀ (F := F)) Variants.none () Set.univ := fun t => by
  rw [bigSep_W8, bigSep_W8, Phi_eq8, Phi_eq8, show (dat8 V c).owesAt () t.succ = (dat8 V c).owesAt () t.castSucc from rfl]
  simp (disch := exact rfl) only [before8 V c t]
  change _ ⊢ wp _ _ _ (bodyAt8 t) _
  unfold bodyAt8
  simp only [cc8__union_kernel_eq_skeleton]; unfold cc8__union_kernel_skel owns
  iintro ⟨HΦ, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩, ⟨%d9, %f9, -, H9⟩⟩
  sl_exec
  sl_step
  isplitl [HΦ]; · iexact HΦ
  isplitl [Ho]; · iexact Ho
  isplitl [H0]
  · iexists f0; isplitr; · ipureintro; exact h0
    iexact H0
  isplitl [H1]
  · iexists f1; isplitr; · ipureintro; exact h1
    iexact H1
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists f6; isplitr; · ipureintro; exact h6
    iexact H6
  isplitl [H7]
  · iexists f7; isplitr; · ipureintro; exact h7
    iexact H7
  isplitl [H8]
  · iexists f8; isplitr; · ipureintro; exact h8
    iexact H8
  iexists _; isplitr
  swap; · iexact H9
  ipureintro
  sl_unfold_run_names
  rw [View.read_writes_eq_canon _ _ _ fun y => ⟨_, List.mem_singleton_self _, View.mem_set_unit_zero hz8 inb_S1024x32_S1024x32_0_0 y⟩, View.canon_unit_zero hz8]
  simp only [View.readAt_eq_ld, View.ld_unit_zero (S := S1024x32) hz8, View.ld_unit_zero (S := S32x32) hz8, View.ld_unit_zero (S := S1024x16) hz8,
    View.ld_unit_zero (S := S16x32) hz8, View.ld_unit_zero (S := S1x32) hz8, h0, h1, h2, h3, h4, h5, h6, h7, h8]
  rfl

end Frame8

/-- Entry (p, q) of the stored value: four plain matrix products into zero accumulators and the bias row, added in the body's order. -/
theorem pay8_apply (x0 : Vec Ideal S1024x32 .f32) (w0 : Vec Ideal S32x32 .f32) (x2 : Vec Ideal S1024x16 .f32)
    (w2 : Vec Ideal S16x32 .f32) (x1 : Vec Ideal S1024x32 .f32) (w1 : Vec Ideal S32x32 .f32)
    (x3 : Vec Ideal S1024x16 .f32) (w3 : Vec Ideal S16x32 .f32) (b : Vec Ideal S1x32 .f32) (p : Fin 1024) (q : Fin 32) :
    k8_pay1 x0 w0 x2 w2 x1 w1 x3 w3 b (ix2 p q)
      = (∑ k : Fin 32, x0 (ix2 p k) * w0 (ix2 k q)) + (∑ k : Fin 16, x2 (ix2 p k) * w2 (ix2 k q))
        + (∑ k : Fin 32, x1 (ix2 p k) * w1 (ix2 k q)) + (∑ k : Fin 16, x3 (ix2 p k) * w3 (ix2 k q)) + b (ix2 0 q) := by
  unfold k8_pay1
  simp only [shapeCast_self, addf_apply]
  rw [broadcastTo_apply b _ _ (ix2 0 q) fun a => match a with | ⟨0, _⟩ => rfl | ⟨1, _⟩ => rfl,
    show dot_S1024x32_S32x32_S1024x32_1_0_0_1_n_n = DotDims.plain 1024 32 32 from rfl,
    show dot_S1024x16_S16x32_S1024x32_1_0_0_1_n_n = DotDims.plain 1024 16 32 from rfl,
    Cert.LibDot.mm_plain 1024 32 32 x0 w0 p q, Cert.LibDot.mm_plain 1024 16 32 x2 w2 p q,
    Cert.LibDot.mm_plain 1024 32 32 x1 w1 p q, Cert.LibDot.mm_plain 1024 16 32 x3 w3 p q]

theorem idx_facts8 : ∀ t : Fin cfg8.N,
    win8_0.index t (0 : Fin 2) = win8_9.index t (0 : Fin 2) ∧ win8_0.index t (1 : Fin 2) = 0
    ∧ win8_1.index t (0 : Fin 2) = win8_9.index t (0 : Fin 2) ∧ win8_1.index t (1 : Fin 2) = 0
    ∧ win8_2.index t (0 : Fin 2) = win8_9.index t (0 : Fin 2) ∧ win8_2.index t (1 : Fin 2) = 0
    ∧ win8_3.index t (0 : Fin 2) = win8_9.index t (0 : Fin 2) ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0
    ∧ win8_6.index t (0 : Fin 2) = 0 ∧ win8_6.index t (1 : Fin 2) = 0
    ∧ win8_7.index t (0 : Fin 2) = 0 ∧ win8_7.index t (1 : Fin 2) = 0
    ∧ win8_8.index t (0 : Fin 2) = 0 ∧ win8_8.index t (1 : Fin 2) = 0
    ∧ win8_9.index t (1 : Fin 2) = 0 ∧ win8_9.index t (0 : Fin 2) ≤ 7 :=
  (by decide +kernel : ∀ t : Fin grid8.N, _)

theorem idx_onto8 : ∀ q0 : Fin 8, ∃ t : Fin cfg8.N, win8_9.index t = ![q0.val, 0] :=
  (by decide +kernel : ∀ q0 : Fin 8, ∃ t : Fin grid8.N, win8_9.index t = ![q0.val, 0])

/-- The block stored at point t is block t of the mixing layer: a row-tiled window's block is rows 1024 · t + p of its array, a whole window's block is its array. -/
theorem flushed8_eq (V : (c : Dev nD) → (b : Ref sig .tc) → Buf (Elt Ideal) ((c : Thread nD τ).loc b)) (c : Dev nD) (t : Fin cfg8.N) :
    (dat8 (F := Ideal) V c).flushed 9 t
      = ((cfg8.win 9).blk t).view.read (Elt Ideal) (Cert.Spec.union (V c main_v10) (V c main_v15) (V c main_arg20) (V c main_arg21) (V c main_v35) (V c main_v39) (V c main_v42) (V c main_v46) (V c main_v55)) := by
  obtain ⟨e00, e01, e10, e11, e20, e21, e30, e31, e40, e41, e50, e51, e60, e61, e70, e71, e80, e81, e91, e9b⟩ := idx_facts8 t
  funext j
  obtain ⟨p, q, rfl⟩ : ∃ (p : Fin 1024) (q : Fin 32), j = ix2 p q := ⟨j 0, j 1, eq_ix2 j⟩
  obtain ⟨r, hr⟩ : ∃ r, r = win8_9.index t (0 : Fin 2) * 1024 + p.val := ⟨_, rfl⟩
  have hb : r < 8192 := by have := p.isLt; omega
  have hi : ((cfg8.win 9).blk t).view.emb (ix2 p q) = ix2 ⟨r, hb⟩ q :=
    Shape.idx_ext₂ (show win8_9.index t (0 : Fin 2) * 1024 + 1 * p.val = r by omega) (show win8_9.index t (1 : Fin 2) * 32 + 1 * q.val = q.val by omega)
  have b0 (k : Fin 32) : iblk8 V c 0 t (ix2 p k) = V c main_v10 (ix2 ⟨r, hb⟩ k) := congrArg (V c main_v10)
    (Shape.idx_ext₂ (show win8_0.index t (0 : Fin 2) * 1024 + 1 * p.val = r by omega) (show win8_0.index t (1 : Fin 2) * 32 + 1 * k.val = k.val by omega))
  have b1 (k : Fin 32) : iblk8 V c 1 t (ix2 p k) = V c main_v15 (ix2 ⟨r, hb⟩ k) := congrArg (V c main_v15)
    (Shape.idx_ext₂ (show win8_1.index t (0 : Fin 2) * 1024 + 1 * p.val = r by omega) (show win8_1.index t (1 : Fin 2) * 32 + 1 * k.val = k.val by omega))
  have b2 (k : Fin 16) : iblk8 V c 2 t (ix2 p k) = V c main_arg20 (ix2 ⟨r, hb⟩ k) := congrArg (V c main_arg20)
    (Shape.idx_ext₂ (show win8_2.index t (0 : Fin 2) * 1024 + 1 * p.val = r by omega) (show win8_2.index t (1 : Fin 2) * 16 + 1 * k.val = k.val by omega))
  have b3 (k : Fin 16) : iblk8 V c 3 t (ix2 p k) = V c main_arg21 (ix2 ⟨r, hb⟩ k) := congrArg (V c main_arg21)
    (Shape.idx_ext₂ (show win8_3.index t (0 : Fin 2) * 1024 + 1 * p.val = r by omega) (show win8_3.index t (1 : Fin 2) * 16 + 1 * k.val = k.val by omega))
  have b4 (k : Fin 32) : iblk8 V c 4 t (ix2 k q) = V c main_v35 (ix2 k q) := congrArg (V c main_v35)
    (Shape.idx_ext₂ (show win8_4.index t (0 : Fin 2) * 32 + 1 * k.val = k.val by omega) (show win8_4.index t (1 : Fin 2) * 32 + 1 * q.val = q.val by omega))
  have b5 (k : Fin 16) : iblk8 V c 5 t (ix2 k q) = V c main_v42 (ix2 k q) := congrArg (V c main_v42)
    (Shape.idx_ext₂ (show win8_5.index t (0 : Fin 2) * 16 + 1 * k.val = k.val by omega) (show win8_5.index t (1 : Fin 2) * 32 + 1 * q.val = q.val by omega))
  have b6 (k : Fin 32) : iblk8 V c 6 t (ix2 k q) = V c main_v39 (ix2 k q) := congrArg (V c main_v39)
    (Shape.idx_ext₂ (show win8_6.index t (0 : Fin 2) * 32 + 1 * k.val = k.val by omega) (show win8_6.index t (1 : Fin 2) * 32 + 1 * q.val = q.val by omega))
  have b7 (k : Fin 16) : iblk8 V c 7 t (ix2 k q) = V c main_v46 (ix2 k q) := congrArg (V c main_v46)
    (Shape.idx_ext₂ (show win8_7.index t (0 : Fin 2) * 16 + 1 * k.val = k.val by omega) (show win8_7.index t (1 : Fin 2) * 32 + 1 * q.val = q.val by omega))
  have b8 : iblk8 V c 8 t (ix2 0 q) = V c main_v55 (ix2 0 q) := congrArg (V c main_v55)
    (Shape.idx_ext₂ (show win8_8.index t (0 : Fin 2) * 1 + 1 * 0 = 0 by omega) (show win8_8.index t (1 : Fin 2) * 32 + 1 * q.val = q.val by omega))
  refine (pay8_apply _ _ _ _ _ _ _ _ _ p q).trans ?_
  show _ = Cert.Spec.union _ _ _ _ _ _ _ _ _ (((cfg8.win 9).blk t).view.emb (ix2 p q))
  rw [hi]
  simp only [b0, b1, b2, b3, b4, b5, b6, b7, b8]
  rfl

/-- Every index of the output array lies in the block of the point whose row block is its row divided by 1024. -/
theorem cover8 (i : S8192x32.Idx) :
    ∃ t : Fin cfg8.N, (cfg8.win 9).flush t = true ∧ i ∈ ((cfg8.win 9).blk t).view.set := by
  have hi0 : (i 0).val < 8192 := (i 0).isLt
  have hi1 : (i 1).val < 32 := (i 1).isLt
  obtain ⟨t, ht⟩ := idx_onto8 ⟨(i 0).val / 1024, by omega⟩
  have q0 : win8_9.index t (0 : Fin 2) = (i 0).val / 1024 := congrFun ht 0
  have q1 : win8_9.index t (1 : Fin 2) = 0 := congrFun ht 1
  refine ⟨t, flush8_9 t, ?_⟩
  show i ∈ ((View.whole main_v56).slice (win8_9.rect t)).set
  rw [View.set_slice_whole, Rect.mem_set_unit]
  intro a
  match a with
  | ⟨0, _⟩ => show win8_9.index t (0 : Fin 2) * 1024 ≤ (i 0).val ∧ (i 0).val < win8_9.index t (0 : Fin 2) * 1024 + 1024; omega
  | ⟨1, _⟩ => show win8_9.index t (1 : Fin 2) * 32 ≤ (i 1).val ∧ (i 1).val < win8_9.index t (1 : Fin 2) * 32 + 32; omega

/-- Each point's block is a block of the one mixing layer, and the blocks cover the output array. -/
theorem value8 (V : (c : Dev nD) → (b : Ref sig .tc) → Buf (Elt Ideal) ((c : Thread nD τ).loc b)) (c : Dev nD) :
    (dat8 (F := Ideal) V c).arrAt 9 cfg8.N
      = Cert.Spec.union (V c main_v10) (V c main_v15) (V c main_arg20) (V c main_arg21) (V c main_v35) (V c main_v39) (V c main_v42) (V c main_v46) (V c main_v55) :=
  (dat8 (F := Ideal) V c).arrAt_eq_of_cover 9 _ (fun t _ => flushed8_eq V c t) cover8

end Cert.ReferenceIdeal.Hand

end
-- ==== Proof.RefAsm.lean ====
import proofs.«180555_g2000006695542353_pallasbulk_342_5_alg».proof.Proof.RefRun
import proofs.«180555_g2000006695542353_pallasbulk_342_5_alg».proof.Proof.Spec
import proofs.«180555_g2000006695542353_pallasbulk_342_5_alg».proof.Proof.RefHost
import proofs.«180555_g2000006695542353_pallasbulk_342_5_alg».proof.Proof.RefSup0
import proofs.«180555_g2000006695542353_pallasbulk_342_5_alg».proof.Proof.RefAgg1
import proofs.«180555_g2000006695542353_pallasbulk_342_5_alg».proof.Proof.RefSup2
import proofs.«180555_g2000006695542353_pallasbulk_342_5_alg».proof.Proof.RefAgg3
import proofs.«180555_g2000006695542353_pallasbulk_342_5_alg».proof.Proof.RefSup4
import proofs.«180555_g2000006695542353_pallasbulk_342_5_alg».proof.Proof.RefAgg5
import proofs.«180555_g2000006695542353_pallasbulk_342_5_alg».proof.Proof.RefSup6
import proofs.«180555_g2000006695542353_pallasbulk_342_5_alg».proof.Proof.RefAgg7
import proofs.«180555_g2000006695542353_pallasbulk_342_5_alg».proof.Proof.RefUnion8
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg Cfg Window BodyObligation cellOf)
open Cert.ReferenceIdeal Cert.ReferenceIdeal.Gen

local notation "𝕄" => MT nD τ sig Unit (Elt Ideal) ℕ (UR sig nD τ) ℕ

variable (m : (ℓ : Loc nD τ sig) → Buf (Elt Ideal) ℓ)

/-- Argument array r on core c. -/
abbrev ar (c : Dev nD) (r : Ref sig .tc) : Buf (Elt Ideal) ((c : Thread nD τ).loc r) := m ((c : Thread nD τ).loc r)

def o0 (c : Dev nD) : Cert.Spec.Mat 8192 32 := Cert.Spec.mm (ar m c main_arg20) (ar m c main_arg0)
def o1 (c : Dev nD) : Cert.Spec.Mat 4096 32 := Cert.Spec.gcn (ar m c main_arg23) (o0 m c) (RH.rB (ar m c main_arg1))
def o2 (c : Dev nD) : Cert.Spec.Mat 8192 32 := Cert.Spec.mm (ar m c main_arg21) (ar m c main_arg2)
def o3 (c : Dev nD) : Cert.Spec.Mat 4096 32 := Cert.Spec.gcn (ar m c main_arg25) (o2 m c) (RH.rB (ar m c main_arg3))
def o4 (c : Dev nD) : Cert.Spec.Mat 4096 32 := Cert.Spec.mm (o1 m c) (RH.cat1 (ar m c main_arg4) (ar m c main_arg6))
def o5 (c : Dev nD) : Cert.Spec.Mat 8192 32 := Cert.Spec.gcn (ar m c main_arg22) (o4 m c) (RH.rB (RH.cat0 (ar m c main_arg5) (ar m c main_arg7)))
def o6 (c : Dev nD) : Cert.Spec.Mat 4096 32 := Cert.Spec.mm (o3 m c) (RH.cat1 (ar m c main_arg8) (ar m c main_arg10))
def o7 (c : Dev nD) : Cert.Spec.Mat 8192 32 := Cert.Spec.gcn (ar m c main_arg24) (o6 m c) (RH.rB (RH.cat0 (ar m c main_arg9) (ar m c main_arg11)))
def o8 (c : Dev nD) : Cert.Spec.Mat 8192 32 :=
  Cert.Spec.union (o5 m c) (o7 m c) (ar m c main_arg20) (ar m c main_arg21)
    (RH.wcS (ar m c main_arg12) (ar m c main_arg14)) (RH.wcT (ar m c main_arg16) (ar m c main_arg18))
    (RH.wfS (ar m c main_arg12) (ar m c main_arg14)) (RH.wfT (ar m c main_arg16) (ar m c main_arg18))
    (RH.bU (ar m c main_arg13) (ar m c main_arg15) (ar m c main_arg17) (ar m c main_arg19))

/-- The nine regions' output arrays at the specification's values, every other buffer as launched. -/
def outs : Outs (F := Ideal) := fun _ =>
  Function.update (Function.update (Function.update (Function.update (Function.update (Function.update (Function.update (Function.update (Function.update
    (fun r c => ar m c r) main_v0 (o0 m)) main_v2 (o1 m)) main_v3 (o2 m)) main_v5 (o3 m)) main_v8 (o4 m)) main_v10 (o5 m)) main_v13 (o6 m)) main_v15 (o7 m)) main_v56 (o8 m)

/-- A valuation per core, read buffer by buffer. -/
abbrev ev (V : Dev nD → Valuation τ sig (Elt Ideal)) : (c : Dev nD) → (b : Ref sig .tc) → Buf (Elt Ideal) ((c : Thread nD τ).loc b) := fun c b => V c b

abbrev LL : GSem nD τ sig → Finset Unit := fun _ => ∅
abbrev lvv : GSem nD τ sig → Unit → ℕ := fun _ _ => 0
abbrev RR (c : Dev nD) : sProp 𝕄 := iprop((∃ r, prngReg c r) ∗ ∃ W, owes (c : Thread nD τ) (0 : CellTallies nD τ sig Unit) W)

/-- Every region's proof data, at the valuation the region is entered with. -/
def pdats : (p : Fin 9) → (c : Dev nD) → Dat τ (Elt Ideal) Unit ℕ (UR sig nD τ) ℕ (Pipeline.pin (pcfgs (F := Ideal)) adm p) c
  | ⟨0, _⟩ => dat0 (ev (V0 m))
  | ⟨1, _⟩ => dat1 (ev (V2 m (outs m)))
  | ⟨2, _⟩ => dat2 (ev (V3 m (outs m)))
  | ⟨3, _⟩ => dat3 (ev (V5 m (outs m)))
  | ⟨4, _⟩ => dat4 (ev (V7 m (outs m)))
  | ⟨5, _⟩ => dat5 (ev (V9 m (outs m)))
  | ⟨6, _⟩ => dat6 (ev (V11 m (outs m)))
  | ⟨7, _⟩ => dat7 (ev (V13 m (outs m)))
  | ⟨8, _⟩ => dat8 (ev (V19 m (outs m)))

set_option backward.isDefEq.respectTransparency.types false in
/-- A region over the thread state: entered with every unscoped buffer at Vi, left with them at Vo, when its arrays end
    at Vo's contents and Vo is Vi elsewhere; the generator register passes through the invariant; nothing is owed. -/
def reg (p : Fin 9) (lf : Pipeline.LaunchFacts (nD := nD) (τ := τ) cfgs p) (Vi Vo : (c : Dev nD) → Valuation τ sig (Elt Ideal))
    (hb : ∀ c, BodyObligation (pdats m p c) (defs₀ (F := Ideal)) Variants.none () Set.univ)
    (hq : ∀ c w, (pdats m p c).q w = fullShare) (hw : ∀ c t, (pdats m p c).owed t = 0) (hrc : ∀ c x, x ∈ (pdats m p c).recorded 0)
    (hA : ∀ c w, (pdats m p c).A w = Vi c (Pipeline.arrRef (pcfgs (F := Ideal) p).spec w))
    (hi : ∀ c, Pipeline.ΦA (pcfgs (F := Ideal) p).spec c ⊢ ((pdats m p c).Φ 0 : sProp 𝕄))
    (ho : ∀ c, ((pdats m p c).Φ (Fin.last (cfgs p).N) : sProp 𝕄) ⊢ Pipeline.ΦA (pcfgs (F := Ideal) p).spec c)
    (hF : ∀ c w, (pdats m p c).arrAt w (cfgs p).N = Vo c (Pipeline.arrRef (pcfgs (F := Ideal) p).spec w))
    (hr : ∀ c b, b ∉ Finset.univ.image (Pipeline.arrRef (pcfgs (F := Ideal) p).spec) → Vo c b = Vi c b) :
    Pipeline.RegionSeg (pcfgs (F := Ideal)) adm (pdats m) () defs₀ Variants.none LL lvv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ LL lvv p hw
  pre c := iprop(StableHlo.held (c : Thread nD τ) (Pipeline.ucRefs τ sig) (Vi c) ∗ RR c)
  post c := iprop(StableHlo.held (c : Thread nD τ) (Pipeline.ucRefs τ sig) (Vo c) ∗ RR c)
  X c := iprop(∃ r, prngReg c r)
  Y c := iprop(∃ r, prngReg c r)
  Z c := Pipeline.unscopedRest (Ix := Unit) (Name := ℕ) (U := UR sig nD τ) (Lvl := ℕ) (pcfgs (F := Ideal) p).spec c (ev Vi c)
  hentry c := by
    rw [Pipeline.ownSems0_none]
    have hsplit := Pipeline.arrays_of_unscopedBufs (p := p) (pcfgs (F := Ideal)) adm (pdats m) lf.win lf.arr_whole c
      ((pdats m p c).share_full (hq c)) (ev Vi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [hw c]
      icases HO with ⟨%W, HO⟩; iexists W; isplitr; · ipureintro; exact fun _ _ => Or.inl (hrc c _)
      iexact HO
    isplitl [Hp]; · iexact Hp
    iexact Hrest
  hin c := by
    refine BIBase.Entails.trans ?_ (hi c)
    unfold Pipeline.ΦA
    iintro ⟨Hp, -, Hr⟩
    isplitl [Hr]; · iexact Hr
    iexact Hp
  hout c := by
    refine BIBase.Entails.trans (ho c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := Ideal)) adm (Ix := Unit) (Name := ℕ) (U := UR sig nD τ) (Lvl := ℕ)
      lf.win lf.arr_whole c (pdats m) ((pdats m p c).share_full (hq c))
      (ev Vi c) (ev Vo c) ((pdats m p c).arrAt · (cfgs p).N) (hF c) (hr c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [hw c]
    icases HO with ⟨%W, -, HO⟩; iexists W; iexact HO

/-- A buffer that is no window's array is not the output window's. -/
theorem rest_of {W : ℕ} (f : Fin W → Ref sig .tc) (w : Fin W) {b : Ref sig .tc} (hb : b ∉ Finset.univ.image f) : b ∉ [f w] :=
  fun h => hb (List.mem_singleton.mp h ▸ Finset.mem_image_of_mem f (Finset.mem_univ w))

def reg0 := reg m 0 launch0 (V0 m) (V1 m (outs m)) (body_obligation0 (ev (V0 m))) (fun _ _ => rfl) (fun _ _ => rfl) (fun _ _ => trivial) (fun _ _ => rfl)
  (fun c => .of_eq (Phi_eq0 (ev (V0 m)) c 0).symm) (fun c => .of_eq (Phi_eq0 (ev (V0 m)) c _))
  (fun c => fun
    | ⟨0, _⟩ => ((dat0 (ev (V0 m)) c).arrAt_in 0 rfl _).trans (V1_of m (outs m) c main_arg20 (by decide)).symm
    | ⟨1, _⟩ => ((dat0 (ev (V0 m)) c).arrAt_in 1 rfl _).trans (V1_of m (outs m) c main_arg0 (by decide)).symm
    | ⟨2, _⟩ => (value0 (ev (V0 m)) c).trans rfl)
  (fun c b hb => V1_of m (outs m) c b (rest_of (Pipeline.arrRef spec0) 2 hb))

def reg1 := reg m 1 launch1 (V2 m (outs m)) (V3 m (outs m)) (body_obligation1 (ev (V2 m (outs m)))) (fun _ _ => rfl) (fun _ _ => rfl) (fun _ _ => trivial) (fun _ _ => rfl)
  (hin1 (ev (V2 m (outs m)))) (hout1 (ev (V2 m (outs m))))
  (fun c => fun
    | ⟨0, _⟩ => ((dat1 (ev (V2 m (outs m))) c).arrAt_in 0 rfl _).trans (V3_of m (outs m) c main_arg23 (by decide)).symm
    | ⟨1, _⟩ => ((dat1 (ev (V2 m (outs m))) c).arrAt_in 1 rfl _).trans (V3_of m (outs m) c main_v0 (by decide)).symm
    | ⟨2, _⟩ => ((dat1 (ev (V2 m (outs m))) c).arrAt_in 2 rfl _).trans (V3_of m (outs m) c main_v1 (by decide)).symm
    | ⟨3, _⟩ => (value1 (ev (V2 m (outs m))) c).trans (by dsimp only [ev]; rw [V2_arg23 m (outs m) c, V2_v0 m (outs m) c, V2_v1 m (outs m) c]; rfl))
  (fun c b hb => V3_of m (outs m) c b (rest_of (Pipeline.arrRef spec1) 3 hb))

def reg2 := reg m 2 launch2 (V3 m (outs m)) (V4 m (outs m)) (body_obligation2 (ev (V3 m (outs m)))) (fun _ _ => rfl) (fun _ _ => rfl) (fun _ _ => trivial) (fun _ _ => rfl)
  (fun c => .of_eq (Phi_eq2 (ev (V3 m (outs m))) c 0).symm) (fun c => .of_eq (Phi_eq2 (ev (V3 m (outs m))) c _))
  (fun c => fun
    | ⟨0, _⟩ => ((dat2 (ev (V3 m (outs m))) c).arrAt_in 0 rfl _).trans (V4_of m (outs m) c main_arg21 (by decide)).symm
    | ⟨1, _⟩ => ((dat2 (ev (V3 m (outs m))) c).arrAt_in 1 rfl _).trans (V4_of m (outs m) c main_arg2 (by decide)).symm
    | ⟨2, _⟩ => (value2 (ev (V3 m (outs m))) c).trans (by dsimp only [ev]; rw [V3_arg21 m (outs m) c, V3_arg2 m (outs m) c]; rfl))
  (fun c b hb => V4_of m (outs m) c b (rest_of (Pipeline.arrRef spec2) 2 hb))

def reg3 := reg m 3 launch3 (V5 m (outs m)) (V6 m (outs m)) (body_obligation3 (ev (V5 m (outs m)))) (fun _ _ => rfl) (fun _ _ => rfl) (fun _ _ => trivial) (fun _ _ => rfl)
  (hin3 (ev (V5 m (outs m)))) (hout3 (ev (V5 m (outs m))))
  (fun c => fun
    | ⟨0, _⟩ => ((dat3 (ev (V5 m (outs m))) c).arrAt_in 0 rfl _).trans (V6_of m (outs m) c main_arg25 (by decide)).symm
    | ⟨1, _⟩ => ((dat3 (ev (V5 m (outs m))) c).arrAt_in 1 rfl _).trans (V6_of m (outs m) c main_v3 (by decide)).symm
    | ⟨2, _⟩ => ((dat3 (ev (V5 m (outs m))) c).arrAt_in 2 rfl _).trans (V6_of m (outs m) c main_v4 (by decide)).symm
    | ⟨3, _⟩ => (value3 (ev (V5 m (outs m))) c).trans (by dsimp only [ev]; rw [V5_arg25 m (outs m) c, V5_v3 m (outs m) c, V5_v4 m (outs m) c]; rfl))
  (fun c b hb => V6_of m (outs m) c b (rest_of (Pipeline.arrRef spec3) 3 hb))

def reg4 := reg m 4 launch4 (V7 m (outs m)) (V8 m (outs m)) (body_obligation4 (ev (V7 m (outs m)))) (fun _ _ => rfl) (fun _ _ => rfl) (fun _ _ => trivial) (fun _ _ => rfl)
  (fun c => .of_eq (Phi_eq4 (ev (V7 m (outs m))) c 0).symm) (fun c => .of_eq (Phi_eq4 (ev (V7 m (outs m))) c _))
  (fun c => fun
    | ⟨0, _⟩ => ((dat4 (ev (V7 m (outs m))) c).arrAt_in 0 rfl _).trans (V8_of m (outs m) c main_v2 (by decide)).symm
    | ⟨1, _⟩ => ((dat4 (ev (V7 m (outs m))) c).arrAt_in 1 rfl _).trans (V8_of m (outs m) c main_v6 (by decide)).symm
    | ⟨2, _⟩ => (value4 (ev (V7 m (outs m))) c).trans (by dsimp only [ev]; rw [V7_v2 m (outs m) c, V7_v6 m (outs m) c]; rfl))
  (fun c b hb => V8_of m (outs m) c b (rest_of (Pipeline.arrRef spec4) 2 hb))

def reg5 := reg m 5 launch5 (V9 m (outs m)) (V10 m (outs m)) (body_obligation5 (ev (V9 m (outs m)))) (fun _ _ => rfl) (fun _ _ => rfl) (fun _ _ => trivial) (fun _ _ => rfl)
  (hin5 (ev (V9 m (outs m)))) (hout5 (ev (V9 m (outs m))))
  (fun c => fun
    | ⟨0, _⟩ => ((dat5 (ev (V9 m (outs m))) c).arrAt_in 0 rfl _).trans (V10_of m (outs m) c main_arg22 (by decide)).symm
    | ⟨1, _⟩ => ((dat5 (ev (V9 m (outs m))) c).arrAt_in 1 rfl _).trans (V10_of m (outs m) c main_v8 (by decide)).symm
    | ⟨2, _⟩ => ((dat5 (ev (V9 m (outs m))) c).arrAt_in 2 rfl _).trans (V10_of m (outs m) c main_v9 (by decide)).symm
    | ⟨3, _⟩ => (value5 (ev (V9 m (outs m))) c).trans (by dsimp only [ev]; rw [V9_arg22 m (outs m) c, V9_v8 m (outs m) c, V9_v9 m (outs m) c]; rfl))
  (fun c b hb => V10_of m (outs m) c b (rest_of (Pipeline.arrRef spec5) 3 hb))

def reg6 := reg m 6 launch6 (V11 m (outs m)) (V12 m (outs m)) (body_obligation6 (ev (V11 m (outs m)))) (fun _ _ => rfl) (fun _ _ => rfl) (fun _ _ => trivial) (fun _ _ => rfl)
  (fun c => .of_eq (Phi_eq6 (ev (V11 m (outs m))) c 0).symm) (fun c => .of_eq (Phi_eq6 (ev (V11 m (outs m))) c _))
  (fun c => fun
    | ⟨0, _⟩ => ((dat6 (ev (V11 m (outs m))) c).arrAt_in 0 rfl _).trans (V12_of m (outs m) c main_v5 (by decide)).symm
    | ⟨1, _⟩ => ((dat6 (ev (V11 m (outs m))) c).arrAt_in 1 rfl _).trans (V12_of m (outs m) c main_v11 (by decide)).symm
    | ⟨2, _⟩ => (value6 (ev (V11 m (outs m))) c).trans (by dsimp only [ev]; rw [V11_v5 m (outs m) c, V11_v11 m (outs m) c]; rfl))
  (fun c b hb => V12_of m (outs m) c b (rest_of (Pipeline.arrRef spec6) 2 hb))

def reg7 := reg m 7 launch7 (V13 m (outs m)) (V14 m (outs m)) (body_obligation7 (ev (V13 m (outs m)))) (fun _ _ => rfl) (fun _ _ => rfl) (fun _ _ => trivial) (fun _ _ => rfl)
  (hin7 (ev (V13 m (outs m)))) (hout7 (ev (V13 m (outs m))))
  (fun c => fun
    | ⟨0, _⟩ => ((dat7 (ev (V13 m (outs m))) c).arrAt_in 0 rfl _).trans (V14_of m (outs m) c main_arg24 (by decide)).symm
    | ⟨1, _⟩ => ((dat7 (ev (V13 m (outs m))) c).arrAt_in 1 rfl _).trans (V14_of m (outs m) c main_v13 (by decide)).symm
    | ⟨2, _⟩ => ((dat7 (ev (V13 m (outs m))) c).arrAt_in 2 rfl _).trans (V14_of m (outs m) c main_v14 (by decide)).symm
    | ⟨3, _⟩ => (value7 (ev (V13 m (outs m))) c).trans (by dsimp only [ev]; rw [V13_arg24 m (outs m) c, V13_v13 m (outs m) c, V13_v14 m (outs m) c]; rfl))
  (fun c b hb => V14_of m (outs m) c b (rest_of (Pipeline.arrRef spec7) 3 hb))

set_option maxHeartbeats 2000000 in
theorem hF8 (c : Dev nD) : ∀ w : Fin cfg8.W, (dat8 (ev (V19 m (outs m))) c).arrAt w cfg8.N = V20 m (outs m) c (Pipeline.arrRef spec8 w)
  | ⟨0, _⟩ => ((dat8 (ev (V19 m (outs m))) c).arrAt_in 0 rfl _).trans ((A_eq8 (ev (V19 m (outs m))) c 0).trans (V20_of m (outs m) c main_v10 (by decide)).symm)
  | ⟨1, _⟩ => ((dat8 (ev (V19 m (outs m))) c).arrAt_in 1 rfl _).trans ((A_eq8 (ev (V19 m (outs m))) c 1).trans (V20_of m (outs m) c main_v15 (by decide)).symm)
  | ⟨2, _⟩ => ((dat8 (ev (V19 m (outs m))) c).arrAt_in 2 rfl _).trans ((A_eq8 (ev (V19 m (outs m))) c 2).trans (V20_of m (outs m) c main_arg20 (by decide)).symm)
  | ⟨3, _⟩ => ((dat8 (ev (V19 m (outs m))) c).arrAt_in 3 rfl _).trans ((A_eq8 (ev (V19 m (outs m))) c 3).trans (V20_of m (outs m) c main_arg21 (by decide)).symm)
  | ⟨4, _⟩ => ((dat8 (ev (V19 m (outs m))) c).arrAt_in 4 rfl _).trans ((A_eq8 (ev (V19 m (outs m))) c 4).trans (V20_of m (outs m) c main_v35 (by decide)).symm)
  | ⟨5, _⟩ => ((dat8 (ev (V19 m (outs m))) c).arrAt_in 5 rfl _).trans ((A_eq8 (ev (V19 m (outs m))) c 5).trans (V20_of m (outs m) c main_v42 (by decide)).symm)
  | ⟨6, _⟩ => ((dat8 (ev (V19 m (outs m))) c).arrAt_in 6 rfl _).trans ((A_eq8 (ev (V19 m (outs m))) c 6).trans (V20_of m (outs m) c main_v39 (by decide)).symm)
  | ⟨7, _⟩ => ((dat8 (ev (V19 m (outs m))) c).arrAt_in 7 rfl _).trans ((A_eq8 (ev (V19 m (outs m))) c 7).trans (V20_of m (outs m) c main_v46 (by decide)).symm)
  | ⟨8, _⟩ => ((dat8 (ev (V19 m (outs m))) c).arrAt_in 8 rfl _).trans ((A_eq8 (ev (V19 m (outs m))) c 8).trans (V20_of m (outs m) c main_v55 (by decide)).symm)
  | ⟨9, _⟩ => (value8 (ev (V19 m (outs m))) c).trans (by dsimp only [ev]; rw [V19_v10 m (outs m) c, V19_v15 m (outs m) c, V19_arg20 m (outs m) c, V19_arg21 m (outs m) c, V19_v35 m (outs m) c, V19_v42 m (outs m) c, V19_v39 m (outs m) c, V19_v46 m (outs m) c, V19_v55 m (outs m) c]; rfl)

def reg8 := reg m 8 launch8 (V19 m (outs m)) (V20 m (outs m)) (body_obligation8 (ev (V19 m (outs m)))) (fun _ _ => rfl) (fun _ _ => rfl) (fun _ _ => trivial) (fun _ _ => rfl)
  (fun c => .of_eq (Phi_eq8 (ev (V19 m (outs m))) c 0).symm) (fun c => .of_eq (Phi_eq8 (ev (V19 m (outs m))) c _)) (hF8 m)
  (fun c b hb => V20_of m (outs m) c b (rest_of (Pipeline.arrRef spec8) 9 hb))

/-- The reference program's run: its two results end at the last valuation's contents, the arguments as launched. -/
def run_ref (ρ : Dev nD → PrngReg) :=
  GenP.run_cond (F := Ideal) m emb₁ () Variants.none LL lvv (fun _ _ => rfl) ρ (outs m) (pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => RR c)
    (hE0 := by
      refine Pipeline.initEach LL lvv fun c => ?_
      iintro ⟨⟨-, HO, -, Hp, -⟩, -⟩
      imodintro
      isplitl [Hp]; · iexists _; iexact Hp
      iexists ∅; iexact HO)
    (hE9 := fun c => by iintro ⟨-, H⟩; iexact H)
    (reg0 m) (fun _ => .rfl) (fun _ => .rfl) (reg1 m) (fun _ => .rfl) (fun _ => .rfl) (reg2 m) (fun _ => .rfl) (fun _ => .rfl)
    (reg3 m) (fun _ => .rfl) (fun _ => .rfl) (reg4 m) (fun _ => .rfl) (fun _ => .rfl) (reg5 m) (fun _ => .rfl) (fun _ => .rfl)
    (reg6 m) (fun _ => .rfl) (fun _ => .rfl) (reg7 m) (fun _ => .rfl) (fun _ => .rfl) (reg8 m) (fun _ => .rfl) (fun _ => .rfl)

end Cert.ReferenceIdeal.Hand

end
-- ==== Proof.RefRes.lean ====
import proofs.«180555_g2000006695542353_pallasbulk_342_5_alg».proof.Proof.RefAsm

set_option maxRecDepth 16384

noncomputable section

namespace Cert.ReferenceIdeal.Hand

open Idealize.ShloMosaic Idealize.ShloMosaic.TcCoe Idealize.SL.Sem
open Cert.ReferenceIdeal Cert.ReferenceIdeal.Gen

variable (m : (ℓ : Loc nD τ sig) → Buf (Elt Ideal) ℓ)

/-- The two results are the left and the right 16 columns of the mixing layer. -/
theorem res57 (c : Dev nD) : V21 m (outs m) c main_v57 = Cert.Spec.colsLo (o8 m c) := by
  rw [V21_v57 m (outs m) c, slLo_eq]; rfl
theorem res58 (c : Dev nD) : V21 m (outs m) c main_v58 = Cert.Spec.colsHi (o8 m c) := by
  rw [V21_v58 m (outs m) c, slHi_eq]; rfl

end Cert.ReferenceIdeal.Hand

end
-- ==== Proof.lean ====
import proofs.«180555_g2000006695542353_pallasbulk_342_5_alg».proof.Defs
import proofs.«180555_g2000006695542353_pallasbulk_342_5_alg».proof.Proof.Gen.Kernel
import proofs.«180555_g2000006695542353_pallasbulk_342_5_alg».proof.Proof.Gen.Kernel.Frame
import proofs.«180555_g2000006695542353_pallasbulk_342_5_alg».proof.Proof.Gen.KernelIdeal
import proofs.«180555_g2000006695542353_pallasbulk_342_5_alg».proof.Proof.Gen.KernelIdeal.Frame
import proofs.«180555_g2000006695542353_pallasbulk_342_5_alg».proof.Proof.Gen.ReferenceIdeal
import proofs.«180555_g2000006695542353_pallasbulk_342_5_alg».proof.Proof.Gen.Pre_finite_inputs
import proofs.«180555_g2000006695542353_pallasbulk_342_5_alg».proof.Proof.KerAsm
import proofs.«180555_g2000006695542353_pallasbulk_342_5_alg».proof.Proof.RefRes

set_option maxRecDepth 16384

noncomputable section

namespace Cert.Proof

open Idealize.ShloMosaic Idealize.ShloMosaic.TcCoe Idealize.SL.Sem
open Cert.ReferenceIdeal.Hand Cert.KernelIdeal.Hand

/-- The reference's frame is its run with the two results dropped. -/
theorem frame_ri : Cert.frame_ReferenceIdeal := fun m ρ _ =>
  (θ_run (Cert.ReferenceIdeal.defs (F := Ideal)) _ _).mono (fun _ h c => (h c).2.2) (run_ref m ρ)

set_option maxHeartbeats 4000000 in
/-- Both programs end with the left and the right 16 columns of one mixing layer: the reference's nine regions' values
    composed are the kernel program's three regions' values composed, the host-computed operands being the same printed
    operations in both programs. -/
theorem algebraic : Cert.algebraic_KernelIdeal_ReferenceIdeal := by
  intro m ρ m' ρ' _ hagree
  have net (c) : o8 m' c = kU m c := by
    obtain ⟨h0, h1, h2, h3, h4, h5, h6, h7, h8, h9, h10, h11, h12, h13, h14, h15, h16, h17, h18, h19, h20, h21, h22, h23, h24, h25⟩ := hagree c
    unfold o8 o7 o6 o5 o4 o3 o2 o1 o0 ar
    rw [h0, h1, h2, h3, h4, h5, h6, h7, h8, h9, h10, h11, h12, h13, h14, h15, h16, h17, h18, h19, h20, h21, h22, h23, h24, h25]
    rfl
  exact ⟨fun c => Cert.Spec.colsLo (kU m c), fun c => Cert.Spec.colsHi (kU m c),
    (θ_run (Cert.KernelIdeal.defs (F := Ideal)) _ _).mono (fun _ h c => ⟨(h c).1.trans (res0 m ρ c), (h c).2.1.trans (res1 m ρ c), (h c).2.2⟩)
      (Cert.KernelIdeal.GenP.run_results (F := Ideal) m ρ),
    (θ_run (Cert.ReferenceIdeal.defs (F := Ideal)) _ _).mono (fun _ h c => ⟨(h c).1.trans ((res57 m' c).trans (congrArg Cert.Spec.colsLo (net c))),
      (h c).2.1.trans ((res58 m' c).trans (congrArg Cert.Spec.colsHi (net c))), (h c).2.2⟩) (run_ref m' ρ')⟩

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ, fun m ρ _ => Cert.KernelIdeal.Gen.frame m ρ, frame_ri, trivial, algebraic⟩

end Cert.Proof

end
